-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S672x512 : Shape := ⟨2, ![672, 512]⟩
abbrev S6 : Shape := ⟨1, ![6]⟩
abbrev S7 : Shape := ⟨1, ![7]⟩
abbrev S_ : Shape := ⟨0, ![]⟩
abbrev S512x512 : Shape := ⟨2, ![512, 512]⟩
abbrev S160x512 : Shape := ⟨2, ![160, 512]⟩
abbrev S1 : Shape := ⟨1, ![1]⟩
abbrev S64x512 : Shape := ⟨2, ![64, 512]⟩
abbrev S128x512 : Shape := ⟨2, ![128, 512]⟩
abbrev S96x512 : Shape := ⟨2, ![96, 512]⟩
abbrev S80x512 : Shape := ⟨2, ![80, 512]⟩
abbrev S48x512 : Shape := ⟨2, ![48, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .local _ .vmem, ⟨0, _⟩ => ⟨S2048x512, .f32⟩
  | .local _ .vmem, ⟨1, _⟩ => ⟨S2048x512, .bf16⟩
  | .local _ .vmem, ⟨2, _⟩ => ⟨S672x512, .bf16⟩
  | .local _ .vmem, ⟨3, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_12 v2
  let c16_i32_18 : BitVec 32 := 16#32
  let v31 : BitVec 32 := Scalar.muli v23 c16_i32_18
  let v32 : BitVec 32 := Scalar.addi c0_i32 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v33 : BitVec 32 := Scalar.muli v5 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v37 : BitVec 32 := Scalar.muli v2 c16_i32_22
  let v38 : BitVec 32 := Scalar.addi c0_i32_23 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_24 : BitVec 32 := 4#32
  let v39 : BitVec 32 := Scalar.muli v26 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v41 : BitVec 32 := Scalar.muli v8 c1_i32_25
  let v42 : BitVec 32 := Scalar.addi v40 v41
  v42.toNat
def k0_dev3 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v43 : BitVec 32 := Scalar.muli v2 c16_i32_27
  let v44 : BitVec 32 := Scalar.addi c0_i32_28 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v45 : BitVec 32 := Scalar.muli v5 c4_i32_29
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_30 : BitVec 32 := 1#32
  let v47 : BitVec 32 := Scalar.muli v29 c1_i32_30
  let v48 : BitVec 32 := Scalar.addi v46 v47
  v48.toNat
def k0_off1 (d0 : Dev nD) : Fin 2 → Nat :=
  let c2_i32_4 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v11 : BitVec 32 := Scalar.muli c2_i32_4 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v12 : BitVec 32 := Scalar.addi v11 v10
  let c512_i32 : BitVec 32 := 512#32
  let v49 : BitVec 32 := Scalar.muli v12 c512_i32
  let v50 : Index := Scalar.indexCast v49
  let c0 : Index := 0#32
  ![v50.toNat, 0]
def k0_off2 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_33 : BitVec 32 := 512#32
  let v57 : BitVec 32 := Scalar.muli v22 c512_i32_33
  let v58 : Index := Scalar.indexCast v57
  let c0_34 : Index := 0#32
  ![v58.toNat, 0]
def k0_off3 (d0 : Dev nD) (c0_i32_37 : BitVec 32) : Fin 2 → Nat :=
  let c2_i32_4 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v11 : BitVec 32 := Scalar.muli c2_i32_4 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v12 : BitVec 32 := Scalar.addi v11 v10
  let c512_i32_36 : BitVec 32 := 512#32
  let v65 : BitVec 32 := Scalar.muli v12 c512_i32_36
  let v66 : BitVec 32 := Scalar.addi v65 c0_i32_37
  let c0_i32_44 : BitVec 32 := 0#32
  ![v66.toNat, 0]
def k0_dev4 (d0 : Dev nD) : Nat :=
  let c0_i32_41 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_12 v2
  let c16_i32_40 : BitVec 32 := 16#32
  let v67 : BitVec 32 := Scalar.muli v23 c16_i32_40
  let v68 : BitVec 32 := Scalar.addi c0_i32_41 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v69 : BitVec 32 := Scalar.muli v5 c4_i32_42
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v71 : BitVec 32 := Scalar.muli v8 c1_i32_43
  let v72 : BitVec 32 := Scalar.addi v70 v71
  v72.toNat
def k0_dev5 (d0 : Dev nD) : Nat :=
  let c0_i32_51 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_12 v2
  let c16_i32_50 : BitVec 32 := 16#32
  let v81 : BitVec 32 := Scalar.muli v23 c16_i32_50
  let v82 : BitVec 32 := Scalar.addi c0_i32_51 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v83 : BitVec 32 := Scalar.muli v5 c4_i32_52
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v85 : BitVec 32 := Scalar.muli v8 c1_i32_53
  let v86 : BitVec 32 := Scalar.addi v84 v85
  v86.toNat
def k0_off4 (d0 : Dev nD) (c128_i32 : BitVec 32) : Fin 2 → Nat :=
  let c2_i32_4 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v11 : BitVec 32 := Scalar.muli c2_i32_4 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v12 : BitVec 32 := Scalar.addi v11 v10
  let c512_i32_57 : BitVec 32 := 512#32
  let v93 : BitVec 32 := Scalar.muli v12 c512_i32_57
  let v94 : BitVec 32 := Scalar.addi v93 c128_i32
  let c0_i32_64 : BitVec 32 := 0#32
  ![v94.toNat, 0]
def k0_dev6 (d0 : Dev nD) : Nat :=
  let c0_i32_61 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_12 v2
  let c16_i32_60 : BitVec 32 := 16#32
  let v95 : BitVec 32 := Scalar.muli v23 c16_i32_60
  let v96 : BitVec 32 := Scalar.addi c0_i32_61 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v97 : BitVec 32 := Scalar.muli v5 c4_i32_62
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v99 : BitVec 32 := Scalar.muli v8 c1_i32_63
  let v100 : BitVec 32 := Scalar.addi v98 v99
  v100.toNat
def k0_dev7 (d0 : Dev nD) : Nat :=
  let c0_i32_71 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_12 v2
  let c16_i32_70 : BitVec 32 := 16#32
  let v109 : BitVec 32 := Scalar.muli v23 c16_i32_70
  let v110 : BitVec 32 := Scalar.addi c0_i32_71 v109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v111 : BitVec 32 := Scalar.muli v5 c4_i32_72
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v113 : BitVec 32 := Scalar.muli v8 c1_i32_73
  let v114 : BitVec 32 := Scalar.addi v112 v113
  v114.toNat
def k0_dev8 (d0 : Dev nD) : Nat :=
  let c0_i32_81 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_12 v2
  let c16_i32_80 : BitVec 32 := 16#32
  let v123 : BitVec 32 := Scalar.muli v23 c16_i32_80
  let v124 : BitVec 32 := Scalar.addi c0_i32_81 v123
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v125 : BitVec 32 := Scalar.muli v5 c4_i32_82
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v127 : BitVec 32 := Scalar.muli v8 c1_i32_83
  let v128 : BitVec 32 := Scalar.addi v126 v127
  v128.toNat
def k0_off5 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_87 : BitVec 32 := 512#32
  let v135 : BitVec 32 := Scalar.muli v22 c512_i32_87
  let c0_i32_93 : BitVec 32 := 0#32
  ![v135.toNat, 0]
def k0_dev9 (d0 : Dev nD) : Nat :=
  let c0_i32_90 : BitVec 32 := 0#32
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_12 v2
  let c16_i32_89 : BitVec 32 := 16#32
  let v136 : BitVec 32 := Scalar.muli v23 c16_i32_89
  let v137 : BitVec 32 := Scalar.addi c0_i32_90 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_91 : BitVec 32 := 4#32
  let v138 : BitVec 32 := Scalar.muli v5 c4_i32_91
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v140 : BitVec 32 := Scalar.muli v8 c1_i32_92
  let v141 : BitVec 32 := Scalar.addi v139 v140
  v141.toNat
def k0_dev10 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v160 : BitVec 32 := Scalar.muli v2 c16_i32_109
  let v161 : BitVec 32 := Scalar.addi c0_i32_110 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_111 : BitVec 32 := 4#32
  let v162 : BitVec 32 := Scalar.muli v26 c4_i32_111
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v164 : BitVec 32 := Scalar.muli v8 c1_i32_112
  let v165 : BitVec 32 := Scalar.addi v163 v164
  v165.toNat
def k0_dev11 (d0 : Dev nD) : Nat :=
  let c0_i32_118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117 : BitVec 32 := 16#32
  let v172 : BitVec 32 := Scalar.muli v2 c16_i32_117
  let v173 : BitVec 32 := Scalar.addi c0_i32_118 v172
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_119 : BitVec 32 := 4#32
  let v174 : BitVec 32 := Scalar.muli v5 c4_i32_119
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_120 : BitVec 32 := 1#32
  let v176 : BitVec 32 := Scalar.muli v29 c1_i32_120
  let v177 : BitVec 32 := Scalar.addi v175 v176
  v177.toNat
def k0_off6 (d0 : Dev nD) (c0_i32_106 : BitVec 32) : Fin 2 → Nat :=
  let c2_i32_4 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v11 : BitVec 32 := Scalar.muli c2_i32_4 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v12 : BitVec 32 := Scalar.addi v11 v10
  let c512_i32_105 : BitVec 32 := 512#32
  let v158 : BitVec 32 := Scalar.muli v12 c512_i32_105
  let v159 : BitVec 32 := Scalar.addi v158 c0_i32_106
  let v184 : Index := Scalar.indexCast v159
  let c0_123 : Index := 0#32
  ![v184.toNat, 0]
def k0_dev12 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v205 : BitVec 32 := Scalar.muli v2 c16_i32_139
  let v206 : BitVec 32 := Scalar.addi c0_i32_140 v205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_141 : BitVec 32 := 4#32
  let v207 : BitVec 32 := Scalar.muli v26 c4_i32_141
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v209 : BitVec 32 := Scalar.muli v8 c1_i32_142
  let v210 : BitVec 32 := Scalar.addi v208 v209
  v210.toNat
def k0_dev13 (d0 : Dev nD) : Nat :=
  let c0_i32_148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_147 : BitVec 32 := 16#32
  let v217 : BitVec 32 := Scalar.muli v2 c16_i32_147
  let v218 : BitVec 32 := Scalar.addi c0_i32_148 v217
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_149 : BitVec 32 := 4#32
  let v219 : BitVec 32 := Scalar.muli v5 c4_i32_149
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_150 : BitVec 32 := 1#32
  let v221 : BitVec 32 := Scalar.muli v29 c1_i32_150
  let v222 : BitVec 32 := Scalar.addi v220 v221
  v222.toNat
def k0_dev14 (d0 : Dev nD) : Nat :=
  let c0_i32_170 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_169 : BitVec 32 := 16#32
  let v250 : BitVec 32 := Scalar.muli v2 c16_i32_169
  let v251 : BitVec 32 := Scalar.addi c0_i32_170 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_171 : BitVec 32 := 4#32
  let v252 : BitVec 32 := Scalar.muli v26 c4_i32_171
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v254 : BitVec 32 := Scalar.muli v8 c1_i32_172
  let v255 : BitVec 32 := Scalar.addi v253 v254
  v255.toNat
def k0_dev15 (d0 : Dev nD) : Nat :=
  let c0_i32_178 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_177 : BitVec 32 := 16#32
  let v262 : BitVec 32 := Scalar.muli v2 c16_i32_177
  let v263 : BitVec 32 := Scalar.addi c0_i32_178 v262
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_179 : BitVec 32 := 4#32
  let v264 : BitVec 32 := Scalar.muli v5 c4_i32_179
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_180 : BitVec 32 := 1#32
  let v266 : BitVec 32 := Scalar.muli v29 c1_i32_180
  let v267 : BitVec 32 := Scalar.addi v265 v266
  v267.toNat
def k0_off7 (d0 : Dev nD) (c128_i32_166 : BitVec 32) : Fin 2 → Nat :=
  let c2_i32_4 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v11 : BitVec 32 := Scalar.muli c2_i32_4 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v12 : BitVec 32 := Scalar.addi v11 v10
  let c512_i32_165 : BitVec 32 := 512#32
  let v248 : BitVec 32 := Scalar.muli v12 c512_i32_165
  let v249 : BitVec 32 := Scalar.addi v248 c128_i32_166
  let v274 : Index := Scalar.indexCast v249
  let c0_183 : Index := 0#32
  ![v274.toNat, 0]
def k0_dev16 (d0 : Dev nD) : Nat :=
  let c0_i32_200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_199 : BitVec 32 := 16#32
  let v295 : BitVec 32 := Scalar.muli v2 c16_i32_199
  let v296 : BitVec 32 := Scalar.addi c0_i32_200 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_201 : BitVec 32 := 4#32
  let v297 : BitVec 32 := Scalar.muli v26 c4_i32_201
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v299 : BitVec 32 := Scalar.muli v8 c1_i32_202
  let v300 : BitVec 32 := Scalar.addi v298 v299
  v300.toNat
def k0_dev17 (d0 : Dev nD) : Nat :=
  let c0_i32_208 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_207 : BitVec 32 := 16#32
  let v307 : BitVec 32 := Scalar.muli v2 c16_i32_207
  let v308 : BitVec 32 := Scalar.addi c0_i32_208 v307
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_209 : BitVec 32 := 4#32
  let v309 : BitVec 32 := Scalar.muli v5 c4_i32_209
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_210 : BitVec 32 := 1#32
  let v311 : BitVec 32 := Scalar.muli v29 c1_i32_210
  let v312 : BitVec 32 := Scalar.addi v310 v311
  v312.toNat
def k0_dev18 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v340 : BitVec 32 := Scalar.muli v2 c16_i32_229
  let v341 : BitVec 32 := Scalar.addi c0_i32_230 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_231 : BitVec 32 := 4#32
  let v342 : BitVec 32 := Scalar.muli v26 c4_i32_231
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v344 : BitVec 32 := Scalar.muli v8 c1_i32_232
  let v345 : BitVec 32 := Scalar.addi v343 v344
  v345.toNat
def k0_dev19 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v352 : BitVec 32 := Scalar.muli v2 c16_i32_237
  let v353 : BitVec 32 := Scalar.addi c0_i32_238 v352
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v354 : BitVec 32 := Scalar.muli v5 c4_i32_239
  let v355 : BitVec 32 := Scalar.addi v353 v354
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_240 : BitVec 32 := 1#32
  let v356 : BitVec 32 := Scalar.muli v29 c1_i32_240
  let v357 : BitVec 32 := Scalar.addi v355 v356
  v357.toNat
def k0_off8 (d0 : Dev nD) (c0_i32_260 : BitVec 32) : Fin 2 → Nat :=
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v16 : BitVec 32 := Scalar.muli c2_i32_7 v9
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_8 v10
  let v18 : BitVec 32 := Scalar.addi v16 v17
  let c512_i32_259 : BitVec 32 := 512#32
  let v393 : BitVec 32 := Scalar.muli v18 c512_i32_259
  let v394 : BitVec 32 := Scalar.addi v393 c0_i32_260
  let c0_i32_266 : BitVec 32 := 0#32
  ![v394.toNat, 0]
def k0_off9 (d0 : Dev nD) (c0_i32_269 : BitVec 32) : Fin 2 → Nat :=
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v16 : BitVec 32 := Scalar.muli c2_i32_7 v9
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_8 v10
  let v18 : BitVec 32 := Scalar.addi v16 v17
  let c512_i32_268 : BitVec 32 := 512#32
  let v405 : BitVec 32 := Scalar.muli v18 c512_i32_268
  let v406 : BitVec 32 := Scalar.addi v405 c0_i32_269
  let v407 : Index := Scalar.indexCast v406
  let c0_270 : Index := 0#32
  ![v407.toNat, 0]
def k0_off10 (d0 : Dev nD) (c128_i32_288 : BitVec 32) : Fin 2 → Nat :=
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v16 : BitVec 32 := Scalar.muli c2_i32_7 v9
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_8 v10
  let v18 : BitVec 32 := Scalar.addi v16 v17
  let c512_i32_287 : BitVec 32 := 512#32
  let v439 : BitVec 32 := Scalar.muli v18 c512_i32_287
  let v440 : BitVec 32 := Scalar.addi v439 c128_i32_288
  let c0_i32_294 : BitVec 32 := 0#32
  ![v440.toNat, 0]
def k0_off11 (d0 : Dev nD) : Fin 2 → Nat :=
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v16 : BitVec 32 := Scalar.muli c2_i32_7 v9
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_8 v10
  let v18 : BitVec 32 := Scalar.addi v16 v17
  let c512_i32_296 : BitVec 32 := 512#32
  let v451 : BitVec 32 := Scalar.muli v18 c512_i32_296
  let c160_i32 : BitVec 32 := 160#32
  let v452 : BitVec 32 := Scalar.addi v451 c160_i32
  let c0_i32_303 : BitVec 32 := 0#32
  ![v452.toNat, 0]
def k0_dev20 (d0 : Dev nD) : Nat :=
  let c0_i32_300 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_299 : BitVec 32 := 16#32
  let v453 : BitVec 32 := Scalar.muli v2 c16_i32_299
  let v454 : BitVec 32 := Scalar.addi c0_i32_300 v453
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_301 : BitVec 32 := 4#32
  let v455 : BitVec 32 := Scalar.muli v26 c4_i32_301
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v457 : BitVec 32 := Scalar.muli v8 c1_i32_302
  let v458 : BitVec 32 := Scalar.addi v456 v457
  v458.toNat
def k0_off12 (d0 : Dev nD) (c128_i32_306 : BitVec 32) : Fin 2 → Nat :=
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v16 : BitVec 32 := Scalar.muli c2_i32_7 v9
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_8 v10
  let v18 : BitVec 32 := Scalar.addi v16 v17
  let c512_i32_305 : BitVec 32 := 512#32
  let v465 : BitVec 32 := Scalar.muli v18 c512_i32_305
  let v466 : BitVec 32 := Scalar.addi v465 c128_i32_306
  let v467 : Index := Scalar.indexCast v466
  let c0_307 : Index := 0#32
  ![v467.toNat, 0]
def k0_off13 (d0 : Dev nD) : Fin 2 → Nat :=
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v16 : BitVec 32 := Scalar.muli c2_i32_7 v9
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v17 : BitVec 32 := Scalar.subi c1_i32_8 v10
  let v18 : BitVec 32 := Scalar.addi v16 v17
  let c512_i32_319 : BitVec 32 := 512#32
  let v488 : BitVec 32 := Scalar.muli v18 c512_i32_319
  let c256_i32_320 : BitVec 32 := 256#32
  let v489 : BitVec 32 := Scalar.addi v488 c256_i32_320
  let c0_i32_326 : BitVec 32 := 0#32
  ![v489.toNat, 0]
def k0_dev21 (d0 : Dev nD) : Nat :=
  let c0_i32_323 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_322 : BitVec 32 := 16#32
  let v490 : BitVec 32 := Scalar.muli v2 c16_i32_322
  let v491 : BitVec 32 := Scalar.addi c0_i32_323 v490
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v24 : BitVec 32 := Scalar.addi v5 c1_i32_13
  let c2_i32_14 : BitVec 32 := 2#32
  let c2_i32_2 : BitVec 32 := 2#32
  let v9 : BitVec 32 := Scalar.remsi v5 c2_i32_2
  let v25 : BitVec 32 := Scalar.muli c2_i32_14 v9
  let v26 : BitVec 32 := Scalar.subi v24 v25
  let c4_i32_324 : BitVec 32 := 4#32
  let v492 : BitVec 32 := Scalar.muli v26 c4_i32_324
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v494 : BitVec 32 := Scalar.muli v8 c1_i32_325
  let v495 : BitVec 32 := Scalar.addi v493 v494
  v495.toNat
def k0_off14 (d0 : Dev nD) (c0_i32_334 : BitVec 32) : Fin 2 → Nat :=
  let c2_i32_6 : BitVec 32 := 2#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v13 : BitVec 32 := Scalar.subi c1_i32_5 v9
  let v14 : BitVec 32 := Scalar.muli c2_i32_6 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.addi v14 v10
  let c512_i32_333 : BitVec 32 := 512#32
  let v513 : BitVec 32 := Scalar.muli v15 c512_i32_333
  let v514 : BitVec 32 := Scalar.addi v513 c0_i32_334
  let c0_i32_340 : BitVec 32 := 0#32
  ![v514.toNat, 0]
def k0_off15 (d0 : Dev nD) (c0_i32_343 : BitVec 32) : Fin 2 → Nat :=
  let c2_i32_6 : BitVec 32 := 2#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v13 : BitVec 32 := Scalar.subi c1_i32_5 v9
  let v14 : BitVec 32 := Scalar.muli c2_i32_6 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.addi v14 v10
  let c512_i32_342 : BitVec 32 := 512#32
  let v525 : BitVec 32 := Scalar.muli v15 c512_i32_342
  let v526 : BitVec 32 := Scalar.addi v525 c0_i32_343
  let v527 : Index := Scalar.indexCast v526
  let c0_344 : Index := 0#32
  ![v527.toNat, 0]
def k0_off16 (d0 : Dev nD) (c128_i32_362 : BitVec 32) : Fin 2 → Nat :=
  let c2_i32_6 : BitVec 32 := 2#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v13 : BitVec 32 := Scalar.subi c1_i32_5 v9
  let v14 : BitVec 32 := Scalar.muli c2_i32_6 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.addi v14 v10
  let c512_i32_361 : BitVec 32 := 512#32
  let v559 : BitVec 32 := Scalar.muli v15 c512_i32_361
  let v560 : BitVec 32 := Scalar.addi v559 c128_i32_362
  let c0_i32_368 : BitVec 32 := 0#32
  ![v560.toNat, 0]
def k0_off17 (d0 : Dev nD) (c128_i32_371 : BitVec 32) : Fin 2 → Nat :=
  let c2_i32_6 : BitVec 32 := 2#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v13 : BitVec 32 := Scalar.subi c1_i32_5 v9
  let v14 : BitVec 32 := Scalar.muli c2_i32_6 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.addi v14 v10
  let c512_i32_370 : BitVec 32 := 512#32
  let v571 : BitVec 32 := Scalar.muli v15 c512_i32_370
  let v572 : BitVec 32 := Scalar.addi v571 c128_i32_371
  let v573 : Index := Scalar.indexCast v572
  let c0_372 : Index := 0#32
  ![v573.toNat, 0]
def k0_off18 (d0 : Dev nD) : Fin 2 → Nat :=
  let c2_i32_6 : BitVec 32 := 2#32
  let c1_i32_5 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v13 : BitVec 32 := Scalar.subi c1_i32_5 v9
  let v14 : BitVec 32 := Scalar.muli c2_i32_6 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v15 : BitVec 32 := Scalar.addi v14 v10
  let c512_i32_384 : BitVec 32 := 512#32
  let v594 : BitVec 32 := Scalar.muli v15 c512_i32_384
  let c336_i32 : BitVec 32 := 336#32
  let v595 : BitVec 32 := Scalar.addi v594 c336_i32
  let c0_i32_391 : BitVec 32 := 0#32
  ![v595.toNat, 0]
def k0_dev22 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v596 : BitVec 32 := Scalar.muli v2 c16_i32_387
  let v597 : BitVec 32 := Scalar.addi c0_i32_388 v596
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v598 : BitVec 32 := Scalar.muli v5 c4_i32_389
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_390 : BitVec 32 := 1#32
  let v600 : BitVec 32 := Scalar.muli v29 c1_i32_390
  let v601 : BitVec 32 := Scalar.addi v599 v600
  v601.toNat
def k0_dev23 (d0 : Dev nD) : Nat :=
  let c0_i32_412 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_411 : BitVec 32 := 16#32
  let v633 : BitVec 32 := Scalar.muli v2 c16_i32_411
  let v634 : BitVec 32 := Scalar.addi c0_i32_412 v633
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_413 : BitVec 32 := 4#32
  let v635 : BitVec 32 := Scalar.muli v5 c4_i32_413
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.addi v8 c1_i32_15
  let c2_i32_16 : BitVec 32 := 2#32
  let c2_i32_3 : BitVec 32 := 2#32
  let v10 : BitVec 32 := Scalar.remsi v8 c2_i32_3
  let v28 : BitVec 32 := Scalar.muli c2_i32_16 v10
  let v29 : BitVec 32 := Scalar.subi v27 v28
  let c1_i32_414 : BitVec 32 := 1#32
  let v637 : BitVec 32 := Scalar.muli v29 c1_i32_414
  let v638 : BitVec 32 := Scalar.addi v636 v637
  v638.toNat
def k0_off19 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_436 : BitVec 32 := 512#32
  let v679 : BitVec 32 := Scalar.muli v22 c512_i32_436
  let c160_i32_437 : BitVec 32 := 160#32
  let v680 : BitVec 32 := Scalar.addi v679 c160_i32_437
  let c0_i32_443 : BitVec 32 := 0#32
  ![v680.toNat, 0]
def k0_off20 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_445 : BitVec 32 := 512#32
  let v691 : BitVec 32 := Scalar.muli v22 c512_i32_445
  let c160_i32_446 : BitVec 32 := 160#32
  let v692 : BitVec 32 := Scalar.addi v691 c160_i32_446
  let v693 : Index := Scalar.indexCast v692
  let c0_447 : Index := 0#32
  ![v693.toNat, 0]
def k0_off21 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_450 : BitVec 32 := 512#32
  let v702 : BitVec 32 := Scalar.muli v22 c512_i32_450
  let c256_i32_451 : BitVec 32 := 256#32
  let v703 : BitVec 32 := Scalar.addi v702 c256_i32_451
  let c0_i32_457 : BitVec 32 := 0#32
  ![v703.toNat, 0]
def k0_off22 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_459 : BitVec 32 := 512#32
  let v714 : BitVec 32 := Scalar.muli v22 c512_i32_459
  let c256_i32_460 : BitVec 32 := 256#32
  let v715 : BitVec 32 := Scalar.addi v714 c256_i32_460
  let v716 : Index := Scalar.indexCast v715
  let c0_461 : Index := 0#32
  ![v716.toNat, 0]
def k0_off23 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_464 : BitVec 32 := 512#32
  let v725 : BitVec 32 := Scalar.muli v22 c512_i32_464
  let c336_i32_465 : BitVec 32 := 336#32
  let v726 : BitVec 32 := Scalar.addi v725 c336_i32_465
  let c0_i32_471 : BitVec 32 := 0#32
  ![v726.toNat, 0]
def k0_off24 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_473 : BitVec 32 := 512#32
  let v737 : BitVec 32 := Scalar.muli v22 c512_i32_473
  let c336_i32_474 : BitVec 32 := 336#32
  let v738 : BitVec 32 := Scalar.addi v737 c336_i32_474
  let v739 : Index := Scalar.indexCast v738
  let c0_475 : Index := 0#32
  ![v739.toNat, 0]
def k0_off25 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_478 : BitVec 32 := 512#32
  let v748 : BitVec 32 := Scalar.muli v22 c512_i32_478
  let c384_i32_479 : BitVec 32 := 384#32
  let v749 : BitVec 32 := Scalar.addi v748 c384_i32_479
  let c0_i32_485 : BitVec 32 := 0#32
  ![v749.toNat, 0]
def k0_off26 (d0 : Dev nD) : Fin 2 → Nat :=
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v19 : BitVec 32 := Scalar.subi c1_i32_9 v9
  let v20 : BitVec 32 := Scalar.muli c2_i32_10 v19
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v21 : BitVec 32 := Scalar.subi c1_i32_11 v10
  let v22 : BitVec 32 := Scalar.addi v20 v21
  let c512_i32_487 : BitVec 32 := 512#32
  let v760 : BitVec 32 := Scalar.muli v22 c512_i32_487
  let c384_i32_488 : BitVec 32 := 384#32
  let v761 : BitVec 32 := Scalar.addi v760 c384_i32_488
  let v762 : Index := Scalar.indexCast v761
  let c0_489 : Index := 0#32
  ![v762.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  h_S512x512 : 0 < S512x512.numel
  shapeCasts_S512x512_S512x512 : S512x512.ShapeCasts S512x512
  bitsLt_bf16_f32 : FTy.bits .bf16 < FTy.bits .f32
  inb_S672x512_S512x512_0_0 : ∀ a, (![0, 0] : Fin 2 → Nat) a + S512x512.size a ≤ S672x512.size a
  packedbf16_S672x512_S512x512_0_0 : (Rect.unit (s := S672x512) ![0, 0] S512x512.size inb_S672x512_S512x512_0_0).PackedRows (EltTy.packing .bf16)
  h_S160x512 : 0 < S160x512.numel
  shapeCasts_S160x512_S160x512 : S160x512.ShapeCasts S160x512
  inb_S672x512_S160x512_512_0 : ∀ a, (![512, 0] : Fin 2 → Nat) a + S160x512.size a ≤ S672x512.size a
  packedbf16_S672x512_S160x512_512_0 : (Rect.unit (s := S672x512) ![512, 0] S160x512.size inb_S672x512_S160x512_512_0).PackedRows (EltTy.packing .bf16)
  inb_S6_S1_0 : ∀ a, (![0] : Fin 1 → Nat) a + S1.size a ≤ S6.size a
  squeezes_S1_S_ : S1.Squeezes S_
  inb_S672x512_S64x512_0_0 : ∀ a, (![0, 0] : Fin 2 → Nat) a + S64x512.size a ≤ S672x512.size a
  wordsbf16_S672x512_S64x512_0_0 : (Rect.unit (s := S672x512) ![0, 0] S64x512.size inb_S672x512_S64x512_0_0).WholeWords (EltTy.packing .bf16)
  inb_S6_S1_1 : ∀ a, (![1] : Fin 1 → Nat) a + S1.size a ≤ S6.size a
  inb_S672x512_S64x512_64_0 : ∀ a, (![64, 0] : Fin 2 → Nat) a + S64x512.size a ≤ S672x512.size a
  wordsbf16_S672x512_S64x512_64_0 : (Rect.unit (s := S672x512) ![64, 0] S64x512.size inb_S672x512_S64x512_64_0).WholeWords (EltTy.packing .bf16)
  inb_S6_S1_2 : ∀ a, (![2] : Fin 1 → Nat) a + S1.size a ≤ S6.size a
  inb_S672x512_S128x512_128_0 : ∀ a, (![128, 0] : Fin 2 → Nat) a + S128x512.size a ≤ S672x512.size a
  wordsbf16_S672x512_S128x512_128_0 : (Rect.unit (s := S672x512) ![128, 0] S128x512.size inb_S672x512_S128x512_128_0).WholeWords (EltTy.packing .bf16)
  inb_S6_S1_3 : ∀ a, (![3] : Fin 1 → Nat) a + S1.size a ≤ S6.size a
  inb_S672x512_S128x512_256_0 : ∀ a, (![256, 0] : Fin 2 → Nat) a + S128x512.size a ≤ S672x512.size a
  wordsbf16_S672x512_S128x512_256_0 : (Rect.unit (s := S672x512) ![256, 0] S128x512.size inb_S672x512_S128x512_256_0).WholeWords (EltTy.packing .bf16)
  inb_S6_S1_4 : ∀ a, (![4] : Fin 1 → Nat) a + S1.size a ≤ S6.size a
  inb_S672x512_S128x512_384_0 : ∀ a, (![384, 0] : Fin 2 → Nat) a + S128x512.size a ≤ S672x512.size a
  wordsbf16_S672x512_S128x512_384_0 : (Rect.unit (s := S672x512) ![384, 0] S128x512.size inb_S672x512_S128x512_384_0).WholeWords (EltTy.packing .bf16)
  inb_S6_S1_5 : ∀ a, (![5] : Fin 1 → Nat) a + S1.size a ≤ S6.size a
  wordsbf16_S672x512_S160x512_512_0 : (Rect.unit (s := S672x512) ![512, 0] S160x512.size inb_S672x512_S160x512_512_0).WholeWords (EltTy.packing .bf16)
  inb_S7_S1_0 : ∀ a, (![0] : Fin 1 → Nat) a + S1.size a ≤ S7.size a
  h_S64x512 : 0 < S64x512.numel
  shapeCasts_S64x512_S64x512 : S64x512.ShapeCasts S64x512
  inb_S7_S1_1 : ∀ a, (![1] : Fin 1 → Nat) a + S1.size a ≤ S7.size a
  inb_S7_S1_2 : ∀ a, (![2] : Fin 1 → Nat) a + S1.size a ≤ S7.size a
  h_S128x512 : 0 < S128x512.numel
  shapeCasts_S128x512_S128x512 : S128x512.ShapeCasts S128x512
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  h_S96x512 : 0 < S96x512.numel
  shapeCasts_S96x512_S96x512 : S96x512.ShapeCasts S96x512
  h_S80x512 : 0 < S80x512.numel
  shapeCasts_S80x512_S80x512 : S80x512.ShapeCasts S80x512
  h_S48x512 : 0 < S48x512.numel
  shapeCasts_S48x512_S48x512 : S48x512.ShapeCasts S48x512
  hcc0_scratch2 : 2 + S6.numel ≤ 43
  hcc0_scratch3 : 8 + S6.numel ≤ 43
  hcc0_scratch4 : 14 + S7.numel ≤ 43
  hcc0_scratch5 : 21 + S7.numel ≤ 43
  hcc0_scratch6 : 28 + S7.numel ≤ 43
  hcc0_scratch7 : 35 + S7.numel ≤ 43
  hcc0_scratch8 : 42 + S_.numel ≤ 43
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S512x512.size a ≤ S2048x512.size a
  k0_off2_inb : ∀ d0 : Dev nD, ∀ a, (k0_off2 d0) a + S160x512.size a ≤ S2048x512.size a
  k0_off3_inb : ∀ d0 : Dev nD, ∀ (r : Fin 2), ∀ a, (k0_off3 d0 (BitVec.ofNat 32 (64 * r.val))) a + S64x512.size a ≤ S2048x512.size a
  k0_off3_wordsbf16 : ∀ d0 : Dev nD, ∀ (r : Fin 2), (Rect.unit (s := S2048x512) (k0_off3 d0 (BitVec.ofNat 32 (64 * r.val))) S64x512.size (k0_off3_inb d0 r)).WholeWords (EltTy.packing .bf16)
  k0_dev4_lt : ∀ d0 : Dev nD, (k0_dev4 d0) < nD
  k0_dev5_lt : ∀ d0 : Dev nD, (k0_dev5 d0) < nD
  k0_off4_inb : ∀ d0 : Dev nD, ∀ (r : Fin 3), ∀ a, (k0_off4 d0 (BitVec.ofNat 32 (128 + 128 * r.val))) a + S128x512.size a ≤ S2048x512.size a
  k0_off4_wordsbf16 : ∀ d0 : Dev nD, ∀ (r : Fin 3), (Rect.unit (s := S2048x512) (k0_off4 d0 (BitVec.ofNat 32 (128 + 128 * r.val))) S128x512.size (k0_off4_inb d0 r)).WholeWords (EltTy.packing .bf16)
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off5_inb : ∀ d0 : Dev nD, ∀ a, (k0_off5 d0) a + S160x512.size a ≤ S2048x512.size a
  k0_off5_wordsbf16 : ∀ d0 : Dev nD, (Rect.unit (s := S2048x512) (k0_off5 d0) S160x512.size (k0_off5_inb d0)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off6_inb : ∀ d0 : Dev nD, ∀ (r : Fin 2), ∀ a, (k0_off6 d0 (BitVec.ofNat 32 (64 * r.val))) a + S64x512.size a ≤ S2048x512.size a
  k0_off6_packedbf16 : ∀ d0 : Dev nD, ∀ (r : Fin 2), (Rect.unit (s := S2048x512) (k0_off6 d0 (BitVec.ofNat 32 (64 * r.val))) S64x512.size (k0_off6_inb d0 r)).PackedRows (EltTy.packing .bf16)
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off7_inb : ∀ d0 : Dev nD, ∀ (r : Fin 3), ∀ a, (k0_off7 d0 (BitVec.ofNat 32 (128 + 128 * r.val))) a + S128x512.size a ≤ S2048x512.size a
  k0_off7_packedbf16 : ∀ d0 : Dev nD, ∀ (r : Fin 3), (Rect.unit (s := S2048x512) (k0_off7 d0 (BitVec.ofNat 32 (128 + 128 * r.val))) S128x512.size (k0_off7_inb d0 r)).PackedRows (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off2_packedbf16 : ∀ d0 : Dev nD, (Rect.unit (s := S2048x512) (k0_off2 d0) S160x512.size (k0_off2_inb d0)).PackedRows (EltTy.packing .bf16)
  k0_off8_inb : ∀ d0 : Dev nD, ∀ (r : Fin 2), ∀ a, (k0_off8 d0 (BitVec.ofNat 32 (64 * r.val))) a + S64x512.size a ≤ S2048x512.size a
  k0_off8_wordsbf16 : ∀ d0 : Dev nD, ∀ (r : Fin 2), (Rect.unit (s := S2048x512) (k0_off8 d0 (BitVec.ofNat 32 (64 * r.val))) S64x512.size (k0_off8_inb d0 r)).WholeWords (EltTy.packing .bf16)
  k0_off9_inb : ∀ d0 : Dev nD, ∀ (r : Fin 2), ∀ a, (k0_off9 d0 (BitVec.ofNat 32 (64 * r.val))) a + S64x512.size a ≤ S2048x512.size a
  k0_off9_packedbf16 : ∀ d0 : Dev nD, ∀ (r : Fin 2), (Rect.unit (s := S2048x512) (k0_off9 d0 (BitVec.ofNat 32 (64 * r.val))) S64x512.size (k0_off9_inb d0 r)).PackedRows (EltTy.packing .bf16)
  k0_off10_inb : ∀ d0 : Dev nD, ∀ (r : Fin 3), ∀ a, (k0_off10 d0 (BitVec.ofNat 32 (128 + 128 * r.val))) a + S128x512.size a ≤ S2048x512.size a
  k0_off10_wordsbf16 : ∀ d0 : Dev nD, ∀ (r : Fin 3), (Rect.unit (s := S2048x512) (k0_off10 d0 (BitVec.ofNat 32 (128 + 128 * r.val))) S128x512.size (k0_off10_inb d0 r)).WholeWords (EltTy.packing .bf16)
  k0_off11_inb : ∀ d0 : Dev nD, ∀ a, (k0_off11 d0) a + S96x512.size a ≤ S2048x512.size a
  k0_off11_wordsbf16 : ∀ d0 : Dev nD, (Rect.unit (s := S2048x512) (k0_off11 d0) S96x512.size (k0_off11_inb d0)).WholeWords (EltTy.packing .bf16)
  k0_dev20_lt : ∀ d0 : Dev nD, (k0_dev20 d0) < nD
  k0_off12_inb : ∀ d0 : Dev nD, ∀ (r : Fin 3), ∀ a, (k0_off12 d0 (BitVec.ofNat 32 (128 + 128 * r.val))) a + S128x512.size a ≤ S2048x512.size a
  k0_off12_packedbf16 : ∀ d0 : Dev nD, ∀ (r : Fin 3), (Rect.unit (s := S2048x512) (k0_off12 d0 (BitVec.ofNat 32 (128 + 128 * r.val))) S128x512.size (k0_off12_inb d0 r)).PackedRows (EltTy.packing .bf16)
  k0_off13_inb : ∀ d0 : Dev nD, ∀ a, (k0_off13 d0) a + S80x512.size a ≤ S2048x512.size a
  k0_off13_wordsbf16 : ∀ d0 : Dev nD, (Rect.unit (s := S2048x512) (k0_off13 d0) S80x512.size (k0_off13_inb d0)).WholeWords (EltTy.packing .bf16)
  k0_dev21_lt : ∀ d0 : Dev nD, (k0_dev21 d0) < nD
  k0_off14_inb : ∀ d0 : Dev nD, ∀ (r : Fin 2), ∀ a, (k0_off14 d0 (BitVec.ofNat 32 (64 * r.val))) a + S64x512.size a ≤ S2048x512.size a
  k0_off14_wordsbf16 : ∀ d0 : Dev nD, ∀ (r : Fin 2), (Rect.unit (s := S2048x512) (k0_off14 d0 (BitVec.ofNat 32 (64 * r.val))) S64x512.size (k0_off14_inb d0 r)).WholeWords (EltTy.packing .bf16)
  k0_off15_inb : ∀ d0 : Dev nD, ∀ (r : Fin 2), ∀ a, (k0_off15 d0 (BitVec.ofNat 32 (64 * r.val))) a + S64x512.size a ≤ S2048x512.size a
  k0_off15_packedbf16 : ∀ d0 : Dev nD, ∀ (r : Fin 2), (Rect.unit (s := S2048x512) (k0_off15 d0 (BitVec.ofNat 32 (64 * r.val))) S64x512.size (k0_off15_inb d0 r)).PackedRows (EltTy.packing .bf16)
  k0_off16_inb : ∀ d0 : Dev nD, ∀ (r : Fin 3), ∀ a, (k0_off16 d0 (BitVec.ofNat 32 (128 + 128 * r.val))) a + S128x512.size a ≤ S2048x512.size a
  k0_off16_wordsbf16 : ∀ d0 : Dev nD, ∀ (r : Fin 3), (Rect.unit (s := S2048x512) (k0_off16 d0 (BitVec.ofNat 32 (128 + 128 * r.val))) S128x512.size (k0_off16_inb d0 r)).WholeWords (EltTy.packing .bf16)
  k0_off17_inb : ∀ d0 : Dev nD, ∀ (r : Fin 3), ∀ a, (k0_off17 d0 (BitVec.ofNat 32 (128 + 128 * r.val))) a + S128x512.size a ≤ S2048x512.size a
  k0_off17_packedbf16 : ∀ d0 : Dev nD, ∀ (r : Fin 3), (Rect.unit (s := S2048x512) (k0_off17 d0 (BitVec.ofNat 32 (128 + 128 * r.val))) S128x512.size (k0_off17_inb d0 r)).PackedRows (EltTy.packing .bf16)
  k0_off18_inb : ∀ d0 : Dev nD, ∀ a, (k0_off18 d0) a + S48x512.size a ≤ S2048x512.size a
  k0_off18_wordsbf16 : ∀ d0 : Dev nD, (Rect.unit (s := S2048x512) (k0_off18 d0) S48x512.size (k0_off18_inb d0)).WholeWords (EltTy.packing .bf16)
  k0_dev22_lt : ∀ d0 : Dev nD, (k0_dev22 d0) < nD
  k0_dev23_lt : ∀ d0 : Dev nD, (k0_dev23 d0) < nD
  k0_off19_inb : ∀ d0 : Dev nD, ∀ a, (k0_off19 d0) a + S96x512.size a ≤ S2048x512.size a
  k0_off19_wordsbf16 : ∀ d0 : Dev nD, (Rect.unit (s := S2048x512) (k0_off19 d0) S96x512.size (k0_off19_inb d0)).WholeWords (EltTy.packing .bf16)
  k0_off20_inb : ∀ d0 : Dev nD, ∀ a, (k0_off20 d0) a + S96x512.size a ≤ S2048x512.size a
  k0_off20_packedbf16 : ∀ d0 : Dev nD, (Rect.unit (s := S2048x512) (k0_off20 d0) S96x512.size (k0_off20_inb d0)).PackedRows (EltTy.packing .bf16)
  k0_off21_inb : ∀ d0 : Dev nD, ∀ a, (k0_off21 d0) a + S80x512.size a ≤ S2048x512.size a
  k0_off21_wordsbf16 : ∀ d0 : Dev nD, (Rect.unit (s := S2048x512) (k0_off21 d0) S80x512.size (k0_off21_inb d0)).WholeWords (EltTy.packing .bf16)
  k0_off22_inb : ∀ d0 : Dev nD, ∀ a, (k0_off22 d0) a + S80x512.size a ≤ S2048x512.size a
  k0_off22_packedbf16 : ∀ d0 : Dev nD, (Rect.unit (s := S2048x512) (k0_off22 d0) S80x512.size (k0_off22_inb d0)).PackedRows (EltTy.packing .bf16)
  k0_off23_inb : ∀ d0 : Dev nD, ∀ a, (k0_off23 d0) a + S48x512.size a ≤ S2048x512.size a
  k0_off23_wordsbf16 : ∀ d0 : Dev nD, (Rect.unit (s := S2048x512) (k0_off23 d0) S48x512.size (k0_off23_inb d0)).WholeWords (EltTy.packing .bf16)
  k0_off24_inb : ∀ d0 : Dev nD, ∀ a, (k0_off24 d0) a + S48x512.size a ≤ S2048x512.size a
  k0_off24_packedbf16 : ∀ d0 : Dev nD, (Rect.unit (s := S2048x512) (k0_off24 d0) S48x512.size (k0_off24_inb d0)).PackedRows (EltTy.packing .bf16)
  k0_off25_inb : ∀ d0 : Dev nD, ∀ a, (k0_off25 d0) a + S128x512.size a ≤ S2048x512.size a
  k0_off25_wordsbf16 : ∀ d0 : Dev nD, (Rect.unit (s := S2048x512) (k0_off25 d0) S128x512.size (k0_off25_inb d0)).WholeWords (EltTy.packing .bf16)
  k0_off26_inb : ∀ d0 : Dev nD, ∀ a, (k0_off26 d0) a + S128x512.size a ≤ S2048x512.size a
  k0_off26_packedbf16 : ∀ d0 : Dev nD, (Rect.unit (s := S2048x512) (k0_off26 d0) S128x512.size (k0_off26_inb d0)).PackedRows (EltTy.packing .bf16)
  hstage0_0 : ∀ j, (stage0_0 j).IsWhole
  hstage0_1 : ∀ j, (stage0_1 j).IsWhole

variable [Facts₀]

abbrev cc0_scratch2 : DmaSems sig S6 := SemArray.consecutive 2 S6 hcc0_scratch2
abbrev cc0_scratch3 : DmaSems sig S6 := SemArray.consecutive 8 S6 hcc0_scratch3
abbrev cc0_scratch4 : DmaSems sig S7 := SemArray.consecutive 14 S7 hcc0_scratch4
abbrev cc0_scratch5 : DmaSems sig S7 := SemArray.consecutive 21 S7 hcc0_scratch5
abbrev cc0_scratch6 : DmaSems sig S7 := SemArray.consecutive 28 S7 hcc0_scratch6
abbrev cc0_scratch7 : DmaSems sig S7 := SemArray.consecutive 35 S7 hcc0_scratch7
abbrev cc0_scratch8 : DmaSems sig S_ := SemArray.consecutive 42 S_ hcc0_scratch8

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | .hbm, ⟨4, _⟩ => ⟨S2048x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4096x512_S2x2048x512 : S4096x512.ShapeCasts S2x2048x512
  reducesTo_S2x2048x512_S2048x512_d0 : S2x2048x512.ReducesTo [0] S2048x512
  h_S_ : 0 < S_.numel
  bitsLt_bf16_f32 : FTy.bits .bf16 < FTy.bits .f32

variable [Facts₀]

class Facts : Prop extends Facts₀ where

variable [Facts]
-- ==== Proof.Mesh.lean ====
import proofs.«900723_g7700000000000724_dist_ar_v7x_xyz2x4x4_x_m2048_n512_bf16_1_alg».proof.Proof.Gen.KernelIdeal

namespace Cert.KernelIdeal.Mesh

open Idealize.ShloMosaic

def partner (c : Dev nD) : Dev nD := ⟨(c.val + 16) % 32, Nat.mod_lt _ (by decide)⟩
def ybud (c : Dev nD) : Dev nD := ⟨if (c.val / 4) % 2 = 0 then c.val + 4 else c.val - 4, by
  have := c.isLt; have h : nD = 32 := rfl; split <;> omega⟩
def zbud (c : Dev nD) : Dev nD := ⟨if c.val % 2 = 0 then c.val + 1 else c.val - 1, by
  have := c.isLt; have h : nD = 32 := rfl; split <;> omega⟩

theorem partner_partner (c : Dev nD) : partner (partner c) = c := by revert c; decide
theorem ybud_ybud (c : Dev nD) : ybud (ybud c) = c := by revert c; decide
theorem zbud_zbud (c : Dev nD) : zbud (zbud c) = c := by revert c; decide

def nb (l : Fin 3) (c : Dev nD) : Dev nD := match l with | 0 => partner c | 1 => ybud c | 2 => zbud c
theorem nb_nb (l : Fin 3) (c : Dev nD) : nb l (nb l c) = c := by revert l c; decide

def py (c : Dev nD) : Nat := (c.val / 4) % 2
def pz (c : Dev nD) : Nat := c.val % 2
def cq (c : Dev nD) : Nat := 2 * py c + pz c
def cy (c : Dev nD) : Nat := 2 * (1 - py c) + pz c
def cz (c : Dev nD) : Nat := 2 * py c + (1 - pz c)
def cd (c : Dev nD) : Nat := 2 * (1 - py c) + (1 - pz c)

def link (j : Fin 20) : Fin 3 := if j.val < 6 then 0 else if j.val < 13 then 1 else 2
def rrows (j : Fin 20) : Nat :=
  match j.val with
  | 0 => 64 | 1 => 64 | 2 => 128 | 3 => 128 | 4 => 128 | 5 => 160
  | 6 => 64 | 7 => 64 | 8 => 128 | 9 => 128 | 10 => 128 | 11 => 96 | 12 => 80
  | 13 => 64 | 14 => 64 | 15 => 128 | 16 => 128 | 17 => 128 | 18 => 48 | _ => 128
def qoff (k : Nat) : Nat := match k with | 0 => 0 | 1 => 64 | 2 => 128 | 3 => 256 | _ => 384
def roff (e : Dev nD) (j : Fin 20) : Nat :=
  match j.val with
  | 0 => 512 * cq e + 0 | 1 => 512 * cq e + 64 | 2 => 512 * cq e + 128 | 3 => 512 * cq e + 256 | 4 => 512 * cq e + 384 | 5 => 512 * cd e
  | 6 => 512 * cy e + 0 | 7 => 512 * cy e + 64 | 8 => 512 * cy e + 128 | 9 => 512 * cy e + 256 | 10 => 512 * cy e + 384 | 11 => 512 * cd e + 160 | 12 => 512 * cd e + 256
  | 13 => 512 * cz e + 0 | 14 => 512 * cz e + 64 | 15 => 512 * cz e + 128 | 16 => 512 * cz e + 256 | 17 => 512 * cz e + 384 | 18 => 512 * cd e + 336 | _ => 512 * cd e + 384

theorem roff_inb (e : Dev nD) (j : Fin 20) : roff e j + rrows j ≤ 2048 := by revert e j; decide

-- An interval of p + q + s + t + u rows from b is cut in five consecutive pieces of those lengths.
theorem cover (b r p q s t u : Nat) (h0 : b ≤ r) (h1 : r < b + (p + q + s + t + u)) :
    (b + 0 ≤ r ∧ r < b + 0 + p) ∨ (b + p ≤ r ∧ r < b + p + q) ∨ (b + (p + q) ≤ r ∧ r < b + (p + q) + s) ∨
    (b + (p + q + s) ≤ r ∧ r < b + (p + q + s) + t) ∨ (b + (p + q + s + t) ≤ r ∧ r < b + (p + q + s + t) + u) := by omega
-- The four quarter numbers of a device are 0, 1, 2, 3 in some order, and each quarter is cut in five slots.
theorem rows_cover (e : Dev nD) (r : Nat) (hr : r < 2048) : ∃ j : Fin 20, roff e j ≤ r ∧ r < roff e j + rrows j := by
  have hq : ∀ q, q < 4 → (q = cq e ∨ q = cy e ∨ q = cz e ∨ q = cd e) := by revert e; decide
  rcases hq (r / 512) (by omega) with h | h | h | h
  · rcases cover (512 * cq e) r 64 64 128 128 128 (by omega) (by omega) with c | c | c | c | c
    exacts [⟨0, c⟩, ⟨1, c⟩, ⟨2, c⟩, ⟨3, c⟩, ⟨4, c⟩]
  · rcases cover (512 * cy e) r 64 64 128 128 128 (by omega) (by omega) with c | c | c | c | c
    exacts [⟨6, c⟩, ⟨7, c⟩, ⟨8, c⟩, ⟨9, c⟩, ⟨10, c⟩]
  · rcases cover (512 * cz e) r 64 64 128 128 128 (by omega) (by omega) with c | c | c | c | c
    exacts [⟨13, c⟩, ⟨14, c⟩, ⟨15, c⟩, ⟨16, c⟩, ⟨17, c⟩]
  · rcases cover (512 * cd e) r 160 96 80 48 128 (by omega) (by omega) with c | c | c | c | c
    exacts [⟨5, c⟩, ⟨11, c⟩, ⟨12, c⟩, ⟨18, c⟩, ⟨19, c⟩]
theorem rows_disjoint (e : Dev nD) (j j' : Fin 20) (h : j ≠ j') : roff e j + rrows j ≤ roff e j' ∨ roff e j' + rrows j' ≤ roff e j := by
  revert e j j'; decide

def foff (c : Dev nD) (j : Fin 20) : Nat :=
  match j.val with
  | 6 => 512 * cq c + 0 | 7 => 512 * cq c + 64 | 8 => 512 * cq c + 128 | 9 => 512 * cq c + 256 | 10 => 512 * cq c + 384 | 11 => 512 * cz c + 160 | 12 => 512 * cz c + 256
  | 13 => 512 * cq c + 0 | 14 => 512 * cq c + 64 | 15 => 512 * cq c + 128 | 16 => 512 * cq c + 256 | 17 => 512 * cq c + 384 | 18 => 512 * cy c + 336 | 19 => 512 * cy c + 384
  | _ => 0
def fsrc (j : Fin 20) : Fin 20 :=
  match j.val with
  | 6 => 0 | 7 => 1 | 8 => 2 | 9 => 3 | 10 => 4 | 11 => 15 | 12 => 16
  | 13 => 0 | 14 => 1 | 15 => 2 | 16 => 3 | 17 => 4 | 18 => 9 | 19 => 10
  | _ => 0
theorem foff_eq_roff (c : Dev nD) (j : Fin 20) (hj : 6 ≤ j.val) : foff c j = roff (nb (link j) c) j := by
  revert c j; decide
theorem foff_sub (c : Dev nD) (j : Fin 20) (hj : 6 ≤ j.val) :
    roff c (fsrc j) ≤ foff c j ∧ foff c j + rrows j ≤ roff c (fsrc j) + rrows (fsrc j) := by
  revert c j; decide
def soff (j : Fin 20) : Nat := match j.val with | 0 => 0 | 1 => 64 | 2 => 128 | 3 => 256 | 4 => 384 | _ => 512

def srcDev (c : Dev nD) (r : Nat) : Dev nD :=
  if r / 512 = cq c then partner c
  else if r / 512 = cy c then partner (ybud c)
  else if r / 512 = cz c then partner (zbud c)
  else if r % 512 < 160 then partner c else partner (zbud (ybud c))

theorem partner_x (c : Dev nD) : (partner c).val / 16 = 1 - c.val / 16 := by revert c; decide
theorem ybud_x (c : Dev nD) : (ybud c).val / 16 = c.val / 16 := by revert c; decide
theorem zbud_x (c : Dev nD) : (zbud c).val / 16 = c.val / 16 := by revert c; decide
theorem srcDev_x (c : Dev nD) (r : Nat) : (srcDev c r).val / 16 = 1 - c.val / 16 := by
  unfold srcDev; split_ifs <;> simp only [partner_x, ybud_x, zbud_x]

end Cert.KernelIdeal.Mesh
-- ==== Proof.Sched.lean ====
import proofs.«900723_g7700000000000724_dist_ar_v7x_xyz2x4x4_x_m2048_n512_bf16_1_alg».proof.Proof.Mesh
import proofs.«900723_g7700000000000724_dist_ar_v7x_xyz2x4x4_x_m2048_n512_bf16_1_alg».proof.Proof.Gen.KernelIdeal.Skeleton
import proofs.«900723_g7700000000000724_dist_ar_v7x_xyz2x4x4_x_m2048_n512_bf16_1_alg».proof.Proof.Gen.KernelIdeal.Launch
import proofs.«900723_g7700000000000724_dist_ar_v7x_xyz2x4x4_x_m2048_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Sched

open Cert.KernelIdeal.Gen Cert.KernelIdeal.Mesh

open Idealize.ShloMosaic
open Idealize.ShloMosaic.TcCoe
open Idealize.SL Idealize.SL.RA Idealize.SL.BI
open Idealize.SL.BI.BIBase
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S2048x512 .f32 := Memref.whole cc0_stg0_0
abbrev oM : Memref sig .tc .vmem S2048x512 .bf16 := Memref.whole cc0_stg1_0
abbrev sM : Memref sig .tc .vmem S672x512 .bf16 := Memref.whole cc0_scratch0
abbrev aM : Memref sig .tc .vmem S2048x512 .bf16 := Memref.whole cc0_scratch1

abbrev barS : Sem sig := (SemArray.scalar (sig.barrier 0 rfl) : Sems sig S_).sem

def ssem (j : Fin 20) : DmaSem sig :=
  ⟨if j.val < 6 then 2 + j.val else if j.val < 13 then 8 + j.val else 15 + j.val, by have := j.isLt; have h43 : sig.nDmaSem = 43 := rfl; split <;> [skip; split] <;> omega⟩
def rsem (j : Fin 20) : DmaSem sig :=
  ⟨if j.val < 6 then 8 + j.val else if j.val < 13 then 15 + j.val else 22 + j.val, by have := j.isLt; have h43 : sig.nDmaSem = 43 := rfl; split <;> [skip; split] <;> omega⟩

abbrev barCell (c : Dev nD) : GSem nD τ sig := ((c : Thread nD τ), .reg barS)
abbrev sendCell (c : Dev nD) (j : Fin 20) : GSem nD τ sig := ((c : Thread nD τ), .dma (ssem j))
abbrev recvCell (c : Dev nD) (j : Fin 20) : GSem nD τ sig := ((c : Thread nD τ), .dma (rsem j))

def xstg (c : Dev nD) : (cc0_stg0_0 : Ref sig .tc).ty.Contents (Elt F) :=
  (win0_0.blk (0 : Fin 1)).view.read (Elt F) ((s₀ m ρ).mem ((c : Thread nD τ).loc main_arg0))

abbrev tr (x : F .f32) : F .bf16 := FloatOps.truncf .bf16 bitsLt_bf16_f32 x

def accF (c : Dev nD) : (cc0_scratch1 : Ref sig .tc).ty.Contents (Elt F) :=
  fun i => tr (xstg m ρ (srcDev c (i 0).val) i)

def sbufF (c : Dev nD) : (cc0_scratch0 : Ref sig .tc).ty.Contents (Elt F) :=
  fun i => tr (xstg m ρ c (fun a => match a with
    | ⟨0, _⟩ => ⟨(if (i 0).val < 512 then 512 * cq c + (i 0).val else 512 * cd c + ((i 0).val - 512)) % 2048, Nat.mod_lt _ (by decide)⟩
    | ⟨1, _⟩ => i 1))

def outF (c : Dev nD) : (cc0_stg1_0 : Ref sig .tc).ty.Contents (Elt F) :=
  fun i => FloatOps.addf (tr (xstg m ρ c i)) (accF m ρ c i)

def rows2048 (lo n : Nat) : Finset S2048x512.Idx := Finset.univ.filter fun i => lo ≤ (i 0).val ∧ (i 0).val < lo + n
def rows672 (lo n : Nat) : Finset S672x512.Idx := Finset.univ.filter fun i => lo ≤ (i 0).val ∧ (i 0).val < lo + n

def RS (e : Dev nD) (j : Fin 20) : Finset S2048x512.Idx := rows2048 (roff e j) (rrows j)
def FS (c : Dev nD) (j : Fin 20) : Finset S2048x512.Idx := rows2048 (foff c j) (rrows j)
def SS (j : Fin 20) : Finset S672x512.Idx := rows672 (soff j) (rrows j)

theorem RS_disjoint (e : Dev nD) (j j' : Fin 20) (h : j ≠ j') : Disjoint (RS e j) (RS e j') := by
  rw [Finset.disjoint_left]
  intro i hi hi'
  unfold RS rows2048 at hi hi'
  rw [Finset.mem_filter] at hi hi'
  have hd := rows_disjoint e j j' h
  omega
theorem RS_cover (e : Dev nD) : (Finset.univ : Finset (Fin 20)).biUnion (RS e) = Finset.univ := by
  ext i
  simp only [Finset.mem_biUnion, Finset.mem_univ, true_and, iff_true]
  obtain ⟨j, h1, h2⟩ := rows_cover e (i 0).val (i 0).isLt
  refine ⟨j, ?_⟩
  unfold RS rows2048
  rw [Finset.mem_filter]
  exact ⟨Finset.mem_univ _, h1, h2⟩
theorem FS_subset (c : Dev nD) (j : Fin 20) (hj : 6 ≤ j.val) : FS c j ⊆ RS c (fsrc j) := by
  intro i hi
  unfold FS rows2048 at hi
  unfold RS rows2048
  rw [Finset.mem_filter] at hi ⊢
  have hs := foff_sub c j hj
  exact ⟨Finset.mem_univ _, by omega, by omega⟩

/-- A unit-stride rectangle of whole rows of an N × 512 buffer is a set of rows. -/
theorem rect_set_rows (N : ℕ) (off : Fin 2 → Nat) (n : Nat) (inb : ∀ a, off a + (![n, 512] : Fin 2 → Nat) a ≤ (⟨2, ![N, 512]⟩ : Shape).size a) (h1 : off 1 = 0) :
    (Rect.unit (s := ⟨2, ![N, 512]⟩) off ![n, 512] inb).set = Finset.univ.filter fun i => off 0 ≤ (i 0).val ∧ (i 0).val < off 0 + n := by
  ext i
  rw [Rect.mem_set_unit, Finset.mem_filter]
  constructor
  · intro h
    exact ⟨Finset.mem_univ _, (h 0).1, (h 0).2⟩
  · rintro ⟨_, hlo, hhi⟩
    have hi1 : (i 1).val < 512 := (i 1).isLt
    refine Fin.forall_fin_two.mpr ⟨⟨hlo, hhi⟩, ?_, ?_⟩
    · show off 1 ≤ (i 1).val
      omega
    · show (i 1).val < off 1 + 512
      omega
theorem rect_set_2048 (off : Fin 2 → Nat) (n : Nat) (inb : ∀ a, off a + (![n, 512] : Fin 2 → Nat) a ≤ S2048x512.size a) (h1 : off 1 = 0) :
    (Rect.unit (s := S2048x512) off ![n, 512] inb).set = rows2048 (off 0) n := rect_set_rows 2048 off n inb h1
theorem rect_set_672 (off : Fin 2 → Nat) (n : Nat) (inb : ∀ a, off a + (![n, 512] : Fin 2 → Nat) a ≤ S672x512.size a) (h1 : off 1 = 0) :
    (Rect.unit (s := S672x512) off ![n, 512] inb).set = rows672 (off 0) n := rect_set_rows 672 off n inb h1

abbrev qA : PosShare TreeShare := fullShare.left
abbrev qB : PosShare TreeShare := fullShare.right.left
abbrev qC : PosShare TreeShare := fullShare.right.right
def fsh (j : Fin 20) : PosShare TreeShare := if 13 ≤ j.val ∧ j.val ≤ 17 then qB else qA

def NJ (j : Fin 20) : Nat := sig.dmaCredit .tc (Kind.tc.table .vmem) aM.view.buf ⟨2, ![rrows j, 512]⟩ .bf16

abbrev aLoc (c : Dev nD) : Loc nD τ sig := aM.view.loc (c : Thread nD τ)
abbrev sLoc (c : Dev nD) : Loc nD τ sig := sM.view.loc (c : Thread nD τ)
abbrev xLoc (c : Dev nD) : Loc nD τ sig := xM.view.loc (c : Thread nD τ)
abbrev oLoc (c : Dev nD) : Loc nD τ sig := oM.view.loc (c : Thread nD τ)

def recvPay (c : Dev nD) (j : Fin 20) : sProp 𝕄 := aLoc c ↦[RS c j]{fullShare} accF m ρ c
def sendPay (c : Dev nD) (j : Fin 20) : sProp 𝕄 :=
  if j.val < 6 then sLoc c ↦[SS j]{fullShare} sbufF m ρ c else aLoc c ↦[FS c j]{fsh j} accF m ρ c
def barPay (c : Dev nD) (l : Fin 3) : sProp 𝕄 :=
  bigSep (Finset.univ.filter fun j : Fin 20 => link j = l) fun j => iprop(∃ f, aLoc (nb l c) ↦[RS (nb l c) j]{fullShare} f)

def isSendSem (s : DmaSem sig) : Prop := (2 ≤ s.val ∧ s.val < 8) ∨ (14 ≤ s.val ∧ s.val < 21) ∨ (28 ≤ s.val ∧ s.val < 35)
instance (s : DmaSem sig) : Decidable (isSendSem s) := by unfold isSendSem; infer_instance
def slotOf (s : DmaSem sig) : Fin 20 :=
  ⟨(if s.val < 8 then s.val - 2 else if s.val < 14 then s.val - 8 else if s.val < 21 then s.val - 8 else if s.val < 28 then s.val - 15
    else if s.val < 35 then s.val - 15 else s.val - 22) % 20, Nat.mod_lt _ (by decide)⟩
def isActive (s : DmaSem sig) : Prop := 2 ≤ s.val ∧ s.val < 42
instance (s : DmaSem sig) : Decidable (isActive s) := by unfold isActive; infer_instance

theorem rrows_pos (j : Fin 20) : 0 < rrows j := by revert j; decide
theorem NJ_pos' (j : Fin 20) : 0 < NJ j := by
  unfold NJ
  refine sig.dmaCredit_pos _ _ _ _ _ (Shape.numel_pos ?_)
  refine Fin.forall_fin_two.mpr ⟨?_, ?_⟩
  · show 0 < rrows j
    exact rrows_pos j
  · show 0 < 512
    decide

def Rd : Rounds.Schedule (GSem nD τ sig) (Fin 3) 𝕄 where
  duties g r :=
    if r = 0 ∧ g.1.2 = .tc then
      (match g.2 with
        | .reg s => if s = barS then Finset.univ else ∅
        | .dma s => if isActive s then {0} else ∅)
    else ∅
  amount g _ _ := match g.2 with
    | .reg _ => 1
    | .dma s => NJ (slotOf s)
  payload g _ d := match g.2 with
    | .reg _ => barPay g.1.1 d
    | .dma s => if isSendSem s then sendPay m ρ g.1.1 (slotOf s) else recvPay m ρ g.1.1 (slotOf s)
  amount_pos g r d hd := by
    rcases g with ⟨t, sm⟩
    cases sm with
    | reg s => exact Nat.one_pos
    | dma s => exact NJ_pos' (slotOf s)

section Tables
variable (c : Dev nD) (j : Fin 20)

theorem slotOf_ssem : slotOf (ssem j) = j := by revert j; decide
theorem slotOf_rsem : slotOf (rsem j) = j := by revert j; decide
theorem isSend_ssem : isSendSem (ssem j) := by revert j; decide
theorem not_isSend_rsem : ¬ isSendSem (rsem j) := by revert j; decide
theorem isActive_ssem : isActive (ssem j) := by revert j; decide
theorem isActive_rsem : isActive (rsem j) := by revert j; decide

theorem duties_bar : (Rd (F := F) m ρ).duties (barCell c) 0 = Finset.univ := by
  dsimp only [Rd]; rw [if_pos (And.intro rfl rfl)]; exact if_pos rfl
theorem duties_send : (Rd (F := F) m ρ).duties (sendCell c j) 0 = {0} := by
  dsimp only [Rd]; rw [if_pos (And.intro rfl rfl)]; exact if_pos (isActive_ssem j)
theorem duties_recv : (Rd (F := F) m ρ).duties (recvCell c j) 0 = {0} := by
  dsimp only [Rd]; rw [if_pos (And.intro rfl rfl)]; exact if_pos (isActive_rsem j)
theorem duties_later (g : GSem nD τ sig) : ∀ r, 1 ≤ r → (Rd (F := F) m ρ).duties g r = ∅ :=
  fun r hr => by dsimp only [Rd]; exact if_neg fun h => by have h0 := h.1; omega
theorem amount_bar (d : Fin 3) : (Rd (F := F) m ρ).amount (barCell c) 0 d = 1 := rfl
theorem amount_send (d : Fin 3) : (Rd (F := F) m ρ).amount (sendCell c j) 0 d = NJ j := by
  show NJ (slotOf (ssem j)) = NJ j; rw [slotOf_ssem]
theorem amount_recv (d : Fin 3) : (Rd (F := F) m ρ).amount (recvCell c j) 0 d = NJ j := by
  show NJ (slotOf (rsem j)) = NJ j; rw [slotOf_rsem]
theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul, Nat.mul_one]
theorem expect_send : (Rd (F := F) m ρ).expect (sendCell c j) 0 = NJ j := by
  unfold Schedule.expect Schedule.amountOf; rw [duties_send, Finset.sum_singleton, amount_send]
theorem expect_recv : (Rd (F := F) m ρ).expect (recvCell c j) 0 = NJ j := by
  unfold Schedule.expect Schedule.amountOf; rw [duties_recv, Finset.sum_singleton, amount_recv]
theorem payload_bar (l : Fin 3) : (Rd (F := F) m ρ).payload (barCell c) 0 l = barPay c l := rfl
theorem payload_send (d : Fin 3) : (Rd (F := F) m ρ).payload (sendCell c j) 0 d = sendPay m ρ c j := by
  show (if isSendSem (ssem j) then sendPay m ρ c (slotOf (ssem j)) else recvPay m ρ c (slotOf (ssem j))) = sendPay m ρ c j
  rw [if_pos (isSend_ssem j), slotOf_ssem]
theorem payload_recv (d : Fin 3) : (Rd (F := F) m ρ).payload (recvCell c j) 0 d = recvPay m ρ c j := by
  show (if isSendSem (rsem j) then sendPay m ρ c (slotOf (rsem j)) else recvPay m ρ c (slotOf (rsem j))) = recvPay m ρ c j
  rw [if_neg (not_isSend_rsem j), slotOf_rsem]
theorem NJ_pos : 0 < NJ j := NJ_pos' j
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]
theorem rest_bar : bigSep ((Rd (F := F) m ρ).duties (barCell c) 0 \ ∅) (fun d => (Rd (F := F) m ρ).payload (barCell c) 0 d)
    = iprop(barPay (F := F) c 0 ∗ barPay c 1 ∗ barPay c 2) := by
  rw [Finset.sdiff_empty, duties_bar, bigSep_univ_eq_bigSepL ([0, 1, 2] : List (Fin 3)) (by decide) (by decide), bigSepL_cons_cons,
    bigSepL_cons_cons, bigSepL_singleton, payload_bar, payload_bar, payload_bar]
  rfl

instance Rd_payload_storable (g : GSem nD τ sig) (r : ℕ) (d : Fin 3) :
    BI.Storable (upEmb : UEmb _ 𝕄) ((Rd (F := F) m ρ).payload g r d) := by
  rcases g with ⟨t, sm⟩
  cases sm with
  | reg s =>
    show BI.Storable (upEmb : UEmb _ 𝕄) (barPay (F := F) t.1 d)
    unfold barPay; infer_instance
  | dma s =>
    show BI.Storable (upEmb : UEmb _ 𝕄) (if isSendSem s then sendPay m ρ t.1 (slotOf s) else recvPay m ρ t.1 (slotOf s))
    split
    · unfold sendPay; split <;> infer_instance
    · unfold recvPay; infer_instance

end Tables

def L (g : GSem nD τ sig) : Finset Unit := if g.1.2 = .tc then {()} else ∅
def lvS (s : DmaSem sig) : ℕ :=
  if isSendSem s ∨ ¬ isActive s then 0
  else if (slotOf s).val < 6 then 2
  else if (slotOf s).val = 11 ∨ (slotOf s).val = 12 ∨ (slotOf s).val = 18 ∨ (slotOf s).val = 19 then 4 else 3
def lv (g : GSem nD τ sig) (_ : Unit) : ℕ := match g.2 with | .reg s => if s = barS then 1 else 0 | .dma s => lvS s

def Owed (c : Dev nD) (T : Finset (Fin 20)) : CellTallies nD τ sig Unit :=
  ∑ j ∈ T, tallyAt (recvCell (nb (link j) c) j) () (NJ j)
def O₀ (c : Dev nD) : CellTallies nD τ sig Unit :=
  Owed c Finset.univ + tallyAt (barCell (zbud c)) () 1 + tallyAt (barCell (ybud c)) () 1 + tallyAt (barCell (partner c)) () 1

end Cert.KernelIdeal.Sched

end
-- ==== Proof.State.lean ====
import proofs.«900723_g7700000000000724_dist_ar_v7x_xyz2x4x4_x_m2048_n512_bf16_1_alg».proof.Proof.Sched

noncomputable section

namespace Cert.KernelIdeal.State

open Cert.KernelIdeal.Mesh Cert.KernelIdeal.Sched

open Idealize.ShloMosaic
open Idealize.ShloMosaic.TcCoe
open Idealize.SL Idealize.SL.RA Idealize.SL.BI
open Idealize.SL.BI.BIBase
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def csem (i : Fin 41) : SemLoc sig :=
  if i.val = 0 then .reg barS else .dma ⟨i.val + 1, by have := i.isLt; have h43 : sig.nDmaSem = 43 := rfl; omega⟩
abbrev kcell (ck : Dev nD × Fin 41) : GSem nD τ sig := ((ck.1 : Thread nD τ), csem ck.2)
def sIx (j : Fin 20) : Fin 41 := ⟨(ssem j).val - 1, by revert j; decide⟩
def rIx (j : Fin 20) : Fin 41 := ⟨(rsem j).val - 1, by revert j; decide⟩
theorem csem_sIx (j : Fin 20) : csem (sIx j) = .dma (ssem j) := by revert j; decide
theorem csem_rIx (j : Fin 20) : csem (rIx j) = .dma (rsem j) := by revert j; decide
theorem csem_inj : Function.Injective csem := by decide
theorem kcell_send (c : Dev nD) (j : Fin 20) : kcell (c, sIx j) = sendCell c j := by
  show ((c : Thread nD τ), csem (sIx j)) = ((c : Thread nD τ), SemLoc.dma (ssem j)); rw [csem_sIx]
theorem kcell_recv (c : Dev nD) (j : Fin 20) : kcell (c, rIx j) = recvCell c j := by
  show ((c : Thread nD τ), csem (rIx j)) = ((c : Thread nD τ), SemLoc.dma (rsem j)); rw [csem_rIx]
theorem kcell_injective : Function.Injective (kcell : Dev nD × Fin 41 → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := csem_inj h2
  subst h3; rfl

def records (K : Dev nD × Fin 41 → ℕ) : sProp 𝕄 :=
  iprop((bigSep Finset.univ fun ck : Dev nD × Fin 41 => cellInv ER (Rd m ρ) (K ck) (kcell ck))
    ∗ (bigSep Finset.univ fun ck : Dev nD × Fin 41 => reached ER (kcell ck) 0)
    ∗ levAts L lv)

instance records_persistent (K : Dev nD × Fin 41 → ℕ) : BI.Persistent (records m ρ K) := by unfold records; infer_instance

structure Pg where
    R : Finset (Fin 20)
    S : Finset (Fin 20)
    D : Finset (Fin 20)
    A : Finset (Fin 20)
deriving DecidableEq

def lent (c : Dev nD) (σ : Pg) (q : PosShare TreeShare) (j : Fin 20) : Finset S2048x512.Idx :=
  (σ.S.filter fun j' => 6 ≤ j'.val ∧ fsrc j' = j ∧ fsh j' = q).biUnion (FS c)

def outAt (c : Dev nD) (A : Finset (Fin 20)) (f0 : (cc0_stg1_0 : Ref sig .tc).ty.Contents (Elt F)) :
    (cc0_stg1_0 : Ref sig .tc).ty.Contents (Elt F) :=
  fun i => if ∃ j ∈ A, i ∈ RS c j then outF m ρ c i else f0 i

def sendSt (c : Dev nD) (σ : Pg) (j : Fin 20) : sProp 𝕄 :=
  if j ∈ σ.D then iprop(sendPay m ρ c j ∗ semVal (sendCell c j) 0)
  else if j ∈ σ.S then iprop(cred (tallyAt (sendCell c j) () (NJ j)) ∗ atPos ER (sendCell c j) 0 ∅ 0)
  else iprop(dutyTok ER (sendCell c j) 0 0 ∗ dutyTok ER (recvCell (nb (link j) c) j) 0 0 ∗ atPos ER (sendCell c j) 0 ∅ 0
    ∗ (∃ f, aLoc (nb (link j) c) ↦[RS (nb (link j) c) j]{fullShare} f)
    ∗ (if j.val < 6 then sLoc c ↦[SS j]{fullShare} sbufF m ρ c else iprop(emp)))

def recvSt (c : Dev nD) (σ : Pg) (j : Fin 20) : sProp 𝕄 :=
  if j ∈ σ.R then iprop(semVal (recvCell c j) 0 ∗ (aLoc c ↦[RS c j]{qC} accF m ρ c)
    ∗ (aLoc c ↦[RS c j \ lent c σ qA j]{qA} accF m ρ c) ∗ (aLoc c ↦[RS c j \ lent c σ qB j]{qB} accF m ρ c))
  else iprop(cred (tallyAt (recvCell c j) () (NJ j)) ∗ atPos ER (recvCell c j) 0 ∅ 0)

def St (K : Dev nD × Fin 41 → ℕ) (c : Dev nD) (f0 : (cc0_stg1_0 : Ref sig .tc).ty.Contents (Elt F)) (σ : Pg) : sProp 𝕄 :=
  iprop(records m ρ K
    ∗ (∃ W, owes (c : Thread nD τ) (Owed c (Finset.univ \ σ.S)) W)
    ∗ (xLoc c ↦{fullShare} xstg m ρ c)
    ∗ (oLoc c ↦{fullShare} outAt m ρ c σ.A f0)
    ∗ (bigSep Finset.univ fun j => sendSt m ρ c σ j)
    ∗ (bigSep Finset.univ fun j => recvSt m ρ c σ j))

abbrev 𝒱₀ : Variants := Variants.none

abbrev dCell (c : Dev nD) : GSem nD τ sig := ((c : Thread nD τ), .dma ⟨42, by decide⟩)

def payToks (c : Dev nD) : sProp 𝕄 :=
  iprop((bigSep Finset.univ fun l : Fin 3 => dutyTok ER (barCell (nb l c)) 0 l)
    ∗ bigSep Finset.univ fun j : Fin 20 => iprop(dutyTok ER (sendCell c j) 0 0 ∗ dutyTok ER (recvCell (nb (link j) c) j) 0 0))
def positions (c : Dev nD) : sProp 𝕄 :=
  iprop(atPos ER (barCell c) 0 ∅ 0
    ∗ bigSep Finset.univ fun j : Fin 20 => iprop(atPos ER (sendCell c j) 0 ∅ 0 ∗ atPos ER (recvCell c j) 0 ∅ 0))
def ghost (K : Dev nD × Fin 41 → ℕ) (c : Dev nD) : sProp 𝕄 := iprop(records m ρ K ∗ positions c ∗ payToks c)
def creds (c : Dev nD) : sProp 𝕄 :=
  iprop(cred (tallyAt (barCell c) () 3) ∗ bigSep Finset.univ fun j : Fin 20 => cred (tallyAt (recvCell c j) () (NJ j)))
def start (c : Dev nD) : sProp 𝕄 := iprop((∃ K, ghost m ρ K c) ∗ creds c ∗ semVal (dCell c) 0)

def Φ₀ (c : Dev nD) : sProp 𝕄 := iprop(start m ρ c ∗ (∃ f, sLoc c ↦{fullShare} f) ∗ (∃ f, aLoc c ↦{fullShare} f))
def Φ₁ (c : Dev nD) : sProp 𝕄 :=
  iprop((∃ f, sLoc c ↦{fullShare} f) ∗ (∃ f, aLoc c ↦{fullShare} f)
    ∗ (bigSep Finset.univ fun j : Fin 20 => iprop(semVal (sendCell c j) 0 ∗ semVal (recvCell c j) 0)) ∗ semVal (dCell c) 0)

def dats (_ : Fin 1) (c : Dev nD) : Dat τ (Elt F) Unit ℕ UU ℕ cfg0 c where
  A w := (Sched.s₀ m ρ).mem ((cfg0.win w).arr.view.loc (c : Thread nD τ))
  after w _ := match w with
    | ⟨0, _⟩ => xstg m ρ c
    | ⟨1, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 41 → ℕ) (c : Dev nD) : sProp 𝕄 :=
  iprop((ghost m ρ K c ∗ creds c ∗ semVal (dCell c) 0 ∗ (∃ f, sLoc c ↦{fullShare} f) ∗ (∃ f, aLoc c ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outF m ρ c))

def σ₀ : Pg := ⟨∅, ∅, ∅, ∅⟩
def σ₁ : Pg := ⟨Finset.univ, Finset.univ, Finset.univ, Finset.univ⟩

def afterEntry (K : Dev nD × Fin 41 → ℕ) (c : Dev nD) : sProp 𝕄 :=
  iprop(∃ f0, St m ρ K c f0 σ₀ ∗ semVal (dCell c) 0)

def σ3 : Pg := ⟨∅, ∅, ∅, ∅⟩
def σ4 : Pg := { σ3 with S := insert 1 (insert 0 σ3.S) }
def σ5 : Pg := { σ4 with S := insert 3 (insert 2 σ4.S) }
def σ6 : Pg := { σ5 with S := insert 5 (insert 4 σ5.S), R := insert 0 σ5.R }
def σ7 : Pg := { σ6 with S := insert 13 (insert 6 σ6.S), A := insert 0 σ6.A }
def σ8 : Pg := { σ7 with R := insert 1 σ7.R, S := insert 14 (insert 7 σ7.S) }
def σ9 : Pg := { σ8 with A := insert 1 σ8.A, R := insert 2 σ8.R, S := insert 8 σ8.S }
def σ10 : Pg := { σ9 with S := insert 15 σ9.S, A := insert 2 σ9.A, R := insert 3 σ9.R }
def σ11 : Pg := { σ10 with S := insert 16 (insert 9 σ10.S), A := insert 3 σ10.A }
def σ12 : Pg := { σ11 with R := insert 4 σ11.R, S := insert 17 (insert 10 σ11.S) }
def σ13 : Pg := { σ12 with A := insert 5 (insert 4 σ12.A), R := insert 5 σ12.R }
def σ14 : Pg := { σ13 with R := insert 14 (insert 13 σ13.R), A := insert 14 (insert 13 σ13.A) }
def σ15 : Pg := { σ14 with R := insert 15 σ14.R, S := insert 11 σ14.S }
def σ16 : Pg := { σ15 with A := insert 15 σ15.A, R := insert 16 σ15.R, S := insert 12 σ15.S }
def σ17 : Pg := { σ16 with A := insert 6 (insert 16 σ16.A), R := insert 6 σ16.R }
def σ18 : Pg := { σ17 with R := insert 8 (insert 7 σ17.R), A := insert 7 σ17.A }
def σ19 : Pg := { σ18 with A := insert 8 σ18.A, R := insert 9 σ18.R, S := insert 18 σ18.S }
def σ20 : Pg := { σ19 with A := insert 9 σ19.A, R := insert 10 σ19.R, S := insert 19 σ19.S }
def σ21 : Pg := { σ20 with A := insert 17 (insert 10 σ20.A), R := insert 17 σ20.R }
def σ22 : Pg := { σ21 with R := insert 12 (insert 11 σ21.R), A := insert 11 σ21.A }
def σ23 : Pg := { σ22 with A := insert 18 (insert 12 σ22.A), R := insert 18 σ22.R }
def σ24 : Pg := { σ23 with R := insert 19 σ23.R, A := insert 19 σ23.A, D := insert 1 (insert 0 σ23.D) }
def σ25 : Pg := { σ24 with D := insert 13 (insert 6 (insert 5 (insert 4 (insert 3 (insert 2 σ24.D))))) }
def σ26 : Pg := { σ25 with D := insert 16 (insert 9 (insert 15 (insert 8 (insert 14 (insert 7 σ25.D))))) }
def σ27 : Pg := { σ26 with D := insert 12 (insert 11 (insert 17 (insert 10 σ26.D))) }
def σ28 : Pg := { σ27 with D := insert 19 (insert 18 σ27.D) }

theorem σ28_full : σ28 = σ₁ := by
  have hR : σ28.R = Finset.univ := by decide
  have hS : σ28.S = Finset.univ := by decide
  have hD : σ28.D = Finset.univ := by decide
  have hA : σ28.A = Finset.univ := by decide
  show (⟨σ28.R, σ28.S, σ28.D, σ28.A⟩ : Pg) = _
  rw [hR, hS, hD, hA]; rfl

/-- A printed part of the body at the kernel's own buffers and semaphore arrays. -/
abbrev atBufs.{u} {β : Sort u} (f : (a0 : Memref sig .tc .vmem S2048x512 .f32) → a0.IsWhole → (a1 : Memref sig .tc .vmem S2048x512 .bf16) → a1.IsWhole →
    (a2 : Memref sig .tc .vmem S672x512 .bf16) → a2.IsWhole → (a3 : Memref sig .tc .vmem S2048x512 .bf16) → a3.IsWhole →
    DmaSems sig S6 → DmaSems sig S6 → DmaSems sig S7 → DmaSems sig S7 → DmaSems sig S7 → DmaSems sig S7 → DmaSems sig S_ → β) : β :=
  f (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8

end Cert.KernelIdeal.State

end
-- ==== Proof.MeshFacts.lean ====
import proofs.«900723_g7700000000000724_dist_ar_v7x_xyz2x4x4_x_m2048_n512_bf16_1_alg».proof.Proof.Mesh

namespace Cert.KernelIdeal.Mesh

open Idealize.ShloMosaic Cert.KernelIdeal.Gen

theorem dev1_eq (c : Dev nD) : (⟨k0_dev1 c, k0_dev1_lt c⟩ : Dev nD) = partner c := by revert c; decide +kernel
theorem dev2_eq (c : Dev nD) : (⟨k0_dev2 c, k0_dev2_lt c⟩ : Dev nD) = ybud c := by revert c; decide +kernel
theorem dev3_eq (c : Dev nD) : (⟨k0_dev3 c, k0_dev3_lt c⟩ : Dev nD) = zbud c := by revert c; decide +kernel
theorem dev4_eq (c : Dev nD) : (⟨k0_dev4 c, k0_dev4_lt c⟩ : Dev nD) = partner c := by revert c; decide +kernel
theorem dev5_eq (c : Dev nD) : (⟨k0_dev5 c, k0_dev5_lt c⟩ : Dev nD) = partner c := by revert c; decide +kernel
theorem dev6_eq (c : Dev nD) : (⟨k0_dev6 c, k0_dev6_lt c⟩ : Dev nD) = partner c := by revert c; decide +kernel
theorem dev7_eq (c : Dev nD) : (⟨k0_dev7 c, k0_dev7_lt c⟩ : Dev nD) = partner c := by revert c; decide +kernel
theorem dev8_eq (c : Dev nD) : (⟨k0_dev8 c, k0_dev8_lt c⟩ : Dev nD) = partner c := by revert c; decide +kernel
theorem dev9_eq (c : Dev nD) : (⟨k0_dev9 c, k0_dev9_lt c⟩ : Dev nD) = partner c := by revert c; decide +kernel
theorem dev10_eq (c : Dev nD) : (⟨k0_dev10 c, k0_dev10_lt c⟩ : Dev nD) = ybud c := by revert c; decide +kernel
theorem dev11_eq (c : Dev nD) : (⟨k0_dev11 c, k0_dev11_lt c⟩ : Dev nD) = zbud c := by revert c; decide +kernel
theorem dev12_eq (c : Dev nD) : (⟨k0_dev12 c, k0_dev12_lt c⟩ : Dev nD) = ybud c := by revert c; decide +kernel
theorem dev13_eq (c : Dev nD) : (⟨k0_dev13 c, k0_dev13_lt c⟩ : Dev nD) = zbud c := by revert c; decide +kernel
theorem dev14_eq (c : Dev nD) : (⟨k0_dev14 c, k0_dev14_lt c⟩ : Dev nD) = ybud c := by revert c; decide +kernel
theorem dev15_eq (c : Dev nD) : (⟨k0_dev15 c, k0_dev15_lt c⟩ : Dev nD) = zbud c := by revert c; decide +kernel
theorem dev16_eq (c : Dev nD) : (⟨k0_dev16 c, k0_dev16_lt c⟩ : Dev nD) = ybud c := by revert c; decide +kernel
theorem dev17_eq (c : Dev nD) : (⟨k0_dev17 c, k0_dev17_lt c⟩ : Dev nD) = zbud c := by revert c; decide +kernel
theorem dev18_eq (c : Dev nD) : (⟨k0_dev18 c, k0_dev18_lt c⟩ : Dev nD) = ybud c := by revert c; decide +kernel
theorem dev19_eq (c : Dev nD) : (⟨k0_dev19 c, k0_dev19_lt c⟩ : Dev nD) = zbud c := by revert c; decide +kernel
theorem dev20_eq (c : Dev nD) : (⟨k0_dev20 c, k0_dev20_lt c⟩ : Dev nD) = ybud c := by revert c; decide +kernel
theorem dev21_eq (c : Dev nD) : (⟨k0_dev21 c, k0_dev21_lt c⟩ : Dev nD) = ybud c := by revert c; decide +kernel
theorem dev22_eq (c : Dev nD) : (⟨k0_dev22 c, k0_dev22_lt c⟩ : Dev nD) = zbud c := by revert c; decide +kernel
theorem dev23_eq (c : Dev nD) : (⟨k0_dev23 c, k0_dev23_lt c⟩ : Dev nD) = zbud c := by revert c; decide +kernel

theorem off1_eq (c : Dev nD) : k0_off1 c = ![512 * cq c, 0] := by revert c; decide +kernel
theorem off2_eq (c : Dev nD) : k0_off2 c = ![512 * cd c, 0] := by revert c; decide +kernel
theorem off2_own (c : Dev nD) : k0_off2 c = ![roff c 5, 0] := by revert c; decide +kernel
theorem off3_0_partner (c : Dev nD) : k0_off3 c 0#32 = ![roff (partner c) 0, 0] := by revert c; decide +kernel
theorem off3_0_src6 (c : Dev nD) : k0_off3 c 0#32 = ![foff c 6, 0] := by revert c; decide +kernel
theorem off3_0_src13 (c : Dev nD) : k0_off3 c 0#32 = ![foff c 13, 0] := by revert c; decide +kernel
theorem off3_64_partner (c : Dev nD) : k0_off3 c 64#32 = ![roff (partner c) 1, 0] := by revert c; decide +kernel
theorem off3_64_src7 (c : Dev nD) : k0_off3 c 64#32 = ![foff c 7, 0] := by revert c; decide +kernel
theorem off3_64_src14 (c : Dev nD) : k0_off3 c 64#32 = ![foff c 14, 0] := by revert c; decide +kernel
theorem off4_128_partner (c : Dev nD) : k0_off4 c 128#32 = ![roff (partner c) 2, 0] := by revert c; decide +kernel
theorem off4_128_src8 (c : Dev nD) : k0_off4 c 128#32 = ![foff c 8, 0] := by revert c; decide +kernel
theorem off4_128_src15 (c : Dev nD) : k0_off4 c 128#32 = ![foff c 15, 0] := by revert c; decide +kernel
theorem off4_256_partner (c : Dev nD) : k0_off4 c 256#32 = ![roff (partner c) 3, 0] := by revert c; decide +kernel
theorem off4_256_src9 (c : Dev nD) : k0_off4 c 256#32 = ![foff c 9, 0] := by revert c; decide +kernel
theorem off4_256_src16 (c : Dev nD) : k0_off4 c 256#32 = ![foff c 16, 0] := by revert c; decide +kernel
theorem off4_384_partner (c : Dev nD) : k0_off4 c 384#32 = ![roff (partner c) 4, 0] := by revert c; decide +kernel
theorem off4_384_src10 (c : Dev nD) : k0_off4 c 384#32 = ![foff c 10, 0] := by revert c; decide +kernel
theorem off4_384_src17 (c : Dev nD) : k0_off4 c 384#32 = ![foff c 17, 0] := by revert c; decide +kernel
theorem off5_partner (c : Dev nD) : k0_off5 c = ![roff (partner c) 5, 0] := by revert c; decide +kernel
theorem off6_0_own (c : Dev nD) : k0_off6 c 0#32 = ![roff c 0, 0] := by revert c; decide +kernel
theorem off6_64_own (c : Dev nD) : k0_off6 c 64#32 = ![roff c 1, 0] := by revert c; decide +kernel
theorem off7_128_own (c : Dev nD) : k0_off7 c 128#32 = ![roff c 2, 0] := by revert c; decide +kernel
theorem off7_256_own (c : Dev nD) : k0_off7 c 256#32 = ![roff c 3, 0] := by revert c; decide +kernel
theorem off7_384_own (c : Dev nD) : k0_off7 c 384#32 = ![roff c 4, 0] := by revert c; decide +kernel
theorem off9_0_own (c : Dev nD) : k0_off9 c 0#32 = ![roff c 13, 0] := by revert c; decide +kernel
theorem off9_64_own (c : Dev nD) : k0_off9 c 64#32 = ![roff c 14, 0] := by revert c; decide +kernel
theorem off12_128_own (c : Dev nD) : k0_off12 c 128#32 = ![roff c 15, 0] := by revert c; decide +kernel
theorem off12_256_own (c : Dev nD) : k0_off12 c 256#32 = ![roff c 16, 0] := by revert c; decide +kernel
theorem off12_384_own (c : Dev nD) : k0_off12 c 384#32 = ![roff c 17, 0] := by revert c; decide +kernel
theorem off11_src11 (c : Dev nD) : k0_off11 c = ![foff c 11, 0] := by revert c; decide +kernel
theorem off13_src12 (c : Dev nD) : k0_off13 c = ![foff c 12, 0] := by revert c; decide +kernel
theorem off15_0_own (c : Dev nD) : k0_off15 c 0#32 = ![roff c 6, 0] := by revert c; decide +kernel
theorem off15_64_own (c : Dev nD) : k0_off15 c 64#32 = ![roff c 7, 0] := by revert c; decide +kernel
theorem off17_128_own (c : Dev nD) : k0_off17 c 128#32 = ![roff c 8, 0] := by revert c; decide +kernel
theorem off17_256_own (c : Dev nD) : k0_off17 c 256#32 = ![roff c 9, 0] := by revert c; decide +kernel
theorem off17_384_own (c : Dev nD) : k0_off17 c 384#32 = ![roff c 10, 0] := by revert c; decide +kernel
theorem off18_src18 (c : Dev nD) : k0_off18 c = ![foff c 18, 0] := by revert c; decide +kernel
theorem off16_384_src19 (c : Dev nD) : k0_off16 c 384#32 = ![foff c 19, 0] := by revert c; decide +kernel
theorem off20_own (c : Dev nD) : k0_off20 c = ![roff c 11, 0] := by revert c; decide +kernel
theorem off22_own (c : Dev nD) : k0_off22 c = ![roff c 12, 0] := by revert c; decide +kernel
theorem off24_own (c : Dev nD) : k0_off24 c = ![roff c 18, 0] := by revert c; decide +kernel
theorem off26_own (c : Dev nD) : k0_off26 c = ![roff c 19, 0] := by revert c; decide +kernel

end Cert.KernelIdeal.Mesh
-- ==== Proof.StepsWait.lean ====
import proofs.«900723_g7700000000000724_dist_ar_v7x_xyz2x4x4_x_m2048_n512_bf16_1_alg».proof.Proof.State

noncomputable section

namespace Cert.KernelIdeal.Proved

open Cert.KernelIdeal.Mesh Cert.KernelIdeal.Sched Cert.KernelIdeal.State

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}
variable {K : Dev nD × Fin 41 → ℕ} {c : Dev nD} {f0 : (cc0_stg1_0 : Ref sig .tc).ty.Contents (Elt F)} {σ : Pg}

theorem records_cell (ck : Dev nD × Fin 41) :
    records m ρ K ⊢ iprop(cellInv ER (Rd m ρ) (K ck) (kcell ck) ∗ reached ER (kcell ck) 0) := by
  unfold records
  have hI : (bigSep Finset.univ (fun ck : Dev nD × Fin 41 => cellInv ER (Rd m ρ) (K ck) (kcell ck)) : sProp 𝕄)
      ⊢ cellInv ER (Rd m ρ) (K ck) (kcell ck) := bigSep_elim (Finset.mem_univ ck)
  have hR : (bigSep Finset.univ (fun ck : Dev nD × Fin 41 => reached ER (kcell ck) 0) : sProp 𝕄)
      ⊢ reached ER (kcell ck) 0 := bigSep_elim (Finset.mem_univ ck)
  iintro ⟨#HI, #HR, -⟩
  isplitr
  · iapply hI; iexact HI
  · iapply hR; iexact HR
theorem records_send (c : Dev nD) (j : Fin 20) :
    records m ρ K ⊢ iprop(cellInv ER (Rd m ρ) (K (c, sIx j)) (sendCell c j) ∗ reached ER (sendCell c j) 0) :=
  kcell_send c j ▸ records_cell (c, sIx j)
theorem records_recv (c : Dev nD) (j : Fin 20) :
    records m ρ K ⊢ iprop(cellInv ER (Rd m ρ) (K (c, rIx j)) (recvCell c j) ∗ reached ER (recvCell c j) 0) :=
  kcell_recv c j ▸ records_cell (c, rIx j)
theorem records_lev : records m ρ K ⊢ (levAts L lv : sProp 𝕄) := by
  unfold records
  iintro ⟨-, -, H⟩
  iexact H

theorem L_tc (c : Dev nD) (s : SemLoc sig) : L ((c : Thread nD τ), s) = {()} := if_pos rfl

/-- An arrival cell may be waited on while every copy still owed goes to a higher arrival cell. -/
theorem mayWait_recv (c : Dev nD) (j : Fin 20) (T : Finset (Fin 20)) (h : ∀ j' ∈ T, lvS (rsem j) < lvS (rsem j')) :
    (levAts L lv : sProp 𝕄) ⊢ MayWait (c : Thread nD τ) (.dma (rsem j)) () (Owed c T) :=
  Pipeline.mayWait_of_levAts (L := L) (lev := lv) (by rw [L_tc]; exact Finset.mem_singleton_self _)
    (fun g i hg => by
      unfold Owed at hg
      obtain ⟨j', hj', hpos⟩ := Pipeline.sum_pos_exists hg
      rw [tallyAt_apply] at hpos
      by_cases hh : g = recvCell (nb (link j') c) j' ∧ i = ()
      · rw [hh.1]
        exact ⟨by rw [L_tc]; exact Finset.mem_singleton_self _, h j' hj'⟩
      · rw [if_neg hh] at hpos; exact absurd hpos (Nat.lt_irrefl 0))

theorem sendSt_fresh (j : Fin 20) (hS : j ∉ σ.S) (hD : j ∉ σ.D) :
    sendSt m ρ c σ j
      = iprop(dutyTok ER (sendCell c j) 0 0 ∗ dutyTok ER (recvCell (nb (link j) c) j) 0 0 ∗ atPos ER (sendCell c j) 0 ∅ 0
        ∗ (∃ f, aLoc (nb (link j) c) ↦[RS (nb (link j) c) j]{fullShare} f)
        ∗ (if j.val < 6 then sLoc c ↦[SS j]{fullShare} sbufF m ρ c else iprop(emp))) := by
  unfold sendSt; rw [if_neg hD, if_neg hS]
theorem sendSt_issued (j : Fin 20) (hD : j ∉ σ.D) (hS : j ∈ σ.S) :
    sendSt m ρ c σ j = iprop(cred (tallyAt (sendCell c j) () (NJ j)) ∗ atPos ER (sendCell c j) 0 ∅ 0) := by
  unfold sendSt; rw [if_neg hD, if_pos hS]
theorem sendSt_waited (j : Fin 20) (hD : j ∈ σ.D) :
    sendSt m ρ c σ j = iprop(sendPay m ρ c j ∗ semVal (sendCell c j) 0) := by
  unfold sendSt; rw [if_pos hD]
theorem recvSt_pending (j : Fin 20) (hR : j ∉ σ.R) :
    recvSt m ρ c σ j = iprop(cred (tallyAt (recvCell c j) () (NJ j)) ∗ atPos ER (recvCell c j) 0 ∅ 0) := by
  unfold recvSt; rw [if_neg hR]
theorem recvSt_waited (j : Fin 20) (hR : j ∈ σ.R) :
    recvSt m ρ c σ j = iprop(semVal (recvCell c j) 0 ∗ (aLoc c ↦[RS c j]{qC} accF m ρ c)
      ∗ (aLoc c ↦[RS c j \ lent c σ qA j]{qA} accF m ρ c) ∗ (aLoc c ↦[RS c j \ lent c σ qB j]{qB} accF m ρ c)) := by
  unfold recvSt; rw [if_pos hR]

/-- The wait instruction on a DMA semaphore is a wait for the copy's units. -/
theorem wait_eq {sp sp' : Space} {s s' : Shape} {e e' : EltTy} (sem : DmaSem sig) {j : Fin 20}
    {src : Memref sig .tc sp' s' e'} {κ' : Kind} {dst : Memref sig κ' sp s e} {hsrc : src.view.WordExact} {hdst : dst.view.WordExact}
    (hcred : dst.view.dmaCredit = NJ j) (K' : PUnit → sProp 𝕄) :
    wpE (defs₀ (F := F)) 𝒱₀ (c : Thread nD τ) none Set.univ (.waitDma2 sem src dst hsrc hdst) K'
      = waitSpec (c : Thread nD τ) Set.univ (.dma sem) (NJ j) K' :=
  hcred ▸ wpE_waitDma2_eq (defs := defs₀ (F := F)) 𝒱₀ (c : Thread nD τ) none Set.univ (sem := sem) (src := src) (dst := dst)
    (hsrc := hsrc) (hdst := hdst) K'

/-- Waiting for arrival j: the slice arrives, holding its final rows, and is cut in its three shares. -/
theorem step_recv_wait {α : Type} {Q : α → sProp 𝕄} (j : Fin 20)
    {sp sp' : Space} {s s' : Shape} {e e' : EltTy} {sem : DmaSem sig}
    {src : Memref sig .tc sp' s' e'} {κ' : Kind} {dst : Memref sig κ' sp s e} {hsrc : src.view.WordExact} {hdst : dst.view.WordExact}
    {k : PUnit → Prog (TpuEff nD τ sig (Elt F) Λ₀ .tc) α}
    (hj : j ∉ σ.R := by decide) (hlev : ∀ j' ∈ Finset.univ \ σ.S, lvS (rsem j) < lvS (rsem j') := by decide)
    (hsem : sem = rsem j := by rfl) (hcred : dst.view.dmaCredit = NJ j := by rfl) :
    St m ρ K c f0 σ ⊢ iprop((St m ρ K c f0 { σ with R := insert j σ.R } -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hsem
  unfold St
  iintro ⟨#Hrec, ⟨%W, HO⟩, Hx, Hout, Hsend, Hrecv⟩ Hk
  icases (bigSep_univ_update (Φ := fun j' => recvSt m ρ c σ j') (Ψ := fun j' => recvSt m ρ c { σ with R := insert j σ.R } j') j
    (fun j' h => by unfold recvSt; simp only [Finset.mem_insert, h, false_or]; rfl)) $$ Hrecv with ⟨Hrj, Hback⟩
  icases (Entails.of_eq (recvSt_pending j hj)) $$ Hrj with ⟨Hcr, Hat⟩
  ihave #HI := (records_recv c j) $$ Hrec
  icases HI with ⟨#HI, -⟩
  iapply (Rounds.wp_wait_rest_token 𝒱₀ ER (Rd m ρ) (c : Thread nD τ) none (κ := K (c, rIx j)) (wait_eq (rsem j) hcred) (Set.mem_univ _) ()
      (O := Owed c (Finset.univ \ σ.S)) (W := W) (R := 0) (m := 0) (T := ∅) (by rw [Nat.zero_add, expect_recv])) $$ [HO Hcr Hat]
  · iframe HI Hcr HO Hat
    iapply (mayWait_recv c j _ hlev); iapply records_lev; iexact Hrec
  iintro ⟨HO, Hat, -, Hpay⟩
  ihave Hpay := (Entails.of_eq (rest_recv m ρ c j)) $$ Hpay
  imod (Rounds.cell_close ER (Rd m ρ) (Set.mem_univ (K (c, rIx j))) (fun h => h) (R := 0 + 1) (duties_later m ρ (recvCell c j))) $$ [Hat] with Hz
  · iframe HI Hat
  unfold recvPay
  icases (pointsTo_share (PosShare.mem_left_op_right fullShare)).1 $$ Hpay with ⟨HA, HBC⟩
  icases (pointsTo_share (PosShare.mem_left_op_right fullShare.right)).1 $$ HBC with ⟨HB, HC⟩
  icases (pointsTo_split_subset (I := RS c j \ lent c σ qA j) Finset.sdiff_subset).1 $$ HA with ⟨HA, -⟩
  icases (pointsTo_split_subset (I := RS c j \ lent c σ qB j) Finset.sdiff_subset).1 $$ HB with ⟨HB, -⟩
  iapply Hk
  iframe Hrec Hx Hout
  isplitl [HO]; · iexists _; iexact HO
  isplitl [Hsend]; · iexact Hsend
  iapply Hback
  rw [recvSt_waited (σ := { σ with R := insert j σ.R }) j (Finset.mem_insert_self _ _)]
  iframe Hz HC
  isplitl [HA]; · iexact HA
  iexact HB

/-- Waiting for departure j, once every departure is issued: the borrowed source comes back. -/
theorem step_send_wait {α : Type} {Q : α → sProp 𝕄} (j : Fin 20)
    {sp sp' : Space} {s s' : Shape} {e e' : EltTy} {sem : DmaSem sig}
    {src : Memref sig .tc sp' s' e'} {κ' : Kind} {dst : Memref sig κ' sp s e} {hsrc : src.view.WordExact} {hdst : dst.view.WordExact}
    {k : PUnit → Prog (TpuEff nD τ sig (Elt F) Λ₀ .tc) α}
    (hjS : σ.S = Finset.univ := by decide) (hjD : j ∉ σ.D := by decide)
    (hsem : sem = ssem j := by rfl) (hcred : dst.view.dmaCredit = NJ j := by rfl) :
    St m ρ K c f0 σ ⊢ iprop((St m ρ K c f0 { σ with D := insert j σ.D } -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hsem
  have hO : Owed c (Finset.univ \ σ.S) = 0 := by rw [hjS, Finset.sdiff_self]; exact Finset.sum_empty
  unfold St
  iintro ⟨#Hrec, ⟨%W, HO⟩, Hx, Hout, Hsend, Hrecv⟩ Hk
  icases (bigSep_univ_update (Φ := fun j' => sendSt m ρ c σ j') (Ψ := fun j' => sendSt m ρ c { σ with D := insert j σ.D } j') j
    (fun j' h => by unfold sendSt; simp only [Finset.mem_insert, h, false_or])) $$ Hsend with ⟨Hsj, Hback⟩
  icases (Entails.of_eq (sendSt_issued j hjD (hjS ▸ Finset.mem_univ j))) $$ Hsj with ⟨Hcr, Hat⟩
  ihave #HI := (records_send c j) $$ Hrec
  icases HI with ⟨#HI, -⟩
  iapply (Rounds.wp_wait_rest_token 𝒱₀ ER (Rd m ρ) (c : Thread nD τ) none (κ := K (c, sIx j)) (wait_eq (ssem j) hcred) (Set.mem_univ _) ()
      (O := Owed c (Finset.univ \ σ.S)) (W := W) (R := 0) (m := 0) (T := ∅) (by rw [Nat.zero_add, expect_send])) $$ [HO Hcr Hat]
  · iframe HI Hcr HO Hat
    rw [hO, MayWait_zero]; iempintro
  iintro ⟨HO, Hat, -, Hpay⟩
  ihave Hpay := (Entails.of_eq (rest_send m ρ c j)) $$ Hpay
  imod (Rounds.cell_close ER (Rd m ρ) (Set.mem_univ (K (c, sIx j))) (fun h => h) (R := 0 + 1) (duties_later m ρ (sendCell c j))) $$ [Hat] with Hz
  · iframe HI Hat
  iapply Hk
  iframe Hrec Hx Hout
  isplitl [HO]; · iexists _; iexact HO
  isplitr [Hrecv]; swap; · iexact Hrecv
  iapply Hback
  rw [sendSt_waited (σ := { σ with D := insert j σ.D }) j (Finset.mem_insert_self _ _)]
  iframe Hpay Hz

end Cert.KernelIdeal.Proved

end
-- ==== Proof.Exit.lean ====
import proofs.«900723_g7700000000000724_dist_ar_v7x_xyz2x4x4_x_m2048_n512_bf16_1_alg».proof.Proof.State

noncomputable section

namespace Cert.KernelIdeal.Proved

open Cert.KernelIdeal.Mesh Cert.KernelIdeal.Sched

open Idealize.ShloMosaic
open Idealize.SL.RA Idealize.SL.BI
open Idealize.SL.BI.BIBase
open Idealize.ShloMosaic.Pipeline (Dat Cfg Window BodyObligation cellOf)
open Cert.KernelIdeal.State

variable {F : FTy → Type} [FloatOps F]

local notation "𝕄" => MT nD τ sig Unit (Elt F) ℕ UU ℕ

variable (m : (ℓ : Loc nD τ sig) → Buf (Elt F) ℓ) (ρ : Dev nD → PrngReg)

namespace Exit

theorem qA_ne_qB : (qA : PosShare TreeShare) ≠ qB := by decide

theorem outAt_full (c : Dev nD) (f0 : (cc0_stg1_0 : Ref sig .tc).ty.Contents (Elt F)) :
    outAt m ρ c σ₁.A f0 = outF m ρ c := by
  funext i
  have hi : i ∈ (Finset.univ : Finset (Fin 20)).biUnion (RS c) := RS_cover c ▸ Finset.mem_univ i
  obtain ⟨j, hj, hij⟩ := Finset.mem_biUnion.mp hi
  exact if_pos ⟨j, hj, hij⟩

theorem Owed_full (c : Dev nD) : Owed c (Finset.univ \ σ₁.S) = 0 :=
  (congrArg (Owed c) (Finset.sdiff_self _)).trans Finset.sum_empty

-- A buffer held whole is the product of its pieces over any family of disjoint sets that covers it.
theorem cut {ℓ : Loc nD τ sig} {q : PosShare TreeShare} {f : Buf (Elt F) ℓ} {T : Type} (S : Finset T) (K : T → Finset (Idx ℓ))
    (hd : ∀ t ∈ S, ∀ t' ∈ S, t ≠ t' → Disjoint (K t) (K t')) (hc : S.biUnion K = Finset.univ) :
    (ℓ ↦{q} f : sProp 𝕄) = bigSep S fun t => ℓ ↦[K t]{q} f := by
  rw [← pointsTo_biUnion S K hd, hc]

def Rel (q : PosShare TreeShare) : Finset (Fin 20) := Finset.univ.filter fun j : Fin 20 => 6 ≤ j.val ∧ fsh j = q

theorem fsh_group (j j' : Fin 20) (h : fsh j = fsh j') : (13 ≤ j.val ∧ j.val ≤ 17) ↔ (13 ≤ j'.val ∧ j'.val ≤ 17) := by
  revert j j'; decide

theorem foff_disjoint (c : Dev nD) (j j' : Fin 20) (h6 : 6 ≤ j.val) (h6' : 6 ≤ j'.val) (hne : j ≠ j')
    (hg : (13 ≤ j.val ∧ j.val ≤ 17) ↔ (13 ≤ j'.val ∧ j'.val ≤ 17)) :
    foff c j + rrows j ≤ foff c j' ∨ foff c j' + rrows j' ≤ foff c j := by
  revert c j j'; decide

theorem FS_disjoint (c : Dev nD) (q : PosShare TreeShare) (j j' : Fin 20) (hj : j ∈ Rel q) (hj' : j' ∈ Rel q) (hne : j ≠ j') :
    Disjoint (FS c j) (FS c j') := by
  obtain ⟨_, h6, hq⟩ := Finset.mem_filter.mp hj
  obtain ⟨_, h6', hq'⟩ := Finset.mem_filter.mp hj'
  have hd := foff_disjoint c j j' h6 h6' hne (fsh_group j j' (hq.trans hq'.symm))
  rw [Finset.disjoint_left]
  intro i hi hi'
  unfold FS rows2048 at hi hi'
  rw [Finset.mem_filter] at hi hi'
  omega

theorem rest_lent_disjoint (c : Dev nD) (q : PosShare TreeShare) :
    Disjoint ((Finset.univ : Finset (Fin 20)).biUnion fun s => RS c s \ lent c σ₁ q s) ((Rel q).biUnion (FS c)) := by
  rw [Finset.disjoint_left]
  intro i hi hi'
  obtain ⟨s, _, his⟩ := Finset.mem_biUnion.mp hi
  obtain ⟨j, hj, hij⟩ := Finset.mem_biUnion.mp hi'
  obtain ⟨_, h6, hq⟩ := Finset.mem_filter.mp hj
  obtain ⟨hiR, hiL⟩ := Finset.mem_sdiff.mp his
  have hs : s = fsrc j := by
    by_contra hne
    exact Finset.disjoint_left.mp (RS_disjoint c s (fsrc j) hne) hiR (FS_subset c j h6 hij)
  exact hiL (Finset.mem_biUnion.mpr ⟨j, Finset.mem_filter.mpr ⟨Finset.mem_univ j, h6, hs.symm, hq⟩, hij⟩)

theorem rest_lent_cover (c : Dev nD) (q : PosShare TreeShare) :
    ((Finset.univ : Finset (Fin 20)).biUnion fun s => RS c s \ lent c σ₁ q s) ∪ ((Rel q).biUnion (FS c)) = Finset.univ := by
  ext i
  simp only [Finset.mem_union, Finset.mem_univ, iff_true]
  obtain ⟨s, hs, his⟩ := Finset.mem_biUnion.mp (RS_cover c ▸ Finset.mem_univ i : i ∈ (Finset.univ : Finset (Fin 20)).biUnion (RS c))
  by_cases hl : i ∈ lent c σ₁ q s
  · obtain ⟨j, hj, hij⟩ := Finset.mem_biUnion.mp hl
    obtain ⟨_, h6, _, hq⟩ := Finset.mem_filter.mp hj
    exact Or.inr (Finset.mem_biUnion.mpr ⟨j, Finset.mem_filter.mpr ⟨Finset.mem_univ j, h6, hq⟩, hij⟩)
  · exact Or.inl (Finset.mem_biUnion.mpr ⟨s, hs, Finset.mem_sdiff.mpr ⟨his, hl⟩⟩)

theorem soff_cover (r : Nat) (hr : r < 672) : ∃ j : Fin 20, j.val < 6 ∧ soff j ≤ r ∧ r < soff j + rrows j := by
  rcases (by omega : 0 ≤ r ∧ r < 64 ∨ 64 ≤ r ∧ r < 128 ∨ 128 ≤ r ∧ r < 256 ∨ 256 ≤ r ∧ r < 384 ∨ 384 ≤ r ∧ r < 512 ∨ 512 ≤ r ∧ r < 672)
    with h | h | h | h | h | h
  exacts [⟨0, by decide, h⟩, ⟨1, by decide, h⟩, ⟨2, by decide, h⟩, ⟨3, by decide, h⟩, ⟨4, by decide, h⟩, ⟨5, by decide, h⟩]

theorem SS_disjoint (j j' : Fin 20) (h : j.val < 6) (h' : j'.val < 6) (hne : j ≠ j') : Disjoint (SS j) (SS j') := by
  have hd : soff j + rrows j ≤ soff j' ∨ soff j' + rrows j' ≤ soff j := by revert j j'; decide
  rw [Finset.disjoint_left]
  intro i hi hi'
  unfold SS rows672 at hi hi'
  rw [Finset.mem_filter] at hi hi'
  omega

theorem SS_cover : (Finset.univ.filter fun j : Fin 20 => j.val < 6).biUnion SS = Finset.univ := by
  ext i
  simp only [Finset.mem_biUnion, Finset.mem_univ, iff_true]
  obtain ⟨j, h6, h⟩ := soff_cover (i 0).val (i 0).isLt
  exact ⟨j, Finset.mem_filter.mpr ⟨Finset.mem_univ j, h6⟩, Finset.mem_filter.mpr ⟨Finset.mem_univ _, h⟩⟩

theorem scr_cut (c : Dev nD) (f : Buf (Elt F) (sLoc c)) :
    (sLoc c ↦{fullShare} f : sProp 𝕄) = bigSep (Finset.univ.filter fun j : Fin 20 => j.val < 6) fun j => sLoc c ↦[SS j]{fullShare} f :=
  cut (ℓ := sLoc c) _ SS (fun j hj j' hj' => SS_disjoint j j' (Finset.mem_filter.mp hj).2 (Finset.mem_filter.mp hj').2) SS_cover

theorem scratch_whole (c : Dev nD) :
    bigSep (Finset.univ.filter fun j : Fin 20 => j.val < 6) (sendPay m ρ c) ⊢ (sLoc c ↦{fullShare} sbufF m ρ c : sProp 𝕄) := by
  rw [scr_cut]
  exact Entails.of_eq (bigSep_congr fun j hj => if_pos (Finset.mem_filter.mp hj).2)

theorem relays_at (c : Dev nD) (q : PosShare TreeShare) :
    bigSep (Rel q) (sendPay m ρ c) = bigSep (Rel q) fun j => (aLoc c ↦[FS c j]{q} accF m ρ c : sProp 𝕄) :=
  bigSep_congr fun j hj => by
    obtain ⟨_, h6, hq⟩ := Finset.mem_filter.mp hj
    unfold sendPay
    rw [if_neg (by omega), hq]

theorem relays_split : (Finset.univ.filter fun j : Fin 20 => ¬ j.val < 6) = Rel qA ∪ Rel qB := by
  ext j
  simp only [Rel, Finset.mem_filter, Finset.mem_union, Finset.mem_univ, true_and, ← and_or_left, not_lt]
  exact (and_iff_left (by unfold fsh; split; exacts [Or.inr rfl, Or.inl rfl])).symm

theorem relays_disjoint : Disjoint (Rel qA) (Rel qB) :=
  Finset.disjoint_left.mpr fun j h h' => qA_ne_qB ((Finset.mem_filter.mp h).2.2.symm.trans (Finset.mem_filter.mp h').2.2)

theorem acc_share_whole (c : Dev nD) (q : PosShare TreeShare) :
    iprop((bigSep Finset.univ fun s : Fin 20 => aLoc c ↦[RS c s \ lent c σ₁ q s]{q} accF m ρ c)
      ∗ bigSep (Rel q) (sendPay m ρ c)) ⊢ (aLoc c ↦{q} accF m ρ c : sProp 𝕄) := by
  rw [relays_at, ← pointsTo_biUnion (ℓ := aLoc c) Finset.univ (fun s => RS c s \ lent c σ₁ q s) fun s _ s' _ h =>
      Finset.disjoint_of_subset_left Finset.sdiff_subset (Finset.disjoint_of_subset_right Finset.sdiff_subset (RS_disjoint c s s' h)),
    ← pointsTo_biUnion (ℓ := aLoc c) (Rel q) (FS c) fun j hj j' hj' => FS_disjoint c q j j' hj hj']
  exact (pointsTo_union (rest_lent_disjoint c q)).2.trans (Entails.of_eq (by rw [rest_lent_cover]))

theorem acc_whole (c : Dev nD) :
    iprop((bigSep Finset.univ fun s : Fin 20 => aLoc c ↦[RS c s]{qC} accF m ρ c)
      ∗ (bigSep Finset.univ fun s : Fin 20 => aLoc c ↦[RS c s \ lent c σ₁ qA s]{qA} accF m ρ c)
      ∗ (bigSep Finset.univ fun s : Fin 20 => aLoc c ↦[RS c s \ lent c σ₁ qB s]{qB} accF m ρ c)
      ∗ bigSep (Finset.univ.filter fun j : Fin 20 => ¬ j.val < 6) (sendPay m ρ c))
    ⊢ (aLoc c ↦{fullShare} accF m ρ c : sProp 𝕄) := by
  rw [relays_split, show bigSep (Rel qA ∪ Rel qB) (sendPay m ρ c) = iprop(bigSep (Rel qA) (sendPay m ρ c) ∗ bigSep (Rel qB) (sendPay m ρ c)) from
      bigSep_union relays_disjoint, ← cut (ℓ := aLoc c) Finset.univ (RS c) (fun s _ s' _ => RS_disjoint c s s') (RS_cover c)]
  iintro ⟨HC, HA, HB, HRA, HRB⟩
  ihave HA' := (acc_share_whole m ρ c qA) $$ [HA HRA]
  · iframe
  ihave HB' := (acc_share_whole m ρ c qB) $$ [HB HRB]
  · iframe
  iapply (pointsTo_share (PosShare.mem_left_op_right fullShare)).2
  iframe HA'
  iapply (pointsTo_share (PosShare.mem_left_op_right fullShare.right)).2
  iframe

theorem sends_full (c : Dev nD) :
    (bigSep Finset.univ fun j => sendSt m ρ c σ₁ j)
      = iprop((bigSep (Finset.univ.filter fun j : Fin 20 => j.val < 6) (sendPay m ρ c)
          ∗ bigSep (Finset.univ.filter fun j : Fin 20 => ¬ j.val < 6) (sendPay m ρ c))
        ∗ bigSep Finset.univ fun j : Fin 20 => semVal (sendCell c j) 0) := by
  rw [bigSep_congr (Φ := fun j => sendSt m ρ c σ₁ j) (Ψ := fun j => iprop(sendPay m ρ c j ∗ semVal (sendCell c j) 0)) fun j _ => if_pos (Finset.mem_univ j), bigSep_sep',
    bigSep_filter_split Finset.univ (fun j : Fin 20 => j.val < 6) (Φ := sendPay m ρ c)]
  rfl

theorem recvs_full (c : Dev nD) :
    (bigSep Finset.univ fun j => recvSt m ρ c σ₁ j)
      = iprop((bigSep Finset.univ fun j : Fin 20 => semVal (recvCell c j) 0)
        ∗ (bigSep Finset.univ fun s : Fin 20 => aLoc c ↦[RS c s]{qC} accF m ρ c)
        ∗ (bigSep Finset.univ fun s : Fin 20 => aLoc c ↦[RS c s \ lent c σ₁ qA s]{qA} accF m ρ c)
        ∗ (bigSep Finset.univ fun s : Fin 20 => aLoc c ↦[RS c s \ lent c σ₁ qB s]{qB} accF m ρ c)) := by
  rw [← bigSep_sep', ← bigSep_sep', ← bigSep_sep']
  exact bigSep_congr fun j _ => if_pos (Finset.mem_univ j)

end Exit

open Exit

theorem exit_of_full (K : Dev nD × Fin 41 → ℕ) (c : Dev nD) (f0 : (cc0_stg1_0 : Ref sig .tc).ty.Contents (Elt F)) :
    iprop(St m ρ K c f0 σ₁ ∗ semVal (dCell c) 0) ⊢ |={Set.univ}=> bodyPost m ρ c := by
  unfold St
  rw [sends_full, recvs_full, Owed_full, outAt_full]
  iintro ⟨⟨#Hrec, ⟨%W, HO⟩, Hx, Hout, ⟨⟨HSx, HSf⟩, HzS⟩, HzR, HC, HA, HB⟩, HzD⟩
  imodintro
  unfold bodyPost Φ₁ Dat.owesAt Pipeline.owesWithin
  rw [show (dats m ρ 0 c).owed t₀.succ = 0 from rfl]
  isplitl [HSx HSf HzS HzR HC HA HB HzD]
  · isplitl [HSx]
    · iexists sbufF m ρ c
      iapply (scratch_whole m ρ c)
      iexact HSx
    isplitl [HSf HC HA HB]
    · iexists accF m ρ c
      iapply (acc_whole m ρ c)
      iframe
    rw [bigSep_sep']
    iframe
  isplitl [HO]
  · iexists W
    isplitr; · ipureintro; exact fun _ _ => Or.inl trivial
    iexact HO
  isplitl [Hx]
  · iexists _
    isplitr; · (ipureintro; rfl)
    iexact Hx
  iexists _
  isplitr; · (ipureintro; rfl)
  iexact Hout

end Cert.KernelIdeal.Proved
end
-- ==== Proof.Entry.lean ====
import proofs.«900723_g7700000000000724_dist_ar_v7x_xyz2x4x4_x_m2048_n512_bf16_1_alg».proof.Proof.State
import proofs.«900723_g7700000000000724_dist_ar_v7x_xyz2x4x4_x_m2048_n512_bf16_1_alg».proof.Proof.MeshFacts
import proofs.«900723_g7700000000000724_dist_ar_v7x_xyz2x4x4_x_m2048_n512_bf16_1_alg».proof.Proof.Exit
import Idealize.ShloMosaic.Lib.Pipeline.Value

noncomputable section

namespace Cert.KernelIdeal.Proved

open Cert.KernelIdeal.Gen Cert.KernelIdeal.Mesh Cert.KernelIdeal.Sched Cert.KernelIdeal.State

open Idealize.ShloMosaic
open Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem entry_bigSep_links (Φ : Fin 20 → sProp 𝕄) :
    bigSep Finset.univ Φ = iprop(bigSep (Finset.univ.filter fun j => link j = 0) Φ ∗ bigSep (Finset.univ.filter fun j => link j = 1) Φ
      ∗ bigSep (Finset.univ.filter fun j => link j = 2) Φ) := by
  rw [bigSep_filter_split Finset.univ (fun j : Fin 20 => link j = 0) (Φ := Φ),
    bigSep_filter_split (Finset.univ.filter fun j : Fin 20 => ¬ link j = 0) (fun j => link j = 1) (Φ := Φ),
    show ((Finset.univ.filter fun j : Fin 20 => ¬ link j = 0).filter fun j => link j = 1) = Finset.univ.filter fun j => link j = 1 from by decide,
    show ((Finset.univ.filter fun j : Fin 20 => ¬ link j = 0).filter fun j => ¬ link j = 1) = Finset.univ.filter fun j => link j = 2 from by decide]
  rfl

theorem entry_acc_cut (c : Dev nD) (f : Buf (Elt F) (aLoc c)) :
    (aLoc c ↦{fullShare} f : sProp 𝕄) = bigSep Finset.univ fun j : Fin 20 => aLoc c ↦[RS c j]{fullShare} f := by
  rw [← pointsTo_biUnion (ℓ := aLoc c) Finset.univ (RS c) fun j _ j' _ => RS_disjoint c j j', RS_cover]

theorem entry_L_tc (c : Dev nD) (sm : SemLoc sig) : L ((c : Thread nD τ), sm) = {()} := if_pos rfl

theorem entry_Owed_pos {c : Dev nD} {T : Finset (Fin 20)} {g : GSem nD τ sig} {u : Unit} (h : 0 < Owed c T g u) :
    ∃ j ∈ T, g = recvCell (nb (link j) c) j := by
  unfold Owed at h
  rw [Finset.sum_apply, Finsupp.finset_sum_apply] at h
  obtain ⟨j, hj, hpos⟩ := Finset.exists_ne_zero_of_sum_ne_zero (Nat.pos_iff_ne_zero.mp h)
  rw [tallyAt_apply] at hpos
  by_cases hg : g = recvCell (nb (link j) c) j ∧ u = ()
  · exact ⟨j, hj, hg.1⟩
  · rw [if_neg hg] at hpos; exact absurd rfl hpos

theorem entry_lvS_rsem (j : Fin 20) : 1 < lvS (rsem j) := by revert j; decide

theorem entry_mayWait (c : Dev nD) :
    (levAts L lv : sProp 𝕄) ⊢ MayWait (c : Thread nD τ) (.reg barS) () (Owed c Finset.univ) :=
  MayOwe.of_cut (L := L) (lev := lv) 1
    (fun p hp => by rw [Finset.mem_singleton.mp hp, entry_L_tc]; exact Finset.mem_singleton_self _)
    (fun g u hg => by obtain ⟨j, _, rfl⟩ := entry_Owed_pos hg; rw [entry_L_tc]; exact Finset.mem_singleton_self _)
    (fun p hp => by rw [Finset.mem_singleton.mp hp]; show (if barS = barS then 1 else 0) ≤ 1; rw [if_pos rfl])
    (fun g u hg => by obtain ⟨j, _, rfl⟩ := entry_Owed_pos hg; exact entry_lvS_rsem j)

theorem entry_pay1_apply (v : Vec F S512x512 .f32) (i : S512x512.Idx) : k0_pay1 v i = tr (v i) := by
  unfold k0_pay1; rw [shapeCast_self, shapeCast_self]; rfl
theorem entry_pay2_apply (v : Vec F S160x512 .f32) (i : S160x512.Idx) : k0_pay2 v i = tr (v i) := by
  unfold k0_pay2; rw [shapeCast_self, shapeCast_self]; rfl

theorem entry_ex_intro (c : Dev nD) (j : Fin 20) (fa : Buf (Elt F) (aLoc c)) :
    (aLoc c ↦[RS c j]{fullShare} fa : sProp 𝕄) ⊢ iprop(∃ f, aLoc c ↦[RS c j]{fullShare} f) := by
  iintro H; iexists fa; iexact H

theorem entry_give_l (c : Dev nD) (l : Fin 3) (fa : Buf (Elt F) (aLoc c)) :
    bigSep (Finset.univ.filter fun j : Fin 20 => link j = l) (fun j => (aLoc c ↦[RS c j]{fullShare} fa : sProp 𝕄)) ⊢ barPay (F := F) (nb l c) l := by
  unfold barPay; rw [nb_nb]
  exact bigSep_mono fun j _ => entry_ex_intro c j fa

theorem entry_give (c : Dev nD) (fa : Buf (Elt F) (aLoc c)) :
    (aLoc c ↦{fullShare} fa : sProp 𝕄) ⊢ iprop(barPay (F := F) (partner c) 0 ∗ barPay (ybud c) 1 ∗ barPay (zbud c) 2) := by
  rw [entry_acc_cut, entry_bigSep_links]
  exact BI.sep_mono (entry_give_l c 0 fa) (BI.sep_mono (entry_give_l c 1 fa) (entry_give_l c 2 fa))

theorem entry_take_l (c : Dev nD) (l : Fin 3) :
    barPay (F := F) c l = bigSep (Finset.univ.filter fun j : Fin 20 => link j = l)
      (fun j => iprop(∃ f, aLoc (nb (link j) c) ↦[RS (nb (link j) c) j]{fullShare} f)) := by
  unfold barPay
  exact bigSep_congr fun j hj => by rw [(Finset.mem_filter.mp hj).2]

theorem entry_take (c : Dev nD) :
    iprop(barPay (F := F) c 0 ∗ barPay c 1 ∗ barPay c 2)
      ⊢ bigSep Finset.univ fun j : Fin 20 => iprop(∃ f, aLoc (nb (link j) c) ↦[RS (nb (link j) c) j]{fullShare} f) := by
  rw [entry_bigSep_links]
  exact BI.sep_mono (Entails.of_eq (entry_take_l c 0)) (BI.sep_mono (Entails.of_eq (entry_take_l c 1)) (Entails.of_eq (entry_take_l c 2)))

theorem entry_toks3 (c : Dev nD) :
    (bigSep Finset.univ fun l : Fin 3 => (dutyTok ER (barCell (nb l c)) 0 l : sProp 𝕄))
      ⊢ iprop(dutyTok ER (barCell (partner c)) 0 0 ∗ dutyTok ER (barCell (ybud c)) 0 1 ∗ dutyTok ER (barCell (zbud c)) 0 2) := by
  rw [bigSep_univ_eq_bigSepL ([0, 1, 2] : List (Fin 3)) (by decide) (by decide), bigSepL_cons_cons, bigSepL_cons_cons, bigSepL_singleton]
  exact BI.Entails.refl _

theorem entry_inv (K : Dev nD × Fin 41 → ℕ) (e : Dev nD) :
    records m ρ K ⊢ iprop(cellInv ER (Rd m ρ) (K (e, 0)) (barCell e) ∗ reached ER (barCell e) 0) := by
  unfold records
  exact BI.sep_mono (bigSep_elim (Finset.mem_univ ((e, 0) : Dev nD × Fin 41)))
    ((BI.sep_and.trans BI.and_elimL).trans (bigSep_elim (Finset.mem_univ ((e, 0) : Dev nD × Fin 41))))

theorem entry_lev (K : Dev nD × Fin 41 → ℕ) : records m ρ K ⊢ (levAts L lv : sProp 𝕄) := by
  unfold records
  iintro ⟨-, -, #H⟩; iexact H

abbrev rA : Rect S672x512 := Rect.unit (s := S672x512) ![0, 0] S512x512.size inb_S672x512_S512x512_0_0
abbrev rB : Rect S672x512 := Rect.unit (s := S672x512) ![512, 0] S160x512.size inb_S672x512_S160x512_512_0

theorem entry_scr_filled (c : Dev nD) (fs : Buf (Elt F) (sLoc c)) :
    (sLoc c ↦{fullShare} (((sM : Memref sig .tc .vmem S672x512 .bf16).access rB).write (Elt F) (((sM : Memref sig .tc .vmem S672x512 .bf16).access rA).write (Elt F) fs (k0_pay1 ((xM : Memref sig .tc .vmem S2048x512 .f32).view.readAt (Elt F) (Rect.unit (s := S2048x512) (k0_off1 c) S512x512.size (k0_off1_inb c)).toLoadRect (xstg m ρ c))) Finset.univ) (k0_pay2 ((xM : Memref sig .tc .vmem S2048x512 .f32).view.readAt (Elt F) (Rect.unit (s := S2048x512) (k0_off2 c) S160x512.size (k0_off2_inb c)).toLoadRect (xstg m ρ c))) Finset.univ) : sProp 𝕄)
      ⊢ bigSep (Finset.univ.filter fun j : Fin 20 => j.val < 6) fun j => sLoc c ↦[SS j]{fullShare} sbufF m ρ c := by
  rw [← Exit.scr_cut]
  refine Entails.of_eq ?_
  congr 1
  funext i
  have hq : cq c ≤ 3 := by unfold cq py pz; omega
  have hd : cd c ≤ 3 := by unfold cd py pz; omega
  have e10 : k0_off1 c 0 = 512 * cq c := congrFun (off1_eq c) 0
  have e11 : k0_off1 c 1 = 0 := congrFun (off1_eq c) 1
  have e20 : k0_off2 c 0 = 512 * cd c := congrFun (off2_eq c) 0
  have e21 : k0_off2 c 1 = 0 := congrFun (off2_eq c) 1
  have hi0 : (i 0).val < 672 := (i 0).isLt
  have hi1 : (i 1).val < 512 := (i 1).isLt
  unfold sbufF
  by_cases hB : i ∈ ((sM : Memref sig .tc .vmem S672x512 .bf16).access rB).setOn Finset.univ
  · obtain ⟨y, -, hy⟩ := Finset.mem_map.mp hB
    have h0 : (i 0).val = 512 + 1 * (y 0).val := by rw [← hy]; rfl
    have h1 : (i 1).val = 0 + 1 * (y 1).val := by rw [← hy]; rfl
    conv_lhs => rw [← hy, View.write_emb_of_mem _ _ (Finset.mem_univ y)]
    show k0_pay2 _ y = _
    rw [entry_pay2_apply]
    refine congrArg tr (congrArg (xstg m ρ c) (funext fun a => Fin.ext ?_))
    match a with
    | ⟨0, _⟩ =>
      show k0_off2 c 0 + 1 * (y 0).val = (if (i 0).val < 512 then 512 * cq c + (i 0).val else 512 * cd c + ((i 0).val - 512)) % 2048
      rw [if_neg (by omega), e20]; omega
    | ⟨1, _⟩ =>
      show k0_off2 c 1 + 1 * (y 1).val = (i 1).val
      rw [e21, h1]
  · rw [View.write_of_not_mem _ _ _ hB]
    have hlt : (i 0).val < 512 := by
      rw [View.setOn_univ, View.set_slice_whole, Rect.mem_set_unit] at hB
      by_contra h
      exact hB (Fin.forall_fin_two.mpr ⟨⟨by show 512 ≤ (i 0).val; omega, by show (i 0).val < 512 + 160; omega⟩, Nat.zero_le _, (i 1).isLt⟩)
    have hA : i ∈ ((sM : Memref sig .tc .vmem S672x512 .bf16).access rA).setOn Finset.univ := by
      rw [View.setOn_univ, View.set_slice_whole, Rect.mem_set_unit]
      exact Fin.forall_fin_two.mpr ⟨⟨Nat.zero_le _, by show (i 0).val < 0 + 512; omega⟩, Nat.zero_le _, by show (i 1).val < 0 + 512; omega⟩
    obtain ⟨y, -, hy⟩ := Finset.mem_map.mp hA
    have h0 : (i 0).val = 0 + 1 * (y 0).val := by rw [← hy]; rfl
    have h1 : (i 1).val = 0 + 1 * (y 1).val := by rw [← hy]; rfl
    conv_lhs => rw [← hy, View.write_emb_of_mem _ _ (Finset.mem_univ y)]
    show k0_pay1 _ y = _
    rw [entry_pay1_apply]
    refine congrArg tr (congrArg (xstg m ρ c) (funext fun a => Fin.ext ?_))
    match a with
    | ⟨0, _⟩ =>
      show k0_off1 c 0 + 1 * (y 0).val = (if (i 0).val < 512 then 512 * cq c + (i 0).val else 512 * cd c + ((i 0).val - 512)) % 2048
      rw [if_pos hlt, e10]; omega
    | ⟨1, _⟩ =>
      show k0_off1 c 1 + 1 * (y 1).val = (i 1).val
      rw [e11, h1]

theorem entry_outAt_empty (c : Dev nD) (f0 : (cc0_stg1_0 : Ref sig .tc).ty.Contents (Elt F)) : outAt m ρ c ∅ f0 = f0 := by
  funext i
  unfold outAt
  rw [if_neg]
  rintro ⟨j, hj, -⟩
  exact absurd hj (Finset.notMem_empty j)

theorem entry_zip4 (A B C D : Fin 20 → sProp 𝕄) :
    BI.sep (bigSep Finset.univ A) (BI.sep (bigSep Finset.univ B) (BI.sep (bigSep Finset.univ C) (bigSep Finset.univ D)))
      = bigSep Finset.univ fun j => BI.sep (A j) (BI.sep (B j) (BI.sep (C j) (D j))) := by
  rw [bigSep_sep, bigSep_sep, bigSep_sep]

theorem entry_sendSt (c : Dev nD) :
    iprop((bigSep Finset.univ fun j : Fin 20 => iprop(dutyTok ER (sendCell c j) 0 0 ∗ dutyTok ER (recvCell (nb (link j) c) j) 0 0))
        ∗ (bigSep Finset.univ fun j : Fin 20 => atPos ER (sendCell c j) 0 ∅ 0)
        ∗ (bigSep Finset.univ fun j : Fin 20 => iprop(∃ f, aLoc (nb (link j) c) ↦[RS (nb (link j) c) j]{fullShare} f))
        ∗ (bigSep (Finset.univ.filter fun j : Fin 20 => j.val < 6) fun j => sLoc c ↦[SS j]{fullShare} sbufF m ρ c))
      ⊢ (bigSep Finset.univ fun j => sendSt m ρ c σ₀ j : sProp 𝕄) := by
  rw [bigSep_filter]
  refine (Entails.of_eq (entry_zip4 _ _ _ _)).trans (bigSep_mono fun j _ => ?_)
  simp only [sendSt, σ₀, Finset.notMem_empty, ↓reduceIte]
  exact BI.sep_assoc

theorem entry_recvSt (c : Dev nD) :
    iprop((bigSep Finset.univ fun j : Fin 20 => cred (tallyAt (recvCell c j) () (NJ j)))
        ∗ (bigSep Finset.univ fun j : Fin 20 => atPos ER (recvCell c j) 0 ∅ 0))
      ⊢ (bigSep Finset.univ fun j => recvSt m ρ c σ₀ j : sProp 𝕄) := by
  refine (Entails.of_eq (bigSep_sep _ _ _).symm).trans (bigSep_mono fun j _ => ?_)
  simp only [recvSt, σ₀, Finset.notMem_empty, ↓reduceIte]
  exact BI.Entails.refl _

theorem entry_rest (c : Dev nD) :
    bigSep ((Rd (F := F) m ρ).duties (barCell c) 0 \ ∅) (fun d => (Rd (F := F) m ρ).payload (barCell c) 0 d)
      ⊢ bigSep Finset.univ fun j : Fin 20 => iprop(∃ f, aLoc (nb (link j) c) ↦[RS (nb (link j) c) j]{fullShare} f) :=
  (Entails.of_eq (rest_bar m ρ c)).trans (entry_take c)

theorem part2 (K : Dev nD × Fin 41 → ℕ) (c : Dev nD) (v2 v5 v8 v12 v22 v26 v29 v32 v33 : BitVec 32) (Kt : BitVec 32 → sProp 𝕄) :
    iprop(bodyPre m ρ K c ∗ (∀ r, afterEntry m ρ K c -∗ Kt r))
      ⊢ wp frame (wpE (defs₀ (F := F)) 𝒱₀ (c : Thread nD τ) none) Set.univ
        (k0_part2_skel (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 c v2 v5 v8 v12 v22 v26 v29 (SemArray.scalar (sig.barrier 0 rfl)) v32 v33) Kt := by
  unfold k0_part2_skel
  simp only [semSignalWord, semWaitWord, Prog.lift, Prog.bind_op, Prog.bind_ret, Prog.pure_eq_ret]
  unfold bodyPre ghost positions payToks creds
  iintro ⟨⟨⟨⟨#Hrec, ⟨HatB, Hats⟩, ⟨HtB, Hts⟩⟩, ⟨HcB, Hcs⟩, Hd, ⟨%fs, Hs⟩, ⟨%fa, Ha⟩⟩, Ho, ⟨%d0, %g0, %hg0, Hx⟩, ⟨%d1, %g1, %hg1, Hout⟩⟩, Hk⟩
  have hx : g0 = xstg m ρ c := by
    rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc
    = Owed c Finset.univ + tallyAt (barCell (zbud c)) () 1 + tallyAt (barCell (ybud c)) () 1 + tallyAt (barCell (partner c)) () 1 from rfl]
  simp only [dev1_eq c, dev2_eq c, dev3_eq c]
  ihave #Hlev := (entry_lev m ρ K) $$ Hrec
  ihave #HB0 := (entry_inv m ρ K (partner c)) $$ Hrec
  ihave #HB1 := (entry_inv m ρ K (ybud c)) $$ Hrec
  ihave #HB2 := (entry_inv m ρ K (zbud c)) $$ Hrec
  ihave #HBc := (entry_inv m ρ K c) $$ Hrec
  icases HB0 with ⟨#HI0, #HR0⟩
  icases HB1 with ⟨#HI1, #HR1⟩
  icases HB2 with ⟨#HI2, #HR2⟩
  icases HBc with ⟨#HIc, -⟩
  ihave Hgive := (entry_give c fa) $$ Ha
  icases Hgive with ⟨Hp0, Hp1, Hp2⟩
  ihave Ht3 := (entry_toks3 c) $$ HtB
  icases Ht3 with ⟨Ht0, Ht1, Ht2⟩
  iapply (Rounds.wp_signal 𝒱₀ ER (Rd m ρ) (c : Thread nD τ) none (dst := (partner c : Thread nD τ)) (sem := barS) (κ := K (partner c, 0)) (r := 0)
      (d := (0 : Fin 3)) (by rw [duties_bar]; exact Finset.mem_univ _) ((amount_bar m ρ (partner c) 0).trans (by decide)) ()
      (Owed c Finset.univ + tallyAt (barCell (zbud c)) () 1 + tallyAt (barCell (ybud c)) () 1) rfl) $$ [HO Ht0 Hp0]
  · rw [payload_bar]; iframe HI0 HR0 Ht0 Hp0; iexact HO
  iintro HO
  iapply (Rounds.wp_signal 𝒱₀ ER (Rd m ρ) (c : Thread nD τ) none (dst := (ybud c : Thread nD τ)) (sem := barS) (κ := K (ybud c, 0)) (r := 0)
      (d := (1 : Fin 3)) (by rw [duties_bar]; exact Finset.mem_univ _) ((amount_bar m ρ (ybud c) 1).trans (by decide)) ()
      (Owed c Finset.univ + tallyAt (barCell (zbud c)) () 1) rfl) $$ [HO Ht1 Hp1]
  · rw [payload_bar]; iframe HI1 HR1 Ht1 Hp1; iexact HO
  iintro HO
  iapply (Rounds.wp_signal 𝒱₀ ER (Rd m ρ) (c : Thread nD τ) none (dst := (zbud c : Thread nD τ)) (sem := barS) (κ := K (zbud c, 0)) (r := 0)
      (d := (2 : Fin 3)) (by rw [duties_bar]; exact Finset.mem_univ _) ((amount_bar m ρ (zbud c) 2).trans (by decide)) ()
      (Owed c Finset.univ) rfl) $$ [HO Ht2 Hp2]
  · rw [payload_bar]; iframe HI2 HR2 Ht2 Hp2; iexact HO
  iintro HO
  iapply (Rounds.wp_wait_rest_token 𝒱₀ ER (Rd m ρ) (c : Thread nD τ) none (κ := K (c, 0))
      (wpE_semWait_eq 𝒱₀ (c : Thread nD τ) none Set.univ) (Set.mem_univ _) () (O := Owed c Finset.univ) (W := W) (R := 0) (m := 0) (T := ∅)
      (by rw [expect_bar]; decide)) $$ [HcB HO HatB]
  · iframe HIc HatB
    isplitl [HcB]; · iexact HcB
    isplitl [HO]; · iexact HO
    iapply (entry_mayWait c); iexact Hlev
  iintro ⟨HO, -, -, Hpay⟩
  ihave Hnb := (entry_rest m ρ c) $$ Hpay
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM) (r := rA) (Mk := Finset.univ) (Finset.subset_univ _)) $$ Hs; iintro Hs
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM) (r := rB) (Mk := Finset.univ) (Finset.subset_univ _)) $$ Hs; iintro Hs
  rw [wp_ret]; imodintro
  iapply Hk
  ihave Hscr6 := (entry_scr_filled m ρ c fs) $$ Hs
  ihave Hat2 := (Entails.of_eq (bigSep_sep' _ _ _)) $$ Hats
  icases Hat2 with ⟨HatS, HatR⟩
  unfold afterEntry St
  iexists g1
  rw [show (Finset.univ \ (σ₀ : Pg).S) = (Finset.univ : Finset (Fin 20)) from Finset.sdiff_empty, show (σ₀ : Pg).A = ∅ from rfl, entry_outAt_empty]
  iframe Hrec Hx Hout Hd
  isplitl [HO]; · iexists _; iexact HO
  isplitl [Hts HatS Hnb Hscr6]
  · iapply (entry_sendSt m ρ c); iframe
  · iapply (entry_recvSt m ρ c); iframe

end Cert.KernelIdeal.Proved

end
-- ==== Proof.StepsMem.lean ====
import proofs.«900723_g7700000000000724_dist_ar_v7x_xyz2x4x4_x_m2048_n512_bf16_1_alg».proof.Proof.StepsWait
import Idealize.ShloMosaic.Lib.Pipeline.Value

noncomputable section

namespace Cert.KernelIdeal.Proved

open Cert.KernelIdeal.Gen Cert.KernelIdeal.Mesh Cert.KernelIdeal.Sched Cert.KernelIdeal.State

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem setOn_acc (M : Finset S2048x512.Idx) :
    aM.view.setOn M = M := Finset.map_refl

theorem setOn_out_access (R : Rect S2048x512) :
    (oM.access R).setOn Finset.univ = R.set := by
  rw [View.setOn_univ, View.set_slice]
  exact Finset.map_refl

theorem rect_RS (c : Dev nD) (j : Fin 20) {n : ℕ} {off : Fin 2 → ℕ}
    (inb : ∀ a, off a + (![n, 512] : Fin 2 → ℕ) a ≤ S2048x512.size a)
    (hn : n = rrows j) (hoff : off = ![roff c j, 0]) :
    (Rect.unit (s := S2048x512) off ![n, 512] inb).set = RS c j := by
  subst hn hoff
  rw [rect_set_2048 _ _ inb rfl]
  rfl

/-- A vector cast to its own shape, rounded, plus a second vector: at every index the rounded element plus the other. -/
theorem round_add_apply {S : Shape} (h : S.ShapeCasts S) (a : Vec F S .f32) (b : Vec F S .bf16) :
    addf (truncf .bf16 (shapeCast S a h) bitsLt_bf16_f32) b
      = fun y => FloatOps.addf (FloatOps.truncf .bf16 bitsLt_bf16_f32 (a y)) (b y) := by
  rw [shapeCast_self]
  rfl

section Values
variable (c : Dev nD) (f0 : (cc0_stg1_0 : Ref sig .tc).ty.Contents (Elt F))

theorem outAt_of_mem (A : Finset (Fin 20)) {i : S2048x512.Idx} {j : Fin 20} (hj : j ∈ A) (hi : i ∈ RS c j) :
    outAt m ρ c A f0 i = outF m ρ c i := if_pos ⟨j, hj, hi⟩

theorem outAt_insert_of_not_mem (A : Finset (Fin 20)) {i : S2048x512.Idx} {j : Fin 20} (hi : i ∉ RS c j) :
    outAt m ρ c (insert j A) f0 i = outAt m ρ c A f0 i := by
  unfold outAt
  refine if_congr ⟨?_, fun ⟨j', hj', h⟩ => ⟨j', Finset.mem_insert_of_mem hj', h⟩⟩ rfl rfl
  rintro ⟨j', hj', h⟩
  rcases Finset.mem_insert.mp hj' with rfl | h'
  · exact absurd h hi
  · exact ⟨j', h', h⟩

/-- Writing, on the rows of slot j, the rounded rows of x plus the arrived rows makes those rows hold the result. -/
theorem store_value (A : Finset (Fin 20)) (j : Fin 20) {n : ℕ} {off : Fin 2 → ℕ}
    (inb : ∀ a, off a + (![n, 512] : Fin 2 → ℕ) a ≤ S2048x512.size a)
    (w : (Rect.unit (s := S2048x512) off ![n, 512] inb).shape.Idx → Elt F .bf16)
    (hn : n = rrows j) (hoff : off = ![roff c j, 0])
    (hw : ∀ y, w y = FloatOps.addf (tr (xM.view.readAt (Elt F) (Rect.unit (s := S2048x512) off ![n, 512] inb).toLoadRect (xstg m ρ c) y))
      (aM.view.readAt (Elt F) (Rect.unit (s := S2048x512) off ![n, 512] inb).toLoadRect (accF m ρ c) y)) :
    (oM.access (Rect.unit (s := S2048x512) off ![n, 512] inb)).write (Elt F) (outAt m ρ c A f0) w Finset.univ
      = outAt m ρ c (insert j A) f0 := by
  have hset := rect_RS c j inb hn hoff
  funext i
  by_cases hi : i ∈ (Rect.unit (s := S2048x512) off ![n, 512] inb).set
  · obtain ⟨y, rfl⟩ := (Rect.unit (s := S2048x512) off ![n, 512] inb).toLoadRect.exists_idx_of_mem hi
    refine (View.write_emb_of_mem (v := oM.access (Rect.unit (s := S2048x512) off ![n, 512] inb))
      (Val := Elt F) (outAt m ρ c A f0) w (M := Finset.univ) (x := y) (Finset.mem_univ y)).trans ?_
    rw [outAt_of_mem m ρ c f0 (insert j A) (Finset.mem_insert_self j A) (hset ▸ hi)]
    exact hw y
  · rw [View.write_of_not_mem _ _ _ (by rw [setOn_out_access]; exact hi)]
    exact (outAt_insert_of_not_mem m ρ c f0 A (hset ▸ hi)).symm

end Values

section Steps
variable {m} {ρ}
variable {K : Dev nD × Fin 41 → ℕ} {c : Dev nD} {f0 : (cc0_stg1_0 : Ref sig .tc).ty.Contents (Elt F)} {σ : Pg}

theorem step_load_x {α : Type} {Q : α → sProp 𝕄} {r : LoadRect S2048x512} {hl : xM.view.LoadsAt r}
    {k : (r.shape.Idx → Elt F .f32) → Prog (TpuEff nD τ sig (Elt F) Λ₀ .tc) α} :
    St m ρ K c f0 σ ⊢ iprop((St m ρ K c f0 σ -∗ wp frame (wpE (defs₀ (F := F)) 𝒱₀ (c : Thread nD τ) none) Set.univ
          (k (xM.view.readAt (Elt F) r (xstg m ρ c))) Q)
      -∗ wp frame (wpE (defs₀ (F := F)) 𝒱₀ (c : Thread nD τ) none) Set.univ (.op (.load xM r hl) k) Q) := by
  unfold St
  iintro ⟨#Hrec, HO, Hx, Hrest⟩ Hk
  iapply (wp_load 𝒱₀ (c : Thread nD τ) none Set.univ (m := xM) (r := r) (Finset.subset_univ _)) $$ Hx
  iintro Hx
  iapply Hk
  iframe Hrec HO Hx Hrest

/-- A load of an arrived slice of the accumulation buffer, its rectangle rrows j whole rows from row roff c j on. -/
theorem step_load_acc {α : Type} {Q : α → sProp 𝕄} (j : Fin 20) {n : ℕ} {off : Fin 2 → ℕ} {inb} {hl}
    {k : ((Rect.unit (s := S2048x512) off ![n, 512] inb).toLoadRect.shape.Idx → Elt F .bf16) → Prog (TpuEff nD τ sig (Elt F) Λ₀ .tc) α}
    (hoff : off = ![roff c j, 0]) (hj : j ∈ σ.R := by decide) (hn : n = rrows j := by rfl) :
    St m ρ K c f0 σ ⊢ iprop((St m ρ K c f0 σ -∗ wp frame (wpE (defs₀ (F := F)) 𝒱₀ (c : Thread nD τ) none) Set.univ
          (k (aM.view.readAt (Elt F) (Rect.unit (s := S2048x512) off ![n, 512] inb).toLoadRect (accF m ρ c))) Q)
      -∗ wp frame (wpE (defs₀ (F := F)) 𝒱₀ (c : Thread nD τ) none) Set.univ (.op (.load aM (Rect.unit (s := S2048x512) off ![n, 512] inb).toLoadRect hl) k) Q) := by
  unfold St
  iintro ⟨#Hrec, HO, Hx, Hout, Hsend, Hrecv⟩ Hk
  icases (bigSep_univ_update (Φ := fun j => recvSt m ρ c σ j) (Ψ := fun j => recvSt m ρ c σ j) j (fun _ _ => rfl)) $$ Hrecv with ⟨Hj, Hback⟩
  icases (Entails.of_eq (recvSt_waited j hj)) $$ Hj with ⟨Hz, HC, HA, HB⟩
  iapply (wp_load 𝒱₀ (c : Thread nD τ) none Set.univ (m := aM) (r := (Rect.unit (s := S2048x512) off ![n, 512] inb).toLoadRect) (S := RS c j) (q := qC)
    (by rw [setOn_acc]; exact (rect_RS c j inb hn hoff).subset)) $$ HC
  iintro HC
  iapply Hk
  iframe Hrec HO Hx Hout Hsend
  iapply Hback
  rw [recvSt_waited j hj]
  iframe Hz HC HA HB

theorem step_load_out {α : Type} {Q : α → sProp 𝕄} {r : LoadRect S2048x512} {hl : oM.view.LoadsAt r}
    {k : (r.shape.Idx → Elt F .bf16) → Prog (TpuEff nD τ sig (Elt F) Λ₀ .tc) α} :
    St m ρ K c f0 σ ⊢ iprop((St m ρ K c f0 σ -∗ wp frame (wpE (defs₀ (F := F)) 𝒱₀ (c : Thread nD τ) none) Set.univ
          (k (oM.view.readAt (Elt F) r (outAt m ρ c σ.A f0))) Q)
      -∗ wp frame (wpE (defs₀ (F := F)) 𝒱₀ (c : Thread nD τ) none) Set.univ (.op (.load oM r hl) k) Q) := by
  unfold St
  iintro ⟨#Hrec, HO, Hx, Hout, Hrest⟩ Hk
  iapply (wp_load 𝒱₀ (c : Thread nD τ) none Set.univ (m := oM) (r := r) (Finset.subset_univ _)) $$ Hout
  iintro Hout
  iapply Hk
  iframe Hrec HO Hx Hout Hrest

/-- The store of slot j's rows of the result: the rounded rows of x plus the arrived rows. -/
theorem step_store_out {α : Type} {Q : α → sProp 𝕄} (j : Fin 20) {n : ℕ} {off : Fin 2 → ℕ} {inb} {hx} {hm} {hS}
    {k : PUnit → Prog (TpuEff nD τ sig (Elt F) Λ₀ .tc) α}
    (hoff : off = ![roff c j, 0]) (hj : j ∉ σ.A := by decide) (hn : n = rrows j := by rfl) :
    St m ρ K c f0 σ ⊢ iprop((St m ρ K c f0 { σ with A := insert j σ.A } -∗ wp frame (wpE (defs₀ (F := F)) 𝒱₀ (c : Thread nD τ) none) Set.univ (k ⟨⟩) Q)
      -∗ wp frame (wpE (defs₀ (F := F)) 𝒱₀ (c : Thread nD τ) none) Set.univ
        (.op (.store oM (Rect.unit (s := S2048x512) off ![n, 512] inb)
          (addf (truncf .bf16 (shapeCast (Rect.unit (s := S2048x512) off ![n, 512] inb).shape (xM.view.readAt (Elt F) (Rect.unit (s := S2048x512) off ![n, 512] inb).toLoadRect (xstg m ρ c)) hS) bitsLt_bf16_f32)
            (aM.view.readAt (Elt F) (Rect.unit (s := S2048x512) off ![n, 512] inb).toLoadRect (accF m ρ c)))
          Finset.univ hx hm) k) Q) := by
  unfold St
  iintro ⟨#Hrec, HO, Hx, Hout, Hsend, Hrecv⟩ Hk
  iapply (wp_store 𝒱₀ (c : Thread nD τ) none Set.univ (m := oM) (r := (Rect.unit (s := S2048x512) off ![n, 512] inb))
    (Mk := Finset.univ) (Finset.subset_univ _)) $$ Hout
  iintro Hout
  rw [store_value m ρ c f0 σ.A j inb _ hn hoff (congrFun (round_add_apply hS _ _))]
  iapply Hk
  iframe Hrec HO Hx Hout
  isplitl [Hsend]; · iexact Hsend
  iexact Hrecv

end Steps

end Cert.KernelIdeal.Proved

end
-- ==== Proof.StepsSend.lean ====
import proofs.«900723_g7700000000000724_dist_ar_v7x_xyz2x4x4_x_m2048_n512_bf16_1_alg».proof.Proof.StepsWait
import Idealize.ShloMosaic.Lib.Pipeline.Value

noncomputable section

namespace Cert.KernelIdeal.Proved

open Cert.KernelIdeal.Mesh Cert.KernelIdeal.Sched Cert.KernelIdeal.State

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

namespace Send

def srcDevQ (c : Dev nD) (q : Nat) (b : Bool) : Dev nD :=
  if q = cq c then partner c
  else if q = cy c then partner (ybud c)
  else if q = cz c then partner (zbud c)
  else if b = true then partner c else partner (zbud (ybud c))

theorem srcDev_eq_Q (c : Dev nD) (r : Nat) : srcDev c r = srcDevQ c (r / 512) (decide (r % 512 < 160)) := by
  unfold srcDev srcDevQ
  simp only [decide_eq_true_eq]

theorem srcQ_send_x : ∀ (c : Dev nD) (j : Fin 20), j.val < 6 →
    roff (partner c) j % 512 + rrows j ≤ 512 ∧
    ∀ b : Bool, (b = decide (roff (partner c) j % 512 < 160) ∨ (roff (partner c) j % 512 < 160 ∧ 160 < roff (partner c) j % 512 + rrows j)) →
      srcDevQ (partner c) (roff (partner c) j / 512) b = c := by
  decide

theorem srcDev_send_x (c : Dev nD) (j : Fin 20) (hj : j.val < 6) (t : Nat) (ht : t < rrows j) :
    srcDev (partner c) (roff (partner c) j + t) = c := by
  obtain ⟨h1, h2⟩ := srcQ_send_x c j hj
  rw [srcDev_eq_Q]
  have hq : (roff (partner c) j + t) / 512 = roff (partner c) j / 512 := by omega
  rw [hq]
  apply h2
  by_cases hb : roff (partner c) j % 512 < 160 ∧ 160 < roff (partner c) j % 512 + rrows j
  · exact Or.inr hb
  · left
    congr 1
    apply propext
    constructor <;> intro h <;> omega

theorem row_send_x (c : Dev nD) (j : Fin 20) (hj : j.val < 6) (t : Nat) (ht : t < rrows j) :
    (if soff j + t < 512 then 512 * cq c + (soff j + t) else 512 * cd c + (soff j + t - 512)) % 2048 = roff (partner c) j + t := by
  have hA : ∀ (c : Dev nD) (j : Fin 20), j.val < 6 →
      soff j + rrows j ≤ 672 ∧ (soff j < 512 → soff j + rrows j ≤ 512 ∧ roff (partner c) j = 512 * cq c + soff j) ∧
      (512 ≤ soff j → soff j = 512 ∧ roff (partner c) j = 512 * cd c) ∧ roff (partner c) j + rrows j ≤ 2048 := by decide
  obtain ⟨h0, h1, h2, h3⟩ := hA c j hj
  by_cases hs : soff j < 512
  · obtain ⟨h1a, h1b⟩ := h1 hs
    rw [if_pos (by omega), h1b]
    rw [h1b] at h3
    omega
  · obtain ⟨h2a, h2b⟩ := h2 (by omega)
    rw [if_neg (by omega), h2b]
    rw [h2b] at h3
    omega

theorem srcQ_send_f : ∀ (c : Dev nD) (j : Fin 20), 6 ≤ j.val →
    foff c j % 512 + rrows j ≤ 512 ∧
    ∀ b : Bool, (b = decide (foff c j % 512 < 160) ∨ (foff c j % 512 < 160 ∧ 160 < foff c j % 512 + rrows j)) →
      srcDevQ (nb (link j) c) (foff c j / 512) b = srcDevQ c (foff c j / 512) b := by
  decide

theorem srcDev_send_f (c : Dev nD) (j : Fin 20) (hj : 6 ≤ j.val) (t : Nat) (ht : t < rrows j) :
    srcDev (nb (link j) c) (foff c j + t) = srcDev c (foff c j + t) := by
  obtain ⟨h1, h2⟩ := srcQ_send_f c j hj
  rw [srcDev_eq_Q, srcDev_eq_Q]
  have hq : (foff c j + t) / 512 = foff c j / 512 := by omega
  rw [hq]
  apply h2
  by_cases hb : foff c j % 512 < 160 ∧ 160 < foff c j % 512 + rrows j
  · exact Or.inr hb
  · left
    congr 1
    apply propext
    constructor <;> intro h <;> omega

theorem qA_ne_qB : (qA : PosShare TreeShare) ≠ qB := by decide

/-- Two relays that borrow the same share of the same arrival slot are the same relay. -/
theorem relay_inj : ∀ (j j' : Fin 20), 6 ≤ j.val → 6 ≤ j'.val → fsrc j' = fsrc j → fsh j' = fsh j → j' = j := by decide

section Bookkeeping
variable (c : Dev nD) (σ : Pg) (j : Fin 20)

theorem lent_insert (q : PosShare TreeShare) (j0 : Fin 20) :
    lent c { σ with S := insert j σ.S } q j0
      = if 6 ≤ j.val ∧ fsrc j = j0 ∧ fsh j = q then FS c j ∪ lent c σ q j0 else lent c σ q j0 := by
  unfold lent
  show ((insert j σ.S).filter _).biUnion (FS c) = _
  rw [Finset.filter_insert]
  by_cases h : 6 ≤ j.val ∧ fsrc j = j0 ∧ fsh j = q
  · rw [if_pos h, if_pos h, Finset.biUnion_insert]
  · rw [if_neg h, if_neg h]

theorem lent_insert_of_not (q : PosShare TreeShare) (j0 : Fin 20) (h : ¬ (6 ≤ j.val ∧ fsrc j = j0 ∧ fsh j = q)) :
    lent c { σ with S := insert j σ.S } q j0 = lent c σ q j0 := by
  rw [lent_insert, if_neg h]

theorem recvSt_other (j0 : Fin 20) (h : ¬ (6 ≤ j.val ∧ fsrc j = j0)) :
    recvSt m ρ c { σ with S := insert j σ.S } j0 = recvSt m ρ c σ j0 := by
  unfold recvSt
  rw [lent_insert_of_not c σ j qA j0 (fun hh => h ⟨hh.1, hh.2.1⟩), lent_insert_of_not c σ j qB j0 (fun hh => h ⟨hh.1, hh.2.1⟩)]

theorem lent_fresh (hj6 : 6 ≤ j.val) (hjS : j ∉ σ.S) : lent c σ (fsh j) (fsrc j) = ∅ := by
  unfold lent
  apply Finset.eq_empty_of_forall_notMem
  intro i hi
  rw [Finset.mem_biUnion] at hi
  obtain ⟨j', hj', -⟩ := hi
  rw [Finset.mem_filter] at hj'
  obtain ⟨hS, h6, hsrc, hsh⟩ := hj'
  have := relay_inj j j' hj6 h6 hsrc hsh
  subst this
  exact absurd hS hjS

end Bookkeeping

section Lend
variable (c : Dev nD) (σ : Pg) (j : Fin 20)

theorem lend_part (hj6 : 6 ≤ j.val) (hjS : j ∉ σ.S) (q : PosShare TreeShare) (hq : fsh j = q) :
    (aLoc c ↦[RS c (fsrc j) \ lent c σ q (fsrc j)]{q} accF m ρ c : sProp 𝕄)
      ⊢ iprop((aLoc c ↦[FS c j]{q} accF m ρ c) ∗ (aLoc c ↦[RS c (fsrc j) \ lent c { σ with S := insert j σ.S } q (fsrc j)]{q} accF m ρ c)) := by
  have h0 : lent c σ q (fsrc j) = ∅ := by rw [← hq]; exact lent_fresh c σ j hj6 hjS
  rw [lent_insert, if_pos ⟨hj6, rfl, hq⟩, h0, Finset.union_empty, Finset.sdiff_empty]
  exact (pointsTo_split_subset (FS_subset c j hj6)).1

theorem keep_part (q : PosShare TreeShare) (hq : fsh j ≠ q) :
    lent c { σ with S := insert j σ.S } q (fsrc j) = lent c σ q (fsrc j) :=
  lent_insert_of_not c σ j q (fsrc j) (fun h => hq h.2.2)

theorem recvSt_lend (hj6 : 6 ≤ j.val) (hjS : j ∉ σ.S) (hR : fsrc j ∈ σ.R) :
    recvSt m ρ c σ (fsrc j)
      ⊢ iprop((aLoc c ↦[FS c j]{fsh j} accF m ρ c) ∗ recvSt m ρ c { σ with S := insert j σ.S } (fsrc j)) := by
  have hR' : fsrc j ∈ ({ σ with S := insert j σ.S } : Pg).R := hR
  unfold recvSt
  rw [if_pos hR, if_pos hR']
  by_cases h : 13 ≤ j.val ∧ j.val ≤ 17
  · have hq : fsh j = qB := if_pos h
    have hne : fsh j ≠ qA := by rw [hq]; exact fun e => qA_ne_qB e.symm
    rw [keep_part c σ j qA hne, hq]
    iintro ⟨Hv, HC, HA, HB⟩
    ihave H := (lend_part m ρ c σ j hj6 hjS qB hq) $$ HB
    icases H with ⟨HF, HB⟩
    iframe HF Hv HC HA HB
  · have hq : fsh j = qA := if_neg h
    have hne : fsh j ≠ qB := by rw [hq]; exact qA_ne_qB
    rw [keep_part c σ j qB hne, hq]
    iintro ⟨Hv, HC, HA, HB⟩
    ihave H := (lend_part m ρ c σ j hj6 hjS qA hq) $$ HA
    icases H with ⟨HF, HA⟩
    iframe HF Hv HC HA HB

end Lend

theorem set_stage_slice (j : Fin 20) (sinb) (hs) :
    (sM.slice (Rect.unit (s := S672x512) ![Mesh.soff j, 0] ![rrows j, 512] sinb) hs).view.set = SS j := by
  refine (View.set_slice_whole (cc0_scratch0 : Ref sig .tc) (Rect.unit (s := S672x512) ![Mesh.soff j, 0] ![rrows j, 512] sinb)).trans ?_
  exact rect_set_672 _ _ _ rfl
theorem set_acc_slice (lo : Nat) (j : Fin 20) (dinb) (hd') :
    (aM.slice (Rect.unit (s := S2048x512) ![lo, 0] ![rrows j, 512] dinb) hd').view.set = rows2048 lo (rrows j) := by
  refine (View.set_slice_whole (cc0_scratch1 : Ref sig .tc) (Rect.unit (s := S2048x512) ![lo, 0] ![rrows j, 512] dinb)).trans ?_
  exact rect_set_2048 _ _ _ rfl

theorem emb_acc_slice (lo n : Nat) (dinb) (hd') (y) (a) :
    (((aM.slice (Rect.unit (s := S2048x512) ![lo, 0] ![n, 512] dinb) hd').view.emb y) a).val
      = (![lo, 0] : Fin 2 → ℕ) a + (y a).val := by
  show (![lo, 0] : Fin 2 → ℕ) a + 1 * (y a).val = _
  rw [Nat.one_mul]
theorem emb_stage_slice (lo n : Nat) (sinb) (hs) (y) (a) :
    (((sM.slice (Rect.unit (s := S672x512) ![lo, 0] ![n, 512] sinb) hs).view.emb y) a).val
      = (![lo, 0] : Fin 2 → ℕ) a + (y a).val := by
  show (![lo, 0] : Fin 2 → ℕ) a + 1 * (y a).val = _
  rw [Nat.one_mul]

theorem link_x (j : Fin 20) (hj6 : j.val < 6) : link j = 0 := by unfold link; rw [if_pos hj6]
theorem nb_link_x (c : Dev nD) (j : Fin 20) (hj6 : j.val < 6) : nb (link j) c = partner c := by rw [link_x j hj6]; rfl

theorem landed_x (c e : Dev nD) (he : e = partner c) (j : Fin 20) (hj6 : j.val < 6) (sinb) (hs) (dinb) (hd')
    (fd : (cc0_scratch1 : Ref sig .tc).ty.Contents (Elt F)) :
    ∀ i ∈ RS e j,
      (aM.slice (Rect.unit (s := S2048x512) ![roff e j, 0] ![rrows j, 512] dinb) hd').view.write (Elt F) fd
        ((sM.slice (Rect.unit (s := S672x512) ![Mesh.soff j, 0] ![rrows j, 512] sinb) hs).view.read (Elt F) (sbufF m ρ c))
        Finset.univ i = accF m ρ e i := by
  subst he
  intro i hi
  have hi' : i ∈ (aM.slice (Rect.unit (s := S2048x512) ![roff (partner c) j, 0] ![rrows j, 512] dinb) hd').view.set := by
    rw [set_acc_slice]; exact hi
  obtain ⟨y, rfl⟩ := View.exists_emb_of_mem_set _ hi'
  rw [View.write_emb_of_mem _ _ (Finset.mem_univ y), View.read_apply, cast_cast, cast_eq]
  have hy0 : (y 0).val < rrows j := (y 0).isLt
  have hd0 := emb_acc_slice (roff (partner c) j) (rrows j) dinb hd' y 0
  have hd1 := emb_acc_slice (roff (partner c) j) (rrows j) dinb hd' y 1
  have hs0 := emb_stage_slice (Mesh.soff j) (rrows j) sinb hs y 0
  have hs1 := emb_stage_slice (Mesh.soff j) (rrows j) sinb hs y 1
  unfold accF sbufF
  rw [hd0]
  show _ = tr (xstg m ρ (srcDev (partner c) (roff (partner c) j + (y 0).val)) _)
  rw [srcDev_send_x c j hj6 _ hy0]
  congr 2
  refine funext (Fin.forall_fin_two.mpr ⟨?_, ?_⟩)
  · apply Fin.ext
    show (if _ < 512 then _ else _) % 2048 = _
    rw [hs0, hd0]
    exact row_send_x c j hj6 _ hy0
  · apply Fin.ext
    show _ = _
    rw [hs1, hd1]
    rfl

theorem landed_f (c e : Dev nD) (j : Fin 20) (he : e = nb (link j) c) (hj6 : 6 ≤ j.val) (sinb) (hs) (dinb) (hd')
    (fd : (cc0_scratch1 : Ref sig .tc).ty.Contents (Elt F)) :
    ∀ i ∈ RS e j,
      (aM.slice (Rect.unit (s := S2048x512) ![roff e j, 0] ![rrows j, 512] dinb) hd').view.write (Elt F) fd
        ((aM.slice (Rect.unit (s := S2048x512) ![foff c j, 0] ![rrows j, 512] sinb) hs).view.read (Elt F) (accF m ρ c))
        Finset.univ i = accF m ρ e i := by
  intro i hi
  have hi' : i ∈ (aM.slice (Rect.unit (s := S2048x512) ![roff e j, 0] ![rrows j, 512] dinb) hd').view.set := by
    rw [set_acc_slice]; exact hi
  obtain ⟨y, rfl⟩ := View.exists_emb_of_mem_set _ hi'
  rw [View.write_emb_of_mem _ _ (Finset.mem_univ y), View.read_apply, cast_cast, cast_eq]
  have hy0 : (y 0).val < rrows j := (y 0).isLt
  have hd0 := emb_acc_slice (roff e j) (rrows j) dinb hd' y 0
  have hd1 := emb_acc_slice (roff e j) (rrows j) dinb hd' y 1
  have hs0 := emb_acc_slice (foff c j) (rrows j) sinb hs y 0
  have hs1 := emb_acc_slice (foff c j) (rrows j) sinb hs y 1
  have hfr : roff e j = foff c j := by rw [he]; exact (foff_eq_roff c j hj6).symm
  have hidx : (aM.slice (Rect.unit (s := S2048x512) ![foff c j, 0] ![rrows j, 512] sinb) hs).view.emb y
      = (aM.slice (Rect.unit (s := S2048x512) ![roff e j, 0] ![rrows j, 512] dinb) hd').view.emb y := by
    refine funext (Fin.forall_fin_two.mpr ⟨?_, ?_⟩)
    · apply Fin.ext
      rw [hs0, hd0]
      show foff c j + _ = roff e j + _
      omega
    · apply Fin.ext
      rw [hs1, hd1]
      rfl
  rw [hidx]
  unfold accF
  rw [hd0]
  show tr (xstg m ρ (srcDev c (roff e j + (y 0).val)) _) = tr (xstg m ρ (srcDev e (roff e j + (y 0).val)) _)
  have hsd : ∀ t, t < rrows j → srcDev c (roff e j + t) = srcDev e (roff e j + t) := by
    intro t ht
    rw [hfr, he]; exact (srcDev_send_f c j hj6 t ht).symm
  rw [hsd _ hy0]

theorem owed_split (c : Dev nD) (σ : Pg) (j : Fin 20) (hjS : j ∉ σ.S) :
    Owed c (Finset.univ \ σ.S) = Owed c ((Finset.univ \ σ.S).erase j) + tallyAt (recvCell (nb (link j) c) j) () (NJ j) := by
  unfold Owed
  exact (Finset.sum_erase_add _ _ (Finset.mem_sdiff.mpr ⟨Finset.mem_univ j, hjS⟩)).symm
theorem owed_after (c : Dev nD) (σ : Pg) (j : Fin 20) :
    Owed c (Finset.univ \ insert j σ.S) = Owed c ((Finset.univ \ σ.S).erase j) := by
  rw [Finset.sdiff_insert]

abbrev stageSl (j : Fin 20) (sinb : ∀ a, (![Mesh.soff j, 0] : Fin 2 → ℕ) a + (![rrows j, 512] : Fin 2 → ℕ) a ≤ S672x512.size a)
    (hs : ∀ a, (Rect.unit (s := S672x512) ![Mesh.soff j, 0] ![rrows j, 512] sinb).stride a = 1) :
    Memref sig .tc .vmem (Rect.unit (s := S672x512) ![Mesh.soff j, 0] ![rrows j, 512] sinb).shape .bf16 :=
  sM.slice (Rect.unit (s := S672x512) ![Mesh.soff j, 0] ![rrows j, 512] sinb) hs
abbrev accSl (lo : Nat) (j : Fin 20) (dinb : ∀ a, (![lo, 0] : Fin 2 → ℕ) a + (![rrows j, 512] : Fin 2 → ℕ) a ≤ S2048x512.size a)
    (hd' : ∀ a, (Rect.unit (s := S2048x512) ![lo, 0] ![rrows j, 512] dinb).stride a = 1) :
    Memref sig .tc .vmem (Rect.unit (s := S2048x512) ![lo, 0] ![rrows j, 512] dinb).shape .bf16 :=
  aM.slice (Rect.unit (s := S2048x512) ![lo, 0] ![rrows j, 512] dinb) hd'

theorem amount_accSl (lo : Nat) (j : Fin 20) (dinb) (hd') (s : DmaSem sig) : (accSl lo j dinb hd').view.amount (.dma s) = NJ j := rfl

section Steps
variable (K : Dev nD × Fin 41 → ℕ) (c : Dev nD) (f0 : (cc0_stg1_0 : Ref sig .tc).ty.Contents (Elt F)) (σ : Pg)

theorem pay_send_x (j : Fin 20) (hj6 : j.val < 6) (sinb) (hs) :
    ((stageSl j sinb hs).view.loc (c : Thread nD τ) ↦[(stageSl j sinb hs).view.set]{fullShare} sbufF m ρ c)
      ⊢ (Rd m ρ).payload (sendCell c j) 0 0 := by
  rw [payload_send]; unfold sendPay; rw [if_pos hj6, set_stage_slice]

theorem pay_recv_x (j : Fin 20) (hj6 : j.val < 6) (sinb) (hs) (dinb) (hd') (fd : (cc0_scratch1 : Ref sig .tc).ty.Contents (Elt F)) :
    ((accSl (roff (nb (link j) c) j) j dinb hd').view.loc (Dev.tc (nb (link j) c) : Thread nD τ)
        ↦[(accSl (roff (nb (link j) c) j) j dinb hd').view.set]{fullShare}
          ((accSl (roff (nb (link j) c) j) j dinb hd').view.write (Elt F) fd ((stageSl j sinb hs).view.read (Elt F) (sbufF m ρ c)) Finset.univ))
      ⊢ (Rd m ρ).payload (recvCell (nb (link j) c) j) 0 0 := by
  rw [payload_recv]; unfold recvPay
  rw [set_acc_slice]
  have h := landed_x m ρ c (nb (link j) c) (nb_link_x c j hj6) j hj6 sinb hs dinb hd' fd
  exact Entails.of_eq (pointsTo_congr (ℓ := aLoc (nb (link j) c)) (I := RS (nb (link j) c) j) (q := fullShare)
    (f := (accSl (roff (nb (link j) c) j) j dinb hd').view.write (Elt F) fd ((stageSl j sinb hs).view.read (Elt F) (sbufF m ρ c)) Finset.univ)
    (g := accF m ρ (nb (link j) c)) h)

end Steps

section Steps2
variable (K : Dev nD × Fin 41 → ℕ) (c : Dev nD) (f0 : (cc0_stg1_0 : Ref sig .tc).ty.Contents (Elt F)) (σ : Pg)

theorem wp_send_x_rule {α : Type} {Q : α → sProp 𝕄} (j : Fin 20) (hj6 : j.val < 6) (hjS : j ∉ σ.S)
    {sinb} {dinb} {hs} {hd'} {hsc} {hsrc} {hdst} {hsem}
    {k : PUnit → Prog (TpuEff nD τ sig (Elt F) Λ₀ .tc) α}
    (fd : (cc0_scratch1 : Ref sig .tc).ty.Contents (Elt F)) (W : Waits sig Unit) :
    iprop(cellInv ER (Rd m ρ) (K (c, sIx j)) (sendCell c j) ∗ cellInv ER (Rd m ρ) (K (nb (link j) c, rIx j)) (recvCell (nb (link j) c) j)
        ∗ (sLoc c ↦[SS j]{fullShare} sbufF m ρ c) ∗ (aLoc (nb (link j) c) ↦[RS (nb (link j) c) j]{fullShare} fd)
        ∗ owes (c : Thread nD τ) (Owed c (Finset.univ \ σ.S)) W
        ∗ dutyTok ER (sendCell c j) 0 0 ∗ reached ER (sendCell c j) 0
        ∗ dutyTok ER (recvCell (nb (link j) c) j) 0 0 ∗ reached ER (recvCell (nb (link j) c) j) 0)
      ⊢ iprop(((cred (tallyAt (sendCell c j) () (NJ j)) ∗ owes (c : Thread nD τ) (Owed c ((Finset.univ \ σ.S).erase j)) W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (stageSl j sinb hs)
              (.remote (Dev.tc (nb (link j) c) : Thread nD τ) (accSl (roff (nb (link j) c) j) j dinb hd') (.dma (ssem j)) hsc)
              (.dma (rsem j)) hsrc hdst hsem) k) Q) := by
  rw [← set_stage_slice j sinb hs, show RS (nb (link j) c) j = _ from (set_acc_slice (roff (nb (link j) c) j) j dinb hd').symm]
  exact Rounds.wp_send_pointsTo 𝒱₀ ER (Rd m ρ) (c : Thread nD τ) none
    (c' := (Dev.tc (nb (link j) c) : Thread nD τ))
    (src := stageSl j sinb hs) (dst := accSl (roff (nb (link j) c) j) j dinb hd')
    (q := fullShare) (fs := sbufF m ρ c) (fd := fd)
    (κ₁ := K (c, sIx j)) (κ₂ := K (nb (link j) c, rIx j)) (r₁ := 0) (r₂ := 0) (d₁ := 0) (d₂ := 0)
    (by rw [duties_send]; exact Finset.mem_singleton_self _) (by rw [duties_recv]; exact Finset.mem_singleton_self _)
    () () (NJ j) (amount_accSl _ j dinb hd' (rsem j)) (amount_send m ρ c j 0) (amount_recv m ρ (nb (link j) c) j 0)
    (Owed c ((Finset.univ \ σ.S).erase j)) (owed_split c σ j hjS) (W := W)
    (pay_send_x m ρ c j hj6 sinb hs) (pay_recv_x m ρ c j hj6 sinb hs dinb hd' fd)

end Steps2

section Steps3
variable (K : Dev nD × Fin 41 → ℕ) (c : Dev nD) (f0 : (cc0_stg1_0 : Ref sig .tc).ty.Contents (Elt F)) (σ : Pg)

theorem pay_send_f (j : Fin 20) (hj6 : 6 ≤ j.val) (sinb) (hs) :
    ((accSl (foff c j) j sinb hs).view.loc (c : Thread nD τ) ↦[(accSl (foff c j) j sinb hs).view.set]{fsh j} accF m ρ c)
      ⊢ (Rd m ρ).payload (sendCell c j) 0 0 := by
  rw [payload_send]; unfold sendPay; rw [if_neg (by omega), set_acc_slice]
  exact .rfl

theorem pay_recv_f (j : Fin 20) (hj6 : 6 ≤ j.val) (sinb) (hs) (dinb) (hd') (fd : (cc0_scratch1 : Ref sig .tc).ty.Contents (Elt F)) :
    ((accSl (roff (nb (link j) c) j) j dinb hd').view.loc (Dev.tc (nb (link j) c) : Thread nD τ)
        ↦[(accSl (roff (nb (link j) c) j) j dinb hd').view.set]{fullShare}
          ((accSl (roff (nb (link j) c) j) j dinb hd').view.write (Elt F) fd ((accSl (foff c j) j sinb hs).view.read (Elt F) (accF m ρ c)) Finset.univ))
      ⊢ (Rd m ρ).payload (recvCell (nb (link j) c) j) 0 0 := by
  rw [payload_recv]; unfold recvPay
  rw [set_acc_slice]
  have h := landed_f m ρ c (nb (link j) c) j rfl hj6 sinb hs dinb hd' fd
  exact Entails.of_eq (pointsTo_congr (ℓ := aLoc (nb (link j) c)) (I := RS (nb (link j) c) j) (q := fullShare)
    (f := (accSl (roff (nb (link j) c) j) j dinb hd').view.write (Elt F) fd ((accSl (foff c j) j sinb hs).view.read (Elt F) (accF m ρ c)) Finset.univ)
    (g := accF m ρ (nb (link j) c)) h)

theorem wp_send_f_rule {α : Type} {Q : α → sProp 𝕄} (j : Fin 20) (hj6 : 6 ≤ j.val) (hjS : j ∉ σ.S)
    {sinb} {dinb} {hs} {hd'} {hsc} {hsrc} {hdst} {hsem}
    {k : PUnit → Prog (TpuEff nD τ sig (Elt F) Λ₀ .tc) α}
    (fd : (cc0_scratch1 : Ref sig .tc).ty.Contents (Elt F)) (W : Waits sig Unit) :
    iprop(cellInv ER (Rd m ρ) (K (c, sIx j)) (sendCell c j) ∗ cellInv ER (Rd m ρ) (K (nb (link j) c, rIx j)) (recvCell (nb (link j) c) j)
        ∗ (aLoc c ↦[FS c j]{fsh j} accF m ρ c) ∗ (aLoc (nb (link j) c) ↦[RS (nb (link j) c) j]{fullShare} fd)
        ∗ owes (c : Thread nD τ) (Owed c (Finset.univ \ σ.S)) W
        ∗ dutyTok ER (sendCell c j) 0 0 ∗ reached ER (sendCell c j) 0
        ∗ dutyTok ER (recvCell (nb (link j) c) j) 0 0 ∗ reached ER (recvCell (nb (link j) c) j) 0)
      ⊢ iprop(((cred (tallyAt (sendCell c j) () (NJ j)) ∗ owes (c : Thread nD τ) (Owed c ((Finset.univ \ σ.S).erase j)) W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accSl (foff c j) j sinb hs)
              (.remote (Dev.tc (nb (link j) c) : Thread nD τ) (accSl (roff (nb (link j) c) j) j dinb hd') (.dma (ssem j)) hsc)
              (.dma (rsem j)) hsrc hdst hsem) k) Q) := by
  rw [show FS c j = _ from (set_acc_slice (foff c j) j sinb hs).symm,
    show RS (nb (link j) c) j = _ from (set_acc_slice (roff (nb (link j) c) j) j dinb hd').symm]
  exact Rounds.wp_send_pointsTo 𝒱₀ ER (Rd m ρ) (c : Thread nD τ) none
    (c' := (Dev.tc (nb (link j) c) : Thread nD τ))
    (src := accSl (foff c j) j sinb hs) (dst := accSl (roff (nb (link j) c) j) j dinb hd')
    (q := fsh j) (fs := accF m ρ c) (fd := fd)
    (κ₁ := K (c, sIx j)) (κ₂ := K (nb (link j) c, rIx j)) (r₁ := 0) (r₂ := 0) (d₁ := 0) (d₂ := 0)
    (by rw [duties_send]; exact Finset.mem_singleton_self _) (by rw [duties_recv]; exact Finset.mem_singleton_self _)
    () () (NJ j) (amount_accSl _ j dinb hd' (rsem j)) (amount_send m ρ c j 0) (amount_recv m ρ (nb (link j) c) j 0)
    (Owed c ((Finset.univ \ σ.S).erase j)) (owed_split c σ j hjS) (W := W)
    (pay_send_f m ρ c j hj6 sinb hs) (pay_recv_f m ρ c j hj6 sinb hs dinb hd' fd)

end Steps3

end Send

open Send

section Step
variable {m} {ρ}
variable {K : Dev nD × Fin 41 → ℕ} {c : Dev nD} {f0 : (cc0_stg1_0 : Ref sig .tc).ty.Contents (Elt F)} {σ : Pg}

/-- Departure j < 6: rows of the staging scratch go to slot j of the device across x. -/
theorem step_send_x {α : Type} {Q : α → sProp 𝕄} (j : Fin 20)
    {rows : ℕ} {soff doff : Fin 2 → ℕ} {sinb} {dinb} {hs} {hd'} {d : Dev nD} {ss rs : DmaSem sig} {hsc} {hsrc} {hdst} {hsem}
    {k : PUnit → Prog (TpuEff nD τ sig (Elt F) Λ₀ .tc) α}
    (hd : d = nb (link j) c) (hdo : doff = ![roff (nb (link j) c) j, 0])
    (hj6 : j.val < 6 := by decide) (hjS : j ∉ σ.S := by decide) (hjD : j ∉ σ.D := by decide)
    (hss : ss = ssem j := by rfl) (hrs : rs = rsem j := by rfl) (hrows : rows = rrows j := by rfl)
    (hso : soff = ![Mesh.soff j, 0] := by rfl) :
    St m ρ K c f0 σ ⊢ iprop((St m ρ K c f0 { σ with S := insert j σ.S } -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (sM.slice (Rect.unit (s := S672x512) soff ![rows, 512] sinb) hs)
          (.remote (Dev.tc d : Thread nD τ) (aM.slice (Rect.unit (s := S2048x512) doff ![rows, 512] dinb) hd') (.dma ss) hsc)
          (.dma rs) hsrc hdst hsem) k) Q) := by
  subst hd; subst hss; subst hrs; subst hrows; subst hso; subst hdo
  unfold St
  iintro ⟨#Hrec, ⟨%W, HO⟩, Hx, Hout, Hsend, Hrecv⟩ Hk
  icases (bigSep_univ_update (Φ := fun j' => sendSt m ρ c σ j') (Ψ := fun j' => sendSt m ρ c { σ with S := insert j σ.S } j') j
    (fun j' h => by unfold sendSt; simp only [Finset.mem_insert, h, false_or])) $$ Hsend with ⟨Hj, Hback⟩
  ihave Hj := (Entails.of_eq (sendSt_fresh j hjS hjD)) $$ Hj
  rw [if_pos hj6]
  icases Hj with ⟨Ht1, Ht2, Hat, ⟨%fd, Hdst⟩, Hsrc⟩
  ihave HS := (records_send c j) $$ Hrec
  icases HS with ⟨HIs, Hrs⟩
  ihave HR := (records_recv (nb (link j) c) j) $$ Hrec
  icases HR with ⟨HIr, Hrr⟩
  iapply (wp_send_x_rule m ρ K c σ j hj6 hjS fd W) $$ [HIs HIr Hsrc Hdst HO Ht1 Hrs Ht2 Hrr]
  · iframe HIs HIr Hsrc Hdst HO Ht1 Hrs Ht2 Hrr
  iintro ⟨Hc, HO⟩
  iapply Hk
  iframe Hrec Hx Hout
  isplitl [HO]
  · iexists W
    ihave HO := (Entails.of_eq (congrArg (fun O => owes (c : Thread nD τ) O W) (owed_after c σ j).symm)) $$ HO
    iexact HO
  isplitl [Hc Hat Hback]
  · iapply Hback
    rw [sendSt_issued (σ := { σ with S := insert j σ.S }) j hjD (Finset.mem_insert_self _ _)]
    iframe Hc Hat
  · rw [bigSep_congr (fun j' _ => recvSt_other m ρ c σ j j' (fun h => absurd h.1 (by omega)))]
    iexact Hrecv

/-- Relay j ≥ 6: rows of an arrived slice of the accumulation buffer go to the same rows on the y or z pair. -/
theorem step_send_f {α : Type} {Q : α → sProp 𝕄} (j : Fin 20)
    {rows : ℕ} {soff doff : Fin 2 → ℕ} {sinb} {dinb} {hs} {hd'} {d : Dev nD} {ss rs : DmaSem sig} {hsc} {hsrc} {hdst} {hsem}
    {k : PUnit → Prog (TpuEff nD τ sig (Elt F) Λ₀ .tc) α}
    (hd : d = nb (link j) c) (hso : soff = ![foff c j, 0])
    (hj6 : 6 ≤ j.val := by decide) (hjS : j ∉ σ.S := by decide) (hjD : j ∉ σ.D := by decide) (hsrcR : fsrc j ∈ σ.R := by decide)
    (hss : ss = ssem j := by rfl) (hrs : rs = rsem j := by rfl) (hrows : rows = rrows j := by rfl) (hdo : doff = soff := by rfl) :
    St m ρ K c f0 σ ⊢ iprop((St m ρ K c f0 { σ with S := insert j σ.S } -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (aM.slice (Rect.unit (s := S2048x512) soff ![rows, 512] sinb) hs)
          (.remote (Dev.tc d : Thread nD τ) (aM.slice (Rect.unit (s := S2048x512) doff ![rows, 512] dinb) hd') (.dma ss) hsc)
          (.dma rs) hsrc hdst hsem) k) Q) := by
  subst hd; subst hss; subst hrs; subst hrows; subst hso
  have hdo := hdo.trans (show (![foff c j, 0] : Fin 2 → ℕ) = ![roff (nb (link j) c) j, 0] by rw [foff_eq_roff c j hj6])
  subst hdo
  unfold St
  iintro ⟨#Hrec, ⟨%W, HO⟩, Hx, Hout, Hsend, Hrecv⟩ Hk
  icases (bigSep_univ_update (Φ := fun j' => sendSt m ρ c σ j') (Ψ := fun j' => sendSt m ρ c { σ with S := insert j σ.S } j') j
    (fun j' h => by unfold sendSt; simp only [Finset.mem_insert, h, false_or])) $$ Hsend with ⟨Hj, Hback⟩
  ihave Hj := (Entails.of_eq (sendSt_fresh j hjS hjD)) $$ Hj
  rw [if_neg (show ¬ j.val < 6 by omega)]
  icases Hj with ⟨Ht1, Ht2, Hat, ⟨%fd, Hdst⟩, -⟩
  icases (bigSep_univ_update (Φ := fun j' => recvSt m ρ c σ j') (Ψ := fun j' => recvSt m ρ c { σ with S := insert j σ.S } j') (fsrc j)
    (fun j' h => recvSt_other m ρ c σ j j' (fun hh => h hh.2.symm))) $$ Hrecv with ⟨Hrj, Hrback⟩
  ihave Hrj := (recvSt_lend m ρ c σ j hj6 hjS hsrcR) $$ Hrj
  icases Hrj with ⟨Hsrc, Hrj⟩
  ihave HS := (records_send c j) $$ Hrec
  icases HS with ⟨HIs, Hrs⟩
  ihave HR := (records_recv (nb (link j) c) j) $$ Hrec
  icases HR with ⟨HIr, Hrr⟩
  iapply (wp_send_f_rule m ρ K c σ j hj6 hjS fd W) $$ [HIs HIr Hsrc Hdst HO Ht1 Hrs Ht2 Hrr]
  · iframe HIs HIr Hsrc Hdst HO Ht1 Hrs Ht2 Hrr
  iintro ⟨Hc, HO⟩
  iapply Hk
  iframe Hrec Hx Hout
  isplitl [HO]
  · iexists W
    ihave HO := (Entails.of_eq (congrArg (fun O => owes (c : Thread nD τ) O W) (owed_after c σ j).symm)) $$ HO
    iexact HO
  isplitl [Hc Hat Hback]
  · iapply Hback
    rw [sendSt_issued (σ := { σ with S := insert j σ.S }) j hjD (Finset.mem_insert_self _ _)]
    iframe Hc Hat
  · iapply Hrback
    iexact Hrj

end Step

end Cert.KernelIdeal.Proved

end
-- ==== Proof.BodyA.lean ====
import proofs.«900723_g7700000000000724_dist_ar_v7x_xyz2x4x4_x_m2048_n512_bf16_1_alg».proof.Proof.State
import proofs.«900723_g7700000000000724_dist_ar_v7x_xyz2x4x4_x_m2048_n512_bf16_1_alg».proof.Proof.MeshFacts
import proofs.«900723_g7700000000000724_dist_ar_v7x_xyz2x4x4_x_m2048_n512_bf16_1_alg».proof.Proof.StepsMem
import proofs.«900723_g7700000000000724_dist_ar_v7x_xyz2x4x4_x_m2048_n512_bf16_1_alg».proof.Proof.StepsWait
import proofs.«900723_g7700000000000724_dist_ar_v7x_xyz2x4x4_x_m2048_n512_bf16_1_alg».proof.Proof.StepsSend

noncomputable section

namespace Cert.KernelIdeal.BodyPf

open Cert.KernelIdeal.Gen Cert.KernelIdeal.Mesh Cert.KernelIdeal.Sched Cert.KernelIdeal.State Cert.KernelIdeal.Proved

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Fin 41 → ℕ} {c : Dev nD} {f0 : (cc0_stg1_0 : Ref sig .tc).ty.Contents (Elt F)}

theorem part3 {v5 v8 v12 v23 v65 : BitVec 32} {Kt : (BitVec 32) → sProp 𝕄} :
    iprop(St m ρ K c f0 σ3 ∗ (∀ r, St m ρ K c f0 σ4 -∗ Kt r))
      ⊢ wp frame (wpE (defs₀ (F := F)) 𝒱₀ (c : Thread nD τ) none) Set.univ
        (atBufs k0_part3_skel c v5 v8 v12 v23 v65) Kt := by
  simp only [atBufs, k0_part3_skel, Prog.lift, Prog.bind_op, Prog.bind_ret, Prog.pure_eq_ret]
  iintro ⟨HSt, Hk⟩
  iapply (step_send_x 0 (hd := dev4_eq c) (hdo := off3_0_partner c)) $$ HSt
  iintro HSt
  iapply (step_send_x 1 (hd := dev5_eq c) (hdo := off3_64_partner c)) $$ HSt
  iintro HSt
  rw [wp_ret]
  imodintro
  iapply Hk
  iexact HSt

theorem part4 {v5 v8 v12 v23 v96 : BitVec 32} {Kt : (PUnit) → sProp 𝕄} :
    iprop(St m ρ K c f0 σ4 ∗ (∀ r, St m ρ K c f0 σ5 -∗ Kt r))
      ⊢ wp frame (wpE (defs₀ (F := F)) 𝒱₀ (c : Thread nD τ) none) Set.univ
        (atBufs k0_part4_skel c v5 v8 v12 v23 v96) Kt := by
  simp only [atBufs, k0_part4_skel, Prog.lift, Prog.bind_op, Prog.bind_ret, Prog.pure_eq_ret]
  iintro ⟨HSt, Hk⟩
  iapply (step_send_x 2 (hd := dev6_eq c) (hdo := off4_128_partner c)) $$ HSt
  iintro HSt
  iapply (step_send_x 3 (hd := dev7_eq c) (hdo := off4_256_partner c)) $$ HSt
  iintro HSt
  rw [wp_ret]
  imodintro
  iapply Hk
  iexact HSt

theorem part5 {v2 v5 v8 v12 v22 v23 : BitVec 32} {Kt : (Σ' (v159 : BitVec 32), BitVec 32) → sProp 𝕄} :
    iprop(St m ρ K c f0 σ5 ∗ (∀ r, St m ρ K c f0 σ6 -∗ Kt r))
      ⊢ wp frame (wpE (defs₀ (F := F)) 𝒱₀ (c : Thread nD τ) none) Set.univ
        (atBufs k0_part5_skel c v2 v5 v8 v12 v22 v23) Kt := by
  simp only [atBufs, k0_part5_skel, Prog.lift, Prog.bind_op, Prog.bind_ret, Prog.pure_eq_ret]
  iintro ⟨HSt, Hk⟩
  iapply (step_send_x 4 (hd := dev8_eq c) (hdo := off4_384_partner c)) $$ HSt
  iintro HSt
  iapply (step_send_x 5 (hd := dev9_eq c) (hdo := off5_partner c)) $$ HSt
  iintro HSt
  iapply (step_recv_wait 0) $$ HSt
  iintro HSt
  rw [wp_ret]
  imodintro
  iapply Hk
  iexact HSt

theorem part6 {v2 v5 v8 v23 v26 v29 v159 v160 : BitVec 32} {Kt : (BitVec 32) → sProp 𝕄} :
    iprop(St m ρ K c f0 σ6 ∗ (∀ r, St m ρ K c f0 σ7 -∗ Kt r))
      ⊢ wp frame (wpE (defs₀ (F := F)) 𝒱₀ (c : Thread nD τ) none) Set.univ
        (atBufs k0_part6_skel c v2 v5 v8 v23 v26 v29 v159 v160) Kt := by
  simp only [atBufs, k0_part6_skel, Prog.lift, Prog.bind_op, Prog.bind_ret, Prog.pure_eq_ret]
  iintro ⟨HSt, Hk⟩
  iapply (step_send_f 6 (hd := dev10_eq c) (hso := off3_0_src6 c)) $$ HSt
  iintro HSt
  iapply (step_send_f 13 (hd := dev11_eq c) (hso := off3_0_src13 c)) $$ HSt
  iintro HSt
  iapply step_load_x $$ HSt
  iintro HSt
  iapply (step_load_acc 0 (hoff := off6_0_own c)) $$ HSt
  iintro HSt
  iapply step_load_out $$ HSt
  iintro HSt
  iapply (step_store_out 0 (hoff := off6_0_own c)) $$ HSt
  iintro HSt
  rw [wp_ret]
  imodintro
  iapply Hk
  iexact HSt

theorem part7 {v2 v5 v8 v12 v26 v29 v196 : BitVec 32} {Kt : (Σ' (v204 : BitVec 32), Vec F S64x512 .f32) → sProp 𝕄} :
    iprop(St m ρ K c f0 σ7 ∗ (∀ r, ⌜r.2 = xM.view.readAt (Elt F) (Rect.unit (s := S2048x512) (k0_off6 c 64#32) S64x512.size (k0_off6_inb c 1)).toLoadRect (xstg m ρ c)⌝ -∗ St m ρ K c f0 σ8 -∗ Kt r))
      ⊢ wp frame (wpE (defs₀ (F := F)) 𝒱₀ (c : Thread nD τ) none) Set.univ
        (atBufs k0_part7_skel c v2 v5 v8 v12 v26 v29 v196) Kt := by
  simp only [atBufs, k0_part7_skel, Prog.lift, Prog.bind_op, Prog.bind_ret, Prog.pure_eq_ret]
  iintro ⟨HSt, Hk⟩
  iapply (step_recv_wait 1) $$ HSt
  iintro HSt
  iapply (step_send_f 7 (hd := dev12_eq c) (hso := off3_64_src7 c)) $$ HSt
  iintro HSt
  iapply (step_send_f 14 (hd := dev13_eq c) (hso := off3_64_src14 c)) $$ HSt
  iintro HSt
  iapply step_load_x $$ HSt
  iintro HSt
  rw [wp_ret]
  imodintro
  iapply Hk $$ %_ %rfl
  iexact HSt

theorem part8 {v2 v5 v8 v12 v23 v26 v204 : BitVec 32} {v230 : Vec F S64x512 .f32}
    (hv : v230 = xM.view.readAt (Elt F) (Rect.unit (s := S2048x512) (k0_off6 c 64#32) S64x512.size (k0_off6_inb c 1)).toLoadRect (xstg m ρ c)) {Kt : (Σ' (v249 : BitVec 32) (v262 : BitVec 32), BitVec 32) → sProp 𝕄} :
    iprop(St m ρ K c f0 σ8 ∗ (∀ r, St m ρ K c f0 σ9 -∗ Kt r))
      ⊢ wp frame (wpE (defs₀ (F := F)) 𝒱₀ (c : Thread nD τ) none) Set.univ
        (atBufs k0_part8_skel c v2 v5 v8 v12 v23 v26 v204 v230) Kt := by
  subst hv
  simp only [atBufs, k0_part8_skel, Prog.lift, Prog.bind_op, Prog.bind_ret, Prog.pure_eq_ret]
  iintro ⟨HSt, Hk⟩
  iapply (step_load_acc 1 (hoff := off6_64_own c)) $$ HSt
  iintro HSt
  iapply step_load_out $$ HSt
  iintro HSt
  iapply (step_store_out 1 (hoff := off6_64_own c)) $$ HSt
  iintro HSt
  iapply (step_recv_wait 2) $$ HSt
  iintro HSt
  iapply (step_send_f 8 (hd := dev14_eq c) (hso := off4_128_src8 c)) $$ HSt
  iintro HSt
  rw [wp_ret]
  imodintro
  iapply Hk
  iexact HSt

theorem part9 {v2 v5 v8 v12 v23 v29 v249 v262 c0_i32_178 : BitVec 32} {Kt : (Σ' (v294 : BitVec 32) (v296 : BitVec 32), BitVec 32) → sProp 𝕄} :
    iprop(St m ρ K c f0 σ9 ∗ (∀ r, St m ρ K c f0 σ10 -∗ Kt r))
      ⊢ wp frame (wpE (defs₀ (F := F)) 𝒱₀ (c : Thread nD τ) none) Set.univ
        (atBufs k0_part9_skel c v2 v5 v8 v12 v23 v29 v249 v262 c0_i32_178) Kt := by
  simp only [atBufs, k0_part9_skel, Prog.lift, Prog.bind_op, Prog.bind_ret, Prog.pure_eq_ret]
  iintro ⟨HSt, Hk⟩
  iapply (step_send_f 15 (hd := dev15_eq c) (hso := off4_128_src15 c)) $$ HSt
  iintro HSt
  iapply step_load_x $$ HSt
  iintro HSt
  iapply (step_load_acc 2 (hoff := off7_128_own c)) $$ HSt
  iintro HSt
  iapply step_load_out $$ HSt
  iintro HSt
  iapply (step_store_out 2 (hoff := off7_128_own c)) $$ HSt
  iintro HSt
  iapply (step_recv_wait 3) $$ HSt
  iintro HSt
  rw [wp_ret]
  imodintro
  iapply Hk
  iexact HSt

theorem part10 {v2 v5 v8 v23 v26 v29 v294 v296 c4_i32_201 : BitVec 32} {Kt : (PUnit) → sProp 𝕄} :
    iprop(St m ρ K c f0 σ10 ∗ (∀ r, St m ρ K c f0 σ11 -∗ Kt r))
      ⊢ wp frame (wpE (defs₀ (F := F)) 𝒱₀ (c : Thread nD τ) none) Set.univ
        (atBufs k0_part10_skel c v2 v5 v8 v23 v26 v29 v294 v296 c4_i32_201) Kt := by
  simp only [atBufs, k0_part10_skel, Prog.lift, Prog.bind_op, Prog.bind_ret, Prog.pure_eq_ret]
  iintro ⟨HSt, Hk⟩
  iapply (step_send_f 9 (hd := dev16_eq c) (hso := off4_256_src9 c)) $$ HSt
  iintro HSt
  iapply (step_send_f 16 (hd := dev17_eq c) (hso := off4_256_src16 c)) $$ HSt
  iintro HSt
  iapply step_load_x $$ HSt
  iintro HSt
  iapply (step_load_acc 3 (hoff := off7_256_own c)) $$ HSt
  iintro HSt
  iapply step_load_out $$ HSt
  iintro HSt
  iapply (step_store_out 3 (hoff := off7_256_own c)) $$ HSt
  iintro HSt
  rw [wp_ret]
  imodintro
  iapply Hk
  iexact HSt

theorem part11 {v2 v5 v8 v12 v26 v29 : BitVec 32} {Kt : (Σ' (v339 : BitVec 32), FVec F S128x512 .bf16) → sProp 𝕄} :
    iprop(St m ρ K c f0 σ11 ∗ (∀ r, ⌜r.2 = k0_pay7 (xM.view.readAt (Elt F) (Rect.unit (s := S2048x512) (k0_off7 c 384#32) S128x512.size (k0_off7_inb c 2)).toLoadRect (xstg m ρ c))⌝ -∗ St m ρ K c f0 σ12 -∗ Kt r))
      ⊢ wp frame (wpE (defs₀ (F := F)) 𝒱₀ (c : Thread nD τ) none) Set.univ
        (atBufs k0_part11_skel c v2 v5 v8 v12 v26 v29) Kt := by
  simp only [atBufs, k0_part11_skel, Prog.lift, Prog.bind_op, Prog.bind_ret, Prog.pure_eq_ret]
  iintro ⟨HSt, Hk⟩
  iapply (step_recv_wait 4) $$ HSt
  iintro HSt
  iapply (step_send_f 10 (hd := dev18_eq c) (hso := off4_384_src10 c)) $$ HSt
  iintro HSt
  iapply (step_send_f 17 (hd := dev19_eq c) (hso := off4_384_src17 c)) $$ HSt
  iintro HSt
  iapply step_load_x $$ HSt
  iintro HSt
  rw [wp_ret]
  imodintro
  iapply Hk $$ %_ %rfl
  iexact HSt

theorem part12 {v5 v8 v18 v22 v23 v339 : BitVec 32} {v367 : FVec F S128x512 .bf16}
    (hv : v367 = k0_pay7 (xM.view.readAt (Elt F) (Rect.unit (s := S2048x512) (k0_off7 c 384#32) S128x512.size (k0_off7_inb c 2)).toLoadRect (xstg m ρ c))) {Kt : (PUnit) → sProp 𝕄} :
    iprop(St m ρ K c f0 σ12 ∗ (∀ r, St m ρ K c f0 σ13 -∗ Kt r))
      ⊢ wp frame (wpE (defs₀ (F := F)) 𝒱₀ (c : Thread nD τ) none) Set.univ
        (atBufs k0_part12_skel c v5 v8 v18 v22 v23 v339 v367) Kt := by
  subst hv
  simp only [atBufs, k0_part12_skel, Prog.lift, Prog.bind_op, Prog.bind_ret, Prog.pure_eq_ret]
  iintro ⟨HSt, Hk⟩
  iapply (step_load_acc 4 (hoff := off7_384_own c)) $$ HSt
  iintro HSt
  iapply step_load_out $$ HSt
  iintro HSt
  iapply (step_store_out 4 (hoff := off7_384_own c)) $$ HSt
  iintro HSt
  iapply (step_recv_wait 5) $$ HSt
  iintro HSt
  iapply step_load_x $$ HSt
  iintro HSt
  iapply (step_load_acc 5 (hoff := off2_own c)) $$ HSt
  iintro HSt
  iapply step_load_out $$ HSt
  iintro HSt
  iapply (step_store_out 5 (hoff := off2_own c)) $$ HSt
  iintro HSt
  rw [wp_ret]
  imodintro
  iapply Hk
  iexact HSt

theorem part13 {v5 v8 v18 v23 : BitVec 32} {Kt : (PUnit) → sProp 𝕄} :
    iprop(St m ρ K c f0 σ13 ∗ (∀ r, St m ρ K c f0 σ14 -∗ Kt r))
      ⊢ wp frame (wpE (defs₀ (F := F)) 𝒱₀ (c : Thread nD τ) none) Set.univ
        (atBufs k0_part13_skel c v5 v8 v18 v23) Kt := by
  simp only [atBufs, k0_part13_skel, Prog.lift, Prog.bind_op, Prog.bind_ret, Prog.pure_eq_ret]
  iintro ⟨HSt, Hk⟩
  iapply (step_recv_wait 13) $$ HSt
  iintro HSt
  iapply step_load_x $$ HSt
  iintro HSt
  iapply (step_load_acc 13 (hoff := off9_0_own c)) $$ HSt
  iintro HSt
  iapply step_load_out $$ HSt
  iintro HSt
  iapply (step_store_out 13 (hoff := off9_0_own c)) $$ HSt
  iintro HSt
  iapply (step_recv_wait 14) $$ HSt
  iintro HSt
  iapply step_load_x $$ HSt
  iintro HSt
  iapply (step_load_acc 14 (hoff := off9_64_own c)) $$ HSt
  iintro HSt
  iapply step_load_out $$ HSt
  iintro HSt
  iapply (step_store_out 14 (hoff := off9_64_own c)) $$ HSt
  iintro HSt
  rw [wp_ret]
  imodintro
  iapply Hk
  iexact HSt

end Cert.KernelIdeal.BodyPf

end
-- ==== Proof.BodyB.lean ====
import proofs.«900723_g7700000000000724_dist_ar_v7x_xyz2x4x4_x_m2048_n512_bf16_1_alg».proof.Proof.State
import proofs.«900723_g7700000000000724_dist_ar_v7x_xyz2x4x4_x_m2048_n512_bf16_1_alg».proof.Proof.MeshFacts
import proofs.«900723_g7700000000000724_dist_ar_v7x_xyz2x4x4_x_m2048_n512_bf16_1_alg».proof.Proof.StepsMem
import proofs.«900723_g7700000000000724_dist_ar_v7x_xyz2x4x4_x_m2048_n512_bf16_1_alg».proof.Proof.StepsWait
import proofs.«900723_g7700000000000724_dist_ar_v7x_xyz2x4x4_x_m2048_n512_bf16_1_alg».proof.Proof.StepsSend

noncomputable section

namespace Cert.KernelIdeal.BodyPf

open Cert.KernelIdeal.Gen Cert.KernelIdeal.Mesh Cert.KernelIdeal.Sched Cert.KernelIdeal.State
open Cert.KernelIdeal.Proved

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Fin 41 → ℕ} {c : Dev nD} {f0 : (cc0_stg1_0 : Ref sig .tc).ty.Contents (Elt F)}

theorem part14 {v2 v5 v8 v18 v23 v26 : BitVec 32} {Kt : (Σ' (v466 : BitVec 32), FVec F S128x512 .bf16) → sProp 𝕄} :
    iprop(St m ρ K c f0 σ14 ∗ (∀ r, ⌜r.2 = k0_pay12 (xM.view.readAt (Elt F) (Rect.unit (s := S2048x512) (k0_off12 c 128#32) S128x512.size (k0_off12_inb c 0)).toLoadRect (xstg m ρ c)) (aM.view.readAt (Elt F) (Rect.unit (s := S2048x512) (k0_off12 c 128#32) S128x512.size (k0_off12_inb c 0)).toLoadRect (accF m ρ c))⌝ -∗ St m ρ K c f0 σ15 -∗ Kt r))
      ⊢ wp frame (wpE (defs₀ (F := F)) 𝒱₀ (c : Thread nD τ) none) Set.univ
        (atBufs k0_part14_skel c v2 v5 v8 v18 v23 v26) Kt := by
  simp only [atBufs, k0_part14_skel, Prog.lift, Prog.bind_op, Prog.bind_ret, Prog.pure_eq_ret]
  iintro ⟨HSt, Hk⟩
  iapply (step_recv_wait 15) $$ HSt
  iintro HSt
  iapply (step_send_f 11 (hd := dev20_eq c) (hso := off11_src11 c)) $$ HSt
  iintro HSt
  iapply step_load_x $$ HSt
  iintro HSt
  iapply (step_load_acc 15 (hoff := off12_128_own c)) $$ HSt
  iintro HSt
  rw [wp_ret]
  imodintro
  iapply Hk
  · ipureintro; rfl
  · iexact HSt

theorem part15 {v2 v5 v8 v18 v23 v26 v466 : BitVec 32} {v473 : FVec F S128x512 .bf16}
    (hv : v473 = k0_pay12 (xM.view.readAt (Elt F) (Rect.unit (s := S2048x512) (k0_off12 c 128#32) S128x512.size (k0_off12_inb c 0)).toLoadRect (xstg m ρ c)) (aM.view.readAt (Elt F) (Rect.unit (s := S2048x512) (k0_off12 c 128#32) S128x512.size (k0_off12_inb c 0)).toLoadRect (accF m ρ c)))
    {Kt : (Σ' (v503 : BitVec 32), FVec F S128x512 .bf16) → sProp 𝕄} :
    iprop(St m ρ K c f0 σ15 ∗ (∀ r, ⌜r.2 = k0_pay13 (xM.view.readAt (Elt F) (Rect.unit (s := S2048x512) (k0_off12 c 256#32) S128x512.size (k0_off12_inb c 1)).toLoadRect (xstg m ρ c))⌝ -∗ St m ρ K c f0 σ16 -∗ Kt r))
      ⊢ wp frame (wpE (defs₀ (F := F)) 𝒱₀ (c : Thread nD τ) none) Set.univ
        (atBufs k0_part15_skel c v2 v5 v8 v18 v23 v26 v466 v473) Kt := by
  subst hv
  simp only [atBufs, k0_part15_skel, Prog.lift, Prog.bind_op, Prog.bind_ret, Prog.pure_eq_ret]
  iintro ⟨HSt, Hk⟩
  iapply step_load_out $$ HSt
  iintro HSt
  iapply (step_store_out 15 (hoff := off12_128_own c)) $$ HSt
  iintro HSt
  iapply (step_recv_wait 16) $$ HSt
  iintro HSt
  iapply (step_send_f 12 (hd := dev21_eq c) (hso := off13_src12 c)) $$ HSt
  iintro HSt
  iapply step_load_x $$ HSt
  iintro HSt
  rw [wp_ret]
  imodintro
  iapply Hk
  · ipureintro; rfl
  · iexact HSt

theorem part16 {v5 v8 v15 v23 v503 : BitVec 32} {v507 : FVec F S128x512 .bf16}
    (hv : v507 = k0_pay13 (xM.view.readAt (Elt F) (Rect.unit (s := S2048x512) (k0_off12 c 256#32) S128x512.size (k0_off12_inb c 1)).toLoadRect (xstg m ρ c)))
    {Kt : (Σ' (v541 : BitVec 32), BitVec 32) → sProp 𝕄} :
    iprop(St m ρ K c f0 σ16 ∗ (∀ r, St m ρ K c f0 σ17 -∗ Kt r))
      ⊢ wp frame (wpE (defs₀ (F := F)) 𝒱₀ (c : Thread nD τ) none) Set.univ
        (atBufs k0_part16_skel c v5 v8 v15 v23 v503 v507) Kt := by
  subst hv
  simp only [atBufs, k0_part16_skel, Prog.lift, Prog.bind_op, Prog.bind_ret, Prog.pure_eq_ret]
  iintro ⟨HSt, Hk⟩
  iapply (step_load_acc 16 (hoff := off12_256_own c)) $$ HSt
  iintro HSt
  iapply step_load_out $$ HSt
  iintro HSt
  iapply (step_store_out 16 (hoff := off12_256_own c)) $$ HSt
  iintro HSt
  iapply (step_recv_wait 6) $$ HSt
  iintro HSt
  iapply step_load_x $$ HSt
  iintro HSt
  iapply (step_load_acc 6 (hoff := off15_0_own c)) $$ HSt
  iintro HSt
  iapply step_load_out $$ HSt
  iintro HSt
  iapply (step_store_out 6 (hoff := off15_0_own c)) $$ HSt
  iintro HSt
  rw [wp_ret]
  imodintro
  iapply Hk
  iexact HSt

theorem part17 {v5 v8 v15 v23 v541 c1_i32_353 : BitVec 32} {Kt : (Σ' (v572 : BitVec 32) (v576 : FVec F S128x512 .bf16), Vec F S128x512 .bf16) → sProp 𝕄} :
    iprop(St m ρ K c f0 σ17 ∗ (∀ r, ⌜r.2.1 = k0_pay17 (xM.view.readAt (Elt F) (Rect.unit (s := S2048x512) (k0_off17 c 128#32) S128x512.size (k0_off17_inb c 0)).toLoadRect (xstg m ρ c))⌝ -∗ ⌜r.2.2 = (aM.view.readAt (Elt F) (Rect.unit (s := S2048x512) (k0_off17 c 128#32) S128x512.size (k0_off17_inb c 0)).toLoadRect (accF m ρ c))⌝ -∗ St m ρ K c f0 σ18 -∗ Kt r))
      ⊢ wp frame (wpE (defs₀ (F := F)) 𝒱₀ (c : Thread nD τ) none) Set.univ
        (atBufs k0_part17_skel c v5 v8 v15 v23 v541 c1_i32_353) Kt := by
  simp only [atBufs, k0_part17_skel, Prog.lift, Prog.bind_op, Prog.bind_ret, Prog.pure_eq_ret]
  iintro ⟨HSt, Hk⟩
  iapply (step_recv_wait 7) $$ HSt
  iintro HSt
  iapply step_load_x $$ HSt
  iintro HSt
  iapply (step_load_acc 7 (hoff := off15_64_own c)) $$ HSt
  iintro HSt
  iapply step_load_out $$ HSt
  iintro HSt
  iapply (step_store_out 7 (hoff := off15_64_own c)) $$ HSt
  iintro HSt
  iapply (step_recv_wait 8) $$ HSt
  iintro HSt
  iapply step_load_x $$ HSt
  iintro HSt
  iapply (step_load_acc 8 (hoff := off17_128_own c)) $$ HSt
  iintro HSt
  rw [wp_ret]
  imodintro
  iapply Hk
  · ipureintro; rfl
  · ipureintro; rfl
  · iexact HSt

theorem part18 {v2 v5 v8 v15 v23 v29 v572 : BitVec 32} {v576 : FVec F S128x512 .bf16} {v578 : Vec F S128x512 .bf16}
    (hv1 : v576 = k0_pay17 (xM.view.readAt (Elt F) (Rect.unit (s := S2048x512) (k0_off17 c 128#32) S128x512.size (k0_off17_inb c 0)).toLoadRect (xstg m ρ c)))
    (hv2 : v578 = (aM.view.readAt (Elt F) (Rect.unit (s := S2048x512) (k0_off17 c 128#32) S128x512.size (k0_off17_inb c 0)).toLoadRect (accF m ρ c)))
    {Kt : (Σ' (v609 : BitVec 32), FVec F S128x512 .f32) → sProp 𝕄} :
    iprop(St m ρ K c f0 σ18 ∗ (∀ r, ⌜r.2 = k0_pay19 (xM.view.readAt (Elt F) (Rect.unit (s := S2048x512) (k0_off17 c 256#32) S128x512.size (k0_off17_inb c 1)).toLoadRect (xstg m ρ c))⌝ -∗ St m ρ K c f0 σ19 -∗ Kt r))
      ⊢ wp frame (wpE (defs₀ (F := F)) 𝒱₀ (c : Thread nD τ) none) Set.univ
        (atBufs k0_part18_skel c v2 v5 v8 v15 v23 v29 v572 v576 v578) Kt := by
  subst hv1
  subst hv2
  simp only [atBufs, k0_part18_skel, Prog.lift, Prog.bind_op, Prog.bind_ret, Prog.pure_eq_ret]
  iintro ⟨HSt, Hk⟩
  iapply step_load_out $$ HSt
  iintro HSt
  iapply (step_store_out 8 (hoff := off17_128_own c)) $$ HSt
  iintro HSt
  iapply (step_recv_wait 9) $$ HSt
  iintro HSt
  iapply (step_send_f 18 (hd := dev22_eq c) (hso := off18_src18 c)) $$ HSt
  iintro HSt
  iapply step_load_x $$ HSt
  iintro HSt
  rw [wp_ret]
  imodintro
  iapply Hk
  · ipureintro; rfl
  · iexact HSt

theorem part19 {v2 v5 v8 v15 v23 v29 v609 : BitVec 32} {v612 : FVec F S128x512 .f32}
    (hv : v612 = k0_pay19 (xM.view.readAt (Elt F) (Rect.unit (s := S2048x512) (k0_off17 c 256#32) S128x512.size (k0_off17_inb c 1)).toLoadRect (xstg m ρ c)))
    {Kt : BitVec 32 → sProp 𝕄} :
    iprop(St m ρ K c f0 σ19 ∗ (∀ r, St m ρ K c f0 σ20 -∗ Kt r))
      ⊢ wp frame (wpE (defs₀ (F := F)) 𝒱₀ (c : Thread nD τ) none) Set.univ
        (atBufs k0_part19_skel c v2 v5 v8 v15 v23 v29 v609 v612) Kt := by
  subst hv
  simp only [atBufs, k0_part19_skel, Prog.lift, Prog.bind_op, Prog.bind_ret, Prog.pure_eq_ret]
  iintro ⟨HSt, Hk⟩
  iapply (step_load_acc 9 (hoff := off17_256_own c)) $$ HSt
  iintro HSt
  iapply step_load_out $$ HSt
  iintro HSt
  iapply (step_store_out 9 (hoff := off17_256_own c)) $$ HSt
  iintro HSt
  iapply (step_recv_wait 10) $$ HSt
  iintro HSt
  iapply (step_send_f 19 (hd := dev23_eq c) (hso := off16_384_src19 c)) $$ HSt
  iintro HSt
  rw [wp_ret]
  imodintro
  iapply Hk
  iexact HSt

theorem part20 {v5 v8 v18 v22 v23 v646 : BitVec 32} {Kt : (Σ' (v681 : BitVec 32), BitVec 32) → sProp 𝕄} :
    iprop(St m ρ K c f0 σ20 ∗ (∀ r, St m ρ K c f0 σ21 -∗ Kt r))
      ⊢ wp frame (wpE (defs₀ (F := F)) 𝒱₀ (c : Thread nD τ) none) Set.univ
        (atBufs k0_part20_skel c v5 v8 v18 v22 v23 v646) Kt := by
  simp only [atBufs, k0_part20_skel, Prog.lift, Prog.bind_op, Prog.bind_ret, Prog.pure_eq_ret]
  iintro ⟨HSt, Hk⟩
  iapply step_load_x $$ HSt
  iintro HSt
  iapply (step_load_acc 10 (hoff := off17_384_own c)) $$ HSt
  iintro HSt
  iapply step_load_out $$ HSt
  iintro HSt
  iapply (step_store_out 10 (hoff := off17_384_own c)) $$ HSt
  iintro HSt
  iapply (step_recv_wait 17) $$ HSt
  iintro HSt
  iapply step_load_x $$ HSt
  iintro HSt
  iapply (step_load_acc 17 (hoff := off12_384_own c)) $$ HSt
  iintro HSt
  iapply step_load_out $$ HSt
  iintro HSt
  iapply (step_store_out 17 (hoff := off12_384_own c)) $$ HSt
  iintro HSt
  rw [wp_ret]
  imodintro
  iapply Hk
  iexact HSt

theorem part21 {v5 v8 v22 v23 v681 c0_i32_440 : BitVec 32} {Kt : (Σ' (v715 : BitVec 32), Vec F S80x512 .f32) → sProp 𝕄} :
    iprop(St m ρ K c f0 σ21 ∗ (∀ r, ⌜r.2 = (xM.view.readAt (Elt F) (Rect.unit (s := S2048x512) (k0_off22 c) S80x512.size (k0_off22_inb c)).toLoadRect (xstg m ρ c))⌝ -∗ St m ρ K c f0 σ22 -∗ Kt r))
      ⊢ wp frame (wpE (defs₀ (F := F)) 𝒱₀ (c : Thread nD τ) none) Set.univ
        (atBufs k0_part21_skel c v5 v8 v22 v23 v681 c0_i32_440) Kt := by
  simp only [atBufs, k0_part21_skel, Prog.lift, Prog.bind_op, Prog.bind_ret, Prog.pure_eq_ret]
  iintro ⟨HSt, Hk⟩
  iapply (step_recv_wait 11) $$ HSt
  iintro HSt
  iapply step_load_x $$ HSt
  iintro HSt
  iapply (step_load_acc 11 (hoff := off20_own c)) $$ HSt
  iintro HSt
  iapply step_load_out $$ HSt
  iintro HSt
  iapply (step_store_out 11 (hoff := off20_own c)) $$ HSt
  iintro HSt
  iapply (step_recv_wait 12) $$ HSt
  iintro HSt
  iapply step_load_x $$ HSt
  iintro HSt
  rw [wp_ret]
  imodintro
  iapply Hk
  · ipureintro; rfl
  · iexact HSt

theorem part22 {v5 v8 v22 v23 v715 : BitVec 32} {v717 : Vec F S80x512 .f32}
    (hv : v717 = (xM.view.readAt (Elt F) (Rect.unit (s := S2048x512) (k0_off22 c) S80x512.size (k0_off22_inb c)).toLoadRect (xstg m ρ c)))
    {Kt : (Σ' (v751 : BitVec 32), BitVec 32) → sProp 𝕄} :
    iprop(St m ρ K c f0 σ22 ∗ (∀ r, St m ρ K c f0 σ23 -∗ Kt r))
      ⊢ wp frame (wpE (defs₀ (F := F)) 𝒱₀ (c : Thread nD τ) none) Set.univ
        (atBufs k0_part22_skel c v5 v8 v22 v23 v715 v717) Kt := by
  subst hv
  simp only [atBufs, k0_part22_skel, Prog.lift, Prog.bind_op, Prog.bind_ret, Prog.pure_eq_ret]
  iintro ⟨HSt, Hk⟩
  iapply (step_load_acc 12 (hoff := off22_own c)) $$ HSt
  iintro HSt
  iapply step_load_out $$ HSt
  iintro HSt
  iapply (step_store_out 12 (hoff := off22_own c)) $$ HSt
  iintro HSt
  iapply (step_recv_wait 18) $$ HSt
  iintro HSt
  iapply step_load_x $$ HSt
  iintro HSt
  iapply (step_load_acc 18 (hoff := off24_own c)) $$ HSt
  iintro HSt
  iapply step_load_out $$ HSt
  iintro HSt
  iapply (step_store_out 18 (hoff := off24_own c)) $$ HSt
  iintro HSt
  rw [wp_ret]
  imodintro
  iapply Hk
  iexact HSt

theorem part23 {v8 v22 v751 v752 : BitVec 32} {Kt : PUnit → sProp 𝕄} :
    iprop(St m ρ K c f0 σ23 ∗ (∀ r, St m ρ K c f0 σ24 -∗ Kt r))
      ⊢ wp frame (wpE (defs₀ (F := F)) 𝒱₀ (c : Thread nD τ) none) Set.univ
        (atBufs k0_part23_skel c v8 v22 v751 v752) Kt := by
  simp only [atBufs, k0_part23_skel, Prog.lift, Prog.bind_op, Prog.bind_ret, Prog.pure_eq_ret]
  iintro ⟨HSt, Hk⟩
  iapply (step_recv_wait 19) $$ HSt
  iintro HSt
  iapply step_load_x $$ HSt
  iintro HSt
  iapply (step_load_acc 19 (hoff := off26_own c)) $$ HSt
  iintro HSt
  iapply step_load_out $$ HSt
  iintro HSt
  iapply (step_store_out 19 (hoff := off26_own c)) $$ HSt
  iintro HSt
  iapply (step_send_wait 0) $$ HSt
  iintro HSt
  iapply (step_send_wait 1) $$ HSt
  iintro HSt
  rw [wp_ret]
  imodintro
  iapply Hk
  iexact HSt

theorem part24 {Kt : PUnit → sProp 𝕄} :
    iprop(St m ρ K c f0 σ24 ∗ (∀ r, St m ρ K c f0 σ25 -∗ Kt r))
      ⊢ wp frame (wpE (defs₀ (F := F)) 𝒱₀ (c : Thread nD τ) none) Set.univ
        (atBufs k0_part24_skel c) Kt := by
  simp only [atBufs, k0_part24_skel, Prog.lift, Prog.bind_op, Prog.bind_ret, Prog.pure_eq_ret]
  iintro ⟨HSt, Hk⟩
  iapply (step_send_wait 2) $$ HSt
  iintro HSt
  iapply (step_send_wait 3) $$ HSt
  iintro HSt
  iapply (step_send_wait 4) $$ HSt
  iintro HSt
  iapply (step_send_wait 5) $$ HSt
  iintro HSt
  iapply (step_send_wait 6) $$ HSt
  iintro HSt
  iapply (step_send_wait 13) $$ HSt
  iintro HSt
  rw [wp_ret]
  imodintro
  iapply Hk
  iexact HSt

theorem part25 {Kt : PUnit → sProp 𝕄} :
    iprop(St m ρ K c f0 σ25 ∗ (∀ r, St m ρ K c f0 σ26 -∗ Kt r))
      ⊢ wp frame (wpE (defs₀ (F := F)) 𝒱₀ (c : Thread nD τ) none) Set.univ
        (atBufs k0_part25_skel c) Kt := by
  simp only [atBufs, k0_part25_skel, Prog.lift, Prog.bind_op, Prog.bind_ret, Prog.pure_eq_ret]
  iintro ⟨HSt, Hk⟩
  iapply (step_send_wait 7) $$ HSt
  iintro HSt
  iapply (step_send_wait 14) $$ HSt
  iintro HSt
  iapply (step_send_wait 8) $$ HSt
  iintro HSt
  iapply (step_send_wait 15) $$ HSt
  iintro HSt
  iapply (step_send_wait 9) $$ HSt
  iintro HSt
  iapply (step_send_wait 16) $$ HSt
  iintro HSt
  rw [wp_ret]
  imodintro
  iapply Hk
  iexact HSt

end Cert.KernelIdeal.BodyPf

end
-- ==== Proof.BodyWrap.lean ====
import proofs.«900723_g7700000000000724_dist_ar_v7x_xyz2x4x4_x_m2048_n512_bf16_1_alg».proof.Proof.State

noncomputable section

namespace Cert.KernelIdeal.BodyPf

open Cert.KernelIdeal.Gen Cert.KernelIdeal.State

open Idealize.ShloMosaic
open Idealize.ShloMosaic.TcCoe
open Idealize.SL.BI.BIBase Idealize.SL.Sem
open Idealize.ShloMosaic.Pipeline (BodyObligation)

variable {F : FTy → Type} [FloatOps F]

variable (m : (ℓ : Loc nD τ sig) → Buf (Elt F) ℓ) (ρ : Dev nD → PrngReg)

-- At the single point the obligation's precondition is the body's start state once the cells' names are opened.
theorem body_obligation
    (hmain : ∀ (K : Dev nD × Fin 41 → ℕ) (c : Dev nD), bodyPre m ρ K c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7 cc0_scratch8) (fun _ => bodyPost m ρ c)) :
    ∀ c, BodyObligation (dats (F := F) m ρ 0 c) (defs₀ (F := F)) 𝒱₀ () Set.univ := fun c t => by
  rw [fin_N t, bigSep_W0, bigSep_W0]
  simp only [owns, Memref.view_whole, View.read_whole, View.set_whole]
  show iprop(Φ₀ m ρ c ∗ _) ⊢ _
  unfold Φ₀ start
  iintro ⟨⟨⟨⟨%K, Hg⟩, Hcr, Hd⟩, Hs, Ha⟩, Ho, Hx, Hout⟩
  iapply (hmain K c)
  unfold bodyPre
  iframe

end Cert.KernelIdeal.BodyPf

end
-- ==== Proof.Body.lean ====
import proofs.«900723_g7700000000000724_dist_ar_v7x_xyz2x4x4_x_m2048_n512_bf16_1_alg».proof.Proof.State
import proofs.«900723_g7700000000000724_dist_ar_v7x_xyz2x4x4_x_m2048_n512_bf16_1_alg».proof.Proof.MeshFacts
import proofs.«900723_g7700000000000724_dist_ar_v7x_xyz2x4x4_x_m2048_n512_bf16_1_alg».proof.Proof.StepsWait
import proofs.«900723_g7700000000000724_dist_ar_v7x_xyz2x4x4_x_m2048_n512_bf16_1_alg».proof.Proof.Entry
import proofs.«900723_g7700000000000724_dist_ar_v7x_xyz2x4x4_x_m2048_n512_bf16_1_alg».proof.Proof.Exit
import proofs.«900723_g7700000000000724_dist_ar_v7x_xyz2x4x4_x_m2048_n512_bf16_1_alg».proof.Proof.BodyA
import proofs.«900723_g7700000000000724_dist_ar_v7x_xyz2x4x4_x_m2048_n512_bf16_1_alg».proof.Proof.BodyB
import proofs.«900723_g7700000000000724_dist_ar_v7x_xyz2x4x4_x_m2048_n512_bf16_1_alg».proof.Proof.BodyWrap

noncomputable section

namespace Cert.KernelIdeal.BodyPf

open Cert.KernelIdeal.Gen Cert.KernelIdeal.Sched Cert.KernelIdeal.State

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 41 → ℕ) (c : Dev nD)

theorem part1 (Kt : (Σ' (d0 : Dev nD) (v2 : BitVec 32) (v5 : BitVec 32) (v8 : BitVec 32) (v12 : BitVec 32) (v15 : BitVec 32) (v18 : BitVec 32) (v22 : BitVec 32) (v23 : BitVec 32) (v26 : BitVec 32) (v29 : BitVec 32) (v30 : Sems sig S_) (v32 : BitVec 32), BitVec 32) → sProp 𝕄)
    (P : sProp 𝕄) :
    iprop(P ∗ (∀ r, ⌜r.1 = c ∧ r.2.2.2.2.2.2.2.2.2.2.2.1 = (SemArray.scalar (sig.barrier 0 rfl) : Sems sig S_)⌝ -∗ P -∗ Kt r))
      ⊢ wp frame (wpE (defs₀ (F := F)) 𝒱₀ (c : Thread nD τ) none) Set.univ
        (k0_part1_skel (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) Kt := by
  unfold k0_part1_skel
  simp only [Prog.lift, Prog.bind_op, Prog.bind_ret, Prog.pure_eq_ret, wp_deviceId]
  iintro ⟨HP, Hk⟩
  rw [wp_ret]
  imodintro
  iapply Hk $$ [] HP
  ipureintro
  exact ⟨rfl, rfl⟩

theorem body26 (Kt : Dev nD → sProp 𝕄) :
    iprop(bodyPre m ρ K c ∗ (∀ f0, St m ρ K c f0 σ27 -∗ semVal (dCell c) 0 -∗ Kt c))
      ⊢ wp frame (wpE (defs₀ (F := F)) 𝒱₀ (c : Thread nD τ) none) Set.univ (k0_part26_skel (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) Kt := by
  unfold k0_part26_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  simp only [wp_bind]
  iintro ⟨Hpre, Hk⟩
  iapply (part1 c _ (bodyPre m ρ K c)) $$ [Hpre Hk]
  iframe Hpre
  iintro %r1 %hr1 Hpre
  obtain ⟨d0, v2, v5, v8, v12, v15, v18, v22, v23, v26, v29, v30, v32, v33⟩ := r1
  obtain ⟨hd, hv⟩ := hr1
  simp only at hd hv
  subst hd; subst hv
  dsimp only
  iapply (Proved.part2 m ρ K d0 _ _ _ _ _ _ _ _ _ _) $$ [Hpre Hk]
  iframe Hpre
  iintro %r2 HA
  unfold afterEntry
  icases HA with ⟨%f0, HSt, Hd⟩
  rename' d0 => c
  iapply part3 $$ [HSt Hk Hd]
  isplitl [HSt]; · iexact HSt
  iintro %r3 HSt
  iapply part4 $$ [HSt Hk Hd]
  iframe HSt
  iintro %r4 HSt
  iapply part5 $$ [HSt Hk Hd]
  iframe HSt
  iintro %r5 HSt
  iapply part6 $$ [HSt Hk Hd]
  iframe HSt
  iintro %r6 HSt
  iapply part7 $$ [HSt Hk Hd]
  iframe HSt
  iintro %r7 %h7_0 HSt
  iapply (part8 h7_0) $$ [HSt Hk Hd]
  iframe HSt
  iintro %r8 HSt
  iapply part9 $$ [HSt Hk Hd]
  iframe HSt
  iintro %r9 HSt
  iapply part10 $$ [HSt Hk Hd]
  iframe HSt
  iintro %r10 HSt
  iapply part11 $$ [HSt Hk Hd]
  iframe HSt
  iintro %r11 %h11_0 HSt
  iapply (part12 h11_0) $$ [HSt Hk Hd]
  iframe HSt
  iintro %r12 HSt
  iapply part13 $$ [HSt Hk Hd]
  iframe HSt
  iintro %r13 HSt
  iapply part14 $$ [HSt Hk Hd]
  iframe HSt
  iintro %r14 %h14_0 HSt
  iapply (part15 h14_0) $$ [HSt Hk Hd]
  iframe HSt
  iintro %r15 %h15_0 HSt
  iapply (part16 h15_0) $$ [HSt Hk Hd]
  iframe HSt
  iintro %r16 HSt
  iapply part17 $$ [HSt Hk Hd]
  iframe HSt
  iintro %r17 %h17_0 %h17_1 HSt
  iapply (part18 h17_0 h17_1) $$ [HSt Hk Hd]
  iframe HSt
  iintro %r18 %h18_0 HSt
  iapply (part19 h18_0) $$ [HSt Hk Hd]
  iframe HSt
  iintro %r19 HSt
  iapply part20 $$ [HSt Hk Hd]
  iframe HSt
  iintro %r20 HSt
  iapply part21 $$ [HSt Hk Hd]
  iframe HSt
  iintro %r21 %h21_0 HSt
  iapply (part22 h21_0) $$ [HSt Hk Hd]
  iframe HSt
  iintro %r22 HSt
  iapply part23 $$ [HSt Hk Hd]
  iframe HSt
  iintro %r23 HSt
  iapply part24 $$ [HSt Hk Hd]
  iframe HSt
  iintro %r24 HSt
  iapply part25 $$ [HSt Hk Hd]
  iframe HSt
  iintro %r25 HSt
  simp only [Prog.lift, Prog.bind_op, Prog.bind_ret, Prog.pure_eq_ret]
  iapply (Proved.step_send_wait 10) $$ HSt
  iintro HSt
  rw [wp_ret]; imodintro
  iapply (Proved.step_send_wait 17) $$ HSt
  iintro HSt
  rw [wp_ret]; imodintro
  iapply (Proved.step_send_wait 11) $$ HSt
  iintro HSt
  rw [wp_ret]; imodintro
  iapply (Proved.step_send_wait 12) $$ HSt
  iintro HSt
  rw [wp_ret]; imodintro
  rw [wp_ret]; imodintro
  iapply Hk $$ %f0 [HSt] [Hd]
  · iexact HSt
  · iexact Hd

theorem body_main : bodyPre m ρ K c ⊢ wp frame (wpE (defs₀ (F := F)) 𝒱₀ (c : Thread nD τ) none) Set.univ
      (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) (fun _ => bodyPost m ρ c) := by
  rw [cc0_body_eq_skeleton]
  unfold cc0_body_skel
  simp only [k0_part26_eq_skeleton]
  simp only [wp_bind]
  iintro Hpre
  iapply (body26 m ρ K c _) $$ [Hpre]
  iframe Hpre
  iintro %f0 HSt Hd
  simp only [Prog.lift, Prog.bind_op, Prog.bind_ret, Prog.pure_eq_ret]
  iapply (Proved.step_send_wait 18) $$ HSt
  iintro HSt
  rw [wp_ret]; imodintro
  iapply (Proved.step_send_wait 19) $$ HSt
  iintro HSt
  rw [wp_ret]; imodintro
  rw [wp_ret]
  imod (Proved.exit_of_full m ρ K c f0) $$ [HSt Hd] with Hpost
  · isplitl [HSt]
    · rw [← σ28_full]; iexact HSt
    · iexact Hd
  imodintro
  iexact Hpost

end Cert.KernelIdeal.BodyPf

end
-- ==== Proof.Launch.lean ====
import proofs.«900723_g7700000000000724_dist_ar_v7x_xyz2x4x4_x_m2048_n512_bf16_1_alg».proof.Proof.State

noncomputable section

namespace Cert.KernelIdeal.LaunchPf

open Cert.KernelIdeal.Gen Cert.KernelIdeal.Mesh Cert.KernelIdeal.Sched Cert.KernelIdeal.State

open Idealize.ShloMosaic
open Idealize.ShloMosaic.TcCoe
open Idealize.SL Idealize.SL.RA Idealize.SL.BI
open Idealize.SL.BI.BIBase Idealize.SL.BI.Laws
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 41 → SemLoc sig :=
  fun i => .dma ⟨i.val + 2, by have := i.isLt; have h43 : sig.nDmaSem = 43 := rfl; omega⟩

theorem osem_injective : Function.Injective osem := fun a b h =>
  Fin.ext (Nat.add_right_cancel (congrArg Fin.val (SemLoc.dma.inj h)))

theorem ownSemFacts : Pipeline.OwnSemFacts cfg0.spec osem :=
  ⟨by decide, osem_injective, by decide⟩

theorem share_eq (c : Dev nD) (w : Fin cfg0.W) : (dats m ρ 0 c).share w = fullShare := by unfold Dat.share; split <;> rfl

def xCells : Finset (GSem nD τ sig) := Finset.univ.map ⟨kcell, kcell_injective⟩

abbrev TokIx : Type := Fin 3 ⊕ (Fin 20 ⊕ Fin 20)
def pay : TokIx → Dev nD → Dev nD
  | .inl l => nb l
  | .inr (.inl _) => id
  | .inr (.inr j) => nb (link j)
def tokS : TokIx → SemLoc sig × Fin 3
  | .inl l => (.reg barS, l)
  | .inr (.inl j) => (.dma (ssem j), 0)
  | .inr (.inr j) => (.dma (rsem j), 0)
theorem tokS_inj : Function.Injective tokS := by decide
theorem pay_pay (a : TokIx) : Function.Involutive (pay a) := fun c => by
  rcases a with l | j | j <;> first | rfl | exact nb_nb _ c
def tokOf (x : Dev nD × TokIx) : GSem nD τ sig × ℕ × Fin 3 := (((pay x.2 x.1 : Thread nD τ), (tokS x.2).1), 0, (tokS x.2).2)

-- A token is named by its cell's semaphore and duty, which fix its kind, and by its payer, whose map to the cell's owner is an involution.
theorem tokOf_injective : Function.Injective tokOf := by
  rintro ⟨c, a⟩ ⟨c', a'⟩ h
  obtain rfl : a = a' := tokS_inj (Prod.ext (congrArg (·.1.2) h) (congrArg (·.2.2) h))
  exact Prod.ext ((pay_pay a).injective (congrArg (·.1.1.1) h)) rfl

def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

theorem unscopedSems0_eq (c : Dev nD) : (unscopedSems0 c : sProp 𝕄) = semVal (barCell c) 0 := by
  unfold unscopedSems0; rw [bigSep_eq_bigSepL_of_eq [SemLoc.reg barS] (by decide) (by decide)]; rfl

def eC : Unit ⊕ (Fin 20 ⊕ Fin 20) ≃ Fin 41 :=
  Equiv.ofBijective (fun | .inl _ => 0 | .inr (.inl j) => sIx j | .inr (.inr j) => rIx j) (by decide)

-- A device's forty-one cells: the barrier cell and, slot by slot, a departure cell and an arrival cell.
theorem cells_split (c : Dev nD) (Φ : GSem nD τ sig → sProp 𝕄) :
    (bigSep Finset.univ fun k : Fin 41 => Φ (kcell (c, k)))
      = iprop(Φ (barCell c) ∗ bigSep Finset.univ fun j : Fin 20 => iprop(Φ (sendCell c j) ∗ Φ (recvCell c j))) := by
  have hs (j : Fin 20) : kcell (c, eC (.inr (.inl j))) = sendCell c j := kcell_send c j
  have hr (j : Fin 20) : kcell (c, eC (.inr (.inr j))) = recvCell c j := kcell_recv c j
  have hb : kcell (c, eC (.inl ())) = barCell c := rfl
  rw [bigSep_univ_equiv eC (fun k : Fin 41 => Φ (kcell (c, k))), bigSep_univ_sum, bigSep_univ_sum, bigSep_univ_of_subsingleton (), bigSep_sep']
  simp only [hs, hr, hb]; rfl

def eO : (Fin 20 ⊕ Fin 20) ⊕ Unit ≃ Fin 41 :=
  Equiv.ofBijective (fun | .inl (.inl j) => ⟨(ssem j).val - 2, by revert j; decide⟩ | .inl (.inr j) => ⟨(rsem j).val - 2, by revert j; decide⟩ | .inr _ => 40) (by decide)
theorem osem_send (j : Fin 20) : osem (eO (.inl (.inl j))) = .dma (ssem j) := by revert j; decide
theorem osem_recv (j : Fin 20) : osem (eO (.inl (.inr j))) = .dma (rsem j) := by revert j; decide
theorem osem_idle : osem (eO (.inr ())) = .dma ⟨42, by decide⟩ := by decide

-- The forty-one own semaphores: slot by slot the departure and the arrival semaphore, and one that stays idle.
theorem ownSems0_eq (c : Dev nD) : (Pipeline.ownSems0 osem c : sProp 𝕄)
    = iprop((bigSep Finset.univ fun j : Fin 20 => iprop(semVal (sendCell c j) 0 ∗ semVal (recvCell c j) 0)) ∗ semVal (dCell c) 0) := by
  unfold Pipeline.ownSems0
  rw [bigSep_univ_equiv eO (fun k : Fin 41 => (semVal ((c : Thread nD τ), osem k) 0 : sProp 𝕄)), bigSep_univ_sum, bigSep_univ_sum,
    bigSep_univ_of_subsingleton (), bigSep_sep']
  simp only [osem_send, osem_recv, osem_idle]; rfl

def G (c : Dev nD) : sProp 𝕄 :=
  iprop((bigSep Finset.univ fun k : Fin 41 => roundState ER (Rd m ρ) (kcell (c, k)) 0)
    ∗ (bigSep Finset.univ fun k : Fin 41 => reached ER (kcell (c, k)) 0) ∗ positions c ∗ payToks c)

def Mid (c : Dev nD) : sProp 𝕄 :=
  iprop((bigSep Finset.univ fun k : Fin 41 => iprop(∃ κ : ℕ, cellInv ER (Rd m ρ) κ (kcell (c, k))))
    ∗ (bigSep Finset.univ fun k : Fin 41 => reached ER (kcell (c, k)) 0) ∗ positions c ∗ payToks c ∗ semVal (dCell c) 0)

def G' (c : Dev nD) : sProp 𝕄 :=
  iprop(∃ K : Dev nD × Fin 41 → ℕ, ((bigSep Finset.univ fun ck : Dev nD × Fin 41 => cellInv ER (Rd m ρ) (K ck) (kcell ck))
      ∗ (bigSep Finset.univ fun ck : Dev nD × Fin 41 => reached ER (kcell ck) 0))
    ∗ positions c ∗ payToks c ∗ semVal (dCell c) 0)

-- The launch element is every cell's round state at round 0, its position for its owner, and the duty tokens sorted by payer.
theorem fund_cells : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 41 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => payToks c := by
    unfold xToks; rw [bigSep_map, bigSep_univ_prod]
    exact bigSep_congr fun c _ => by unfold payToks; rw [bigSep_univ_sum, bigSep_univ_sum, bigSep_sep']; rfl
  refine (Rounds.fund ER (Rd m ρ) xCells xToks).trans (BI.bupd_mono ?_)
  rw [hX, hX, hX, hT]
  unfold G positions
  simp only [bigSep_sep', cells_split _ fun g => atPos ER g 0 ∅ 0]
  exact Entails.refl _

-- A semaphore at zero and its cell's round state at zero make the cell's invariant.
theorem cells_alloc (c : Dev nD) :
    iprop((semVal (barCell c) 0 ∗ bigSep Finset.univ fun j : Fin 20 => iprop(semVal (sendCell c j) 0 ∗ semVal (recvCell c j) 0))
        ∗ bigSep Finset.univ fun k : Fin 41 => roundState ER (Rd m ρ) (kcell (c, k)) 0)
      ⊢ (|={Set.univ}=> bigSep Finset.univ fun k : Fin 41 => iprop(∃ κ : ℕ, cellInv ER (Rd m ρ) κ (kcell (c, k))) : sProp 𝕄) := by
  rw [← cells_split c (fun g => semVal g 0), ← bigSep_sep']
  exact (bigSep_mono fun k _ => (Rounds.body_intro ER (Rd m ρ) (kcell (c, k))).trans inv_alloc).trans (bigSep_fupd _ _)

theorem core_alloc (c : Dev nD) : iprop(Pipeline.ownSems0 osem c ∗ unscopedSems0 c ∗ G m ρ c) ⊢ |={Set.univ}=> Mid m ρ c := by
  rw [ownSems0_eq, unscopedSems0_eq]
  unfold G Mid
  iintro ⟨⟨Hsr, Hd⟩, Hb, Hst, H⟩
  imod (cells_alloc m ρ c) $$ [Hb Hsr Hst] with Hinv
  · iframe
  imodintro
  iframe

-- The invariants are persistent, so one choice of names for all cells serves every device.
theorem regroup : (bigSep Finset.univ (Mid m ρ) : sProp 𝕄) ⊢ bigSep Finset.univ (G' m ρ) := by
  unfold Mid
  rw [bigSep_sep', bigSep_sep', ← bigSep_univ_prod (fun ck : Dev nD × Fin 41 => iprop(∃ κ : ℕ, cellInv ER (Rd m ρ) κ (kcell ck))),
    ← bigSep_univ_prod (fun ck : Dev nD × Fin 41 => (reached ER (kcell ck) 0 : sProp 𝕄))]
  iintro ⟨HI, #HR, H⟩
  ihave HK := (BI.bigSep_exists_pi Finset.univ (fun (ck : Dev nD × Fin 41) (κ : ℕ) => (cellInv ER (Rd m ρ) κ (kcell ck) : sProp 𝕄))) $$ HI
  icases HK with ⟨%K, #HI⟩
  iapply (bigSep_with_persistent (R := iprop((bigSep Finset.univ fun ck : Dev nD × Fin 41 => cellInv ER (Rd m ρ) (K ck) (kcell ck))
      ∗ (bigSep Finset.univ fun ck : Dev nD × Fin 41 => reached ER (kcell ck) 0)))
    (Φ := fun c => iprop(positions c ∗ payToks c ∗ semVal (dCell c) 0)) fun c _ => by unfold G'; iintro ⟨HR, H⟩; iexists K; iframe)
  iframe HI HR H

-- Three units of credit on one cell add up to three.
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

theorem launchCred_O₀ (c : Dev nD) :
    (Pipeline.launchCred O₀ c : sProp 𝕄)
      = iprop((((bigSep Finset.univ fun j : Fin 20 => Pipeline.launchCred (fun d : Dev nD => tallyAt (recvCell (nb (link j) d) j) () (NJ j)) c)
          ∗ Pipeline.launchCred (fun d : Dev nD => tallyAt (barCell (zbud d)) () 1) c)
          ∗ Pipeline.launchCred (fun d : Dev nD => tallyAt (barCell (ybud d)) () 1) c)
          ∗ Pipeline.launchCred (fun d : Dev nD => tallyAt (barCell (partner d)) () 1) c) := by
  rw [← Pipeline.launchCred_sum Finset.univ (fun (j : Fin 20) (d : Dev nD) => tallyAt (recvCell (nb (link j) d) j) () (NJ j)) c,
    ← Pipeline.launchCred_add, ← Pipeline.launchCred_add, ← Pipeline.launchCred_add]
  rfl

-- Each neighbour owes one unit to the barrier cell and its copy to each arrival cell; the neighbour maps are involutions.
theorem creds_intro (c : Dev nD) : (Pipeline.launchCred O₀ c : sProp 𝕄) ⊢ creds c := by
  rw [launchCred_O₀]
  unfold creds
  iintro ⟨⟨⟨HA, Hz⟩, Hy⟩, Hp⟩
  ihave Hz' := (Pipeline.launchCred_tallyAt (.reg barS) zbud zbud zbud_zbud zbud_zbud () 1 c) $$ Hz
  ihave Hy' := (Pipeline.launchCred_tallyAt (.reg barS) ybud ybud ybud_ybud ybud_ybud () 1 c) $$ Hy
  ihave Hp' := (Pipeline.launchCred_tallyAt (.reg barS) partner partner partner_partner partner_partner () 1 c) $$ Hp
  have hA : (_ : sProp 𝕄) ⊢ _ := bigSep_mono (s := Finset.univ) fun j _ => Pipeline.launchCred_tallyAt (.dma (rsem j)) (nb (link j)) (nb (link j)) (nb_nb (link j)) (nb_nb (link j)) () (NJ j) c
  ihave HA' := hA $$ HA
  isplitr [HA']
  · iapply (cred_three (F := F) (barCell c))
    iframe
  · iexact HA'

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _

theorem tallyAt_pos {d : Dev nD} {sm : SemLoc sig} {g : GSem nD τ sig} {k : ℕ} {u : Unit}
    (h : 0 < (tallyAt ((d : Thread nD τ), sm) () k : CellTallies nD τ sig Unit) g u) (hl : 0 < lv ((d : Thread nD τ), sm) ()) : u ∈ L g ∧ 0 < lv g u := by
  by_cases hne : g = ((d : Thread nD τ), sm)
  · rw [hne]; exact ⟨mem_L d sm u, hl⟩
  · rw [tallyAt_ne_cell hne, Finsupp.zero_apply] at h; exact absurd h (Nat.lt_irrefl 0)

theorem lvS_rsem_pos (j : Fin 20) : 0 < lvS (rsem j) := by revert j; decide

-- Every cell a device owes at launch has a positive level.
theorem O₀_pos {c : Dev nD} {g : GSem nD τ sig} {u : Unit} (h : 0 < O₀ c g u) : u ∈ L g ∧ 0 < lv g u := by
  have hb {d : Dev nD} (h : 0 < (tallyAt (barCell d) () 1 : CellTallies nD τ sig Unit) g u) :=
    tallyAt_pos h (show 0 < (if (barS : Sem sig) = barS then 1 else 0) from by rw [if_pos rfl]; exact Nat.one_pos)
  unfold O₀ at h
  rcases Pipeline.add_pos_cases h with h | h
  · rcases Pipeline.add_pos_cases h with h | h
    · rcases Pipeline.add_pos_cases h with h | h
      · obtain ⟨j, -, hj⟩ := Pipeline.sum_pos_exists h
        exact tallyAt_pos hj (lvS_rsem_pos j)
      · exact hb h
    · exact hb h
  · exact hb h

-- Level 0 lies below every cell owed at launch, and after the one point nothing is owed.
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact Pipeline.mayWait_of_levAts (mem_L c _ _) fun g u hg =>
        (O₀_pos hg).imp_right (lt_of_eq_of_lt (show lvS _ = 0 from by fin_cases w <;> fin_cases s <;> decide))
    · show _ ⊢ MayWait _ _ _ 0
      rw [MayWait_zero]; iintro -; iempintro

theorem run_main (hbody : ∀ c, BodyObligation (dats (F := F) m ρ 0 c) (defs₀ (F := F)) 𝒱₀ () Set.univ) :
    θ_run defs (onTc (τ := τ) (main (F := F))) (Sched.s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      iframe)
    (hglob := ((bigSep_mono fun c _ => core_alloc m ρ c).trans (bigSep_fupd _ _)).trans (BI.fupd_mono (regroup m ρ)))
    (hA := fun _ _ => rfl) (hpf := fun _ k => k.elim0)
    (X := start m ρ) (Y := fun _ => iprop(emp)) (Z := fun _ => iprop(emp))
    (hX := fun c => by
      iintro ⟨-, Hlev, Hcr, -, HG⟩
      ihave Hc := (creds_intro (F := F) c) $$ Hcr
      imodintro
      unfold start G' ghost records
      icases HG with ⟨%K, ⟨HI, HR⟩, Hp, Ht, Hd⟩
      iframe Hc Hd
      iexists K
      iframe)
    (hin := fun c => by
      rw [show (dats m ρ 0 c).Φ 0 = Φ₀ m ρ c from rfl, scopedRest0_eq]
      unfold Φ₀
      iintro ⟨Hs, -, Hs0, Ha0⟩
      iframe)
    (hout := fun c => by
      rw [show (dats m ρ 0 c).Φ (Fin.last cfg0.N) = Φ₁ c from rfl, scopedRest0_eq, ownSems0_eq]
      unfold Φ₁
      iintro ⟨Hs0, Ha0, Hsems, Hd⟩
      iframe)
    (QY := fun _ _ => True)
    (hY := fun c s' => by
      iintro ⟨-, -, HSI⟩
      imodintro
      iframe)
    (hQ := fun _ h c w => (h c).1 w)

end Cert.KernelIdeal.LaunchPf

end
-- ==== Proof.Final.lean ====
import proofs.«900723_g7700000000000724_dist_ar_v7x_xyz2x4x4_x_m2048_n512_bf16_1_alg».proof.Proof.State
import Idealize.ShloMosaic.Lib.Pipeline.Value

noncomputable section

namespace Cert.KernelIdeal.Proved

open Cert.KernelIdeal.Gen Cert.KernelIdeal.Sched Cert.KernelIdeal.State

open Idealize.ShloMosaic
open Idealize.ShloMosaic.TcCoe

variable {F : FTy → Type} [FloatOps F]

variable (m : (ℓ : Loc nD τ sig) → Buf (Elt F) ℓ) (ρ : Dev nD → PrngReg)

-- The block at index zero with the array's own sizes is the whole array.
theorem xstg_eq (c : Dev nD) : xstg m ρ c = m ((c : Thread nD τ).loc main_arg0) :=
  Memref.read_access_unit_zero (Elt F) main_arg0 (funext fun a => Nat.zero_mul _) _ _

-- The result array is written back once, whole, after the single point.
theorem arr_out (c : Dev nD) : (State.dats m ρ 0 c).arrAt (1 : Fin 2) cfg0.N = outF m ρ c := by
  refine (congrArg _ cfg0_N).trans (((State.dats m ρ 0 c).arrAt_succ (1 : Fin 2) t₀).trans ?_)
  rw [if_pos (flush0_1 t₀)]
  exact Memref.write_access_unit_zero_univ (Elt F) main_v1 (funext fun a => Nat.zero_mul _) _ _ _

theorem run_post
    (h : θ_run defs (onTc (τ := τ) (main (F := F))) (Sched.s₀ m ρ) (fun r => ∀ c : Dev nD, ∀ w : Fin cfg0.W,
      r.2.mem ((cfg0.win w).arr.view.loc (c : Thread nD τ)) = (State.dats m ρ 0 c).arrAt w cfg0.N)) :
    θ_run defs (onTc (τ := τ) (main (F := F))) ⟨m, fun _ => 0, ρ⟩ (fun r => ∀ c : Dev nD,
      r.2.mem ((c.tc : Thread nD τ).loc main_v1) = outF m ρ c
      ∧ r.2.mem ((c.tc : Thread nD τ).loc main_arg0) = m ((c.tc : Thread nD τ).loc main_arg0)) :=
  (θ_run defs _ _).mono (fun r hr c => ⟨(hr c 1).trans (arr_out m ρ c),
    (hr c 0).trans ((State.dats m ρ 0 c).arrAt_in (0 : Fin 2) rfl cfg0.N)⟩) h

end Cert.KernelIdeal.Proved

end
-- ==== Proof.Run.lean ====
import proofs.«900723_g7700000000000724_dist_ar_v7x_xyz2x4x4_x_m2048_n512_bf16_1_alg».proof.Proof.Body
import proofs.«900723_g7700000000000724_dist_ar_v7x_xyz2x4x4_x_m2048_n512_bf16_1_alg».proof.Proof.Launch
import proofs.«900723_g7700000000000724_dist_ar_v7x_xyz2x4x4_x_m2048_n512_bf16_1_alg».proof.Proof.Final

noncomputable section

namespace Cert.KernelIdeal.RunPf

open Cert.KernelIdeal.Sched

open Idealize.ShloMosaic

variable {F : FTy → Type} [FloatOps F]

variable (m : (ℓ : Loc nD τ sig) → Buf (Elt F) ℓ) (ρ : Dev nD → PrngReg)

theorem run : θ_run defs (onTc (τ := τ) (main (F := F))) ⟨m, fun _ => 0, ρ⟩ (fun r => ∀ c : Dev nD,
    r.2.mem ((c.tc : Thread nD τ).loc main_v1) = outF m ρ c
    ∧ r.2.mem ((c.tc : Thread nD τ).loc main_arg0) = m ((c.tc : Thread nD τ).loc main_arg0)) :=
  Proved.run_post m ρ (LaunchPf.run_main m ρ (BodyPf.body_obligation m ρ (BodyPf.body_main m ρ)))

end Cert.KernelIdeal.RunPf

end
-- ==== Proof.Bits.Mesh.lean ====
import proofs.«900723_g7700000000000724_dist_ar_v7x_xyz2x4x4_x_m2048_n512_bf16_1_alg».proof.Proof.Gen.Kernel

namespace Cert.Kernel.Mesh

open Idealize.ShloMosaic

def partner (c : Dev nD) : Dev nD := ⟨(c.val + 16) % 32, Nat.mod_lt _ (by decide)⟩
def ybud (c : Dev nD) : Dev nD := ⟨if (c.val / 4) % 2 = 0 then c.val + 4 else c.val - 4, by
  have := c.isLt; have h : nD = 32 := rfl; split <;> omega⟩
def zbud (c : Dev nD) : Dev nD := ⟨if c.val % 2 = 0 then c.val + 1 else c.val - 1, by
  have := c.isLt; have h : nD = 32 := rfl; split <;> omega⟩

theorem partner_partner (c : Dev nD) : partner (partner c) = c := by revert c; decide
theorem ybud_ybud (c : Dev nD) : ybud (ybud c) = c := by revert c; decide
theorem zbud_zbud (c : Dev nD) : zbud (zbud c) = c := by revert c; decide

def nb (l : Fin 3) (c : Dev nD) : Dev nD := match l with | 0 => partner c | 1 => ybud c | 2 => zbud c
theorem nb_nb (l : Fin 3) (c : Dev nD) : nb l (nb l c) = c := by revert l c; decide

def py (c : Dev nD) : Nat := (c.val / 4) % 2
def pz (c : Dev nD) : Nat := c.val % 2
def cq (c : Dev nD) : Nat := 2 * py c + pz c
def cy (c : Dev nD) : Nat := 2 * (1 - py c) + pz c
def cz (c : Dev nD) : Nat := 2 * py c + (1 - pz c)
def cd (c : Dev nD) : Nat := 2 * (1 - py c) + (1 - pz c)

def link (j : Fin 20) : Fin 3 := if j.val < 6 then 0 else if j.val < 13 then 1 else 2
def rrows (j : Fin 20) : Nat :=
  match j.val with
  | 0 => 64 | 1 => 64 | 2 => 128 | 3 => 128 | 4 => 128 | 5 => 160
  | 6 => 64 | 7 => 64 | 8 => 128 | 9 => 128 | 10 => 128 | 11 => 96 | 12 => 80
  | 13 => 64 | 14 => 64 | 15 => 128 | 16 => 128 | 17 => 128 | 18 => 48 | _ => 128
def qoff (k : Nat) : Nat := match k with | 0 => 0 | 1 => 64 | 2 => 128 | 3 => 256 | _ => 384
def roff (e : Dev nD) (j : Fin 20) : Nat :=
  match j.val with
  | 0 => 512 * cq e + 0 | 1 => 512 * cq e + 64 | 2 => 512 * cq e + 128 | 3 => 512 * cq e + 256 | 4 => 512 * cq e + 384 | 5 => 512 * cd e
  | 6 => 512 * cy e + 0 | 7 => 512 * cy e + 64 | 8 => 512 * cy e + 128 | 9 => 512 * cy e + 256 | 10 => 512 * cy e + 384 | 11 => 512 * cd e + 160 | 12 => 512 * cd e + 256
  | 13 => 512 * cz e + 0 | 14 => 512 * cz e + 64 | 15 => 512 * cz e + 128 | 16 => 512 * cz e + 256 | 17 => 512 * cz e + 384 | 18 => 512 * cd e + 336 | _ => 512 * cd e + 384

theorem roff_inb (e : Dev nD) (j : Fin 20) : roff e j + rrows j ≤ 2048 := by revert e j; decide

-- An interval of p + q + s + t + u rows from b is cut in five consecutive pieces of those lengths.
theorem cover (b r p q s t u : Nat) (h0 : b ≤ r) (h1 : r < b + (p + q + s + t + u)) :
    (b + 0 ≤ r ∧ r < b + 0 + p) ∨ (b + p ≤ r ∧ r < b + p + q) ∨ (b + (p + q) ≤ r ∧ r < b + (p + q) + s) ∨
    (b + (p + q + s) ≤ r ∧ r < b + (p + q + s) + t) ∨ (b + (p + q + s + t) ≤ r ∧ r < b + (p + q + s + t) + u) := by omega
-- The four quarter numbers of a device are 0, 1, 2, 3 in some order, and each quarter is cut in five slots.
theorem rows_cover (e : Dev nD) (r : Nat) (hr : r < 2048) : ∃ j : Fin 20, roff e j ≤ r ∧ r < roff e j + rrows j := by
  have hq : ∀ q, q < 4 → (q = cq e ∨ q = cy e ∨ q = cz e ∨ q = cd e) := by revert e; decide
  rcases hq (r / 512) (by omega) with h | h | h | h
  · rcases cover (512 * cq e) r 64 64 128 128 128 (by omega) (by omega) with c | c | c | c | c
    exacts [⟨0, c⟩, ⟨1, c⟩, ⟨2, c⟩, ⟨3, c⟩, ⟨4, c⟩]
  · rcases cover (512 * cy e) r 64 64 128 128 128 (by omega) (by omega) with c | c | c | c | c
    exacts [⟨6, c⟩, ⟨7, c⟩, ⟨8, c⟩, ⟨9, c⟩, ⟨10, c⟩]
  · rcases cover (512 * cz e) r 64 64 128 128 128 (by omega) (by omega) with c | c | c | c | c
    exacts [⟨13, c⟩, ⟨14, c⟩, ⟨15, c⟩, ⟨16, c⟩, ⟨17, c⟩]
  · rcases cover (512 * cd e) r 160 96 80 48 128 (by omega) (by omega) with c | c | c | c | c
    exacts [⟨5, c⟩, ⟨11, c⟩, ⟨12, c⟩, ⟨18, c⟩, ⟨19, c⟩]
theorem rows_disjoint (e : Dev nD) (j j' : Fin 20) (h : j ≠ j') : roff e j + rrows j ≤ roff e j' ∨ roff e j' + rrows j' ≤ roff e j := by
  revert e j j'; decide

def foff (c : Dev nD) (j : Fin 20) : Nat :=
  match j.val with
  | 6 => 512 * cq c + 0 | 7 => 512 * cq c + 64 | 8 => 512 * cq c + 128 | 9 => 512 * cq c + 256 | 10 => 512 * cq c + 384 | 11 => 512 * cz c + 160 | 12 => 512 * cz c + 256
  | 13 => 512 * cq c + 0 | 14 => 512 * cq c + 64 | 15 => 512 * cq c + 128 | 16 => 512 * cq c + 256 | 17 => 512 * cq c + 384 | 18 => 512 * cy c + 336 | 19 => 512 * cy c + 384
  | _ => 0
def fsrc (j : Fin 20) : Fin 20 :=
  match j.val with
  | 6 => 0 | 7 => 1 | 8 => 2 | 9 => 3 | 10 => 4 | 11 => 15 | 12 => 16
  | 13 => 0 | 14 => 1 | 15 => 2 | 16 => 3 | 17 => 4 | 18 => 9 | 19 => 10
  | _ => 0
theorem foff_eq_roff (c : Dev nD) (j : Fin 20) (hj : 6 ≤ j.val) : foff c j = roff (nb (link j) c) j := by
  revert c j; decide
theorem foff_sub (c : Dev nD) (j : Fin 20) (hj : 6 ≤ j.val) :
    roff c (fsrc j) ≤ foff c j ∧ foff c j + rrows j ≤ roff c (fsrc j) + rrows (fsrc j) := by
  revert c j; decide
def soff (j : Fin 20) : Nat := match j.val with | 0 => 0 | 1 => 64 | 2 => 128 | 3 => 256 | 4 => 384 | _ => 512

def srcDev (c : Dev nD) (r : Nat) : Dev nD :=
  if r / 512 = cq c then partner c
  else if r / 512 = cy c then partner (ybud c)
  else if r / 512 = cz c then partner (zbud c)
  else if r % 512 < 160 then partner c else partner (zbud (ybud c))

theorem partner_x (c : Dev nD) : (partner c).val / 16 = 1 - c.val / 16 := by revert c; decide
theorem ybud_x (c : Dev nD) : (ybud c).val / 16 = c.val / 16 := by revert c; decide
theorem zbud_x (c : Dev nD) : (zbud c).val / 16 = c.val / 16 := by revert c; decide
theorem srcDev_x (c : Dev nD) (r : Nat) : (srcDev c r).val / 16 = 1 - c.val / 16 := by
  unfold srcDev; split_ifs <;> simp only [partner_x, ybud_x, zbud_x]

end Cert.Kernel.Mesh
-- ==== Proof.Bits.Sched.lean ====
import proofs.«900723_g7700000000000724_dist_ar_v7x_xyz2x4x4_x_m2048_n512_bf16_1_alg».proof.Proof.Bits.Mesh
import proofs.«900723_g7700000000000724_dist_ar_v7x_xyz2x4x4_x_m2048_n512_bf16_1_alg».proof.Proof.Gen.Kernel.Skeleton
import proofs.«900723_g7700000000000724_dist_ar_v7x_xyz2x4x4_x_m2048_n512_bf16_1_alg».proof.Proof.Gen.Kernel.Launch
import proofs.«900723_g7700000000000724_dist_ar_v7x_xyz2x4x4_x_m2048_n512_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Sched

open Cert.Kernel.Gen Cert.Kernel.Mesh

open Idealize.ShloMosaic
open Idealize.ShloMosaic.TcCoe
open Idealize.SL Idealize.SL.RA Idealize.SL.BI
open Idealize.SL.BI.BIBase
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S2048x512 .f32 := Memref.whole cc0_stg0_0
abbrev oM : Memref sig .tc .vmem S2048x512 .bf16 := Memref.whole cc0_stg1_0
abbrev sM : Memref sig .tc .vmem S672x512 .bf16 := Memref.whole cc0_scratch0
abbrev aM : Memref sig .tc .vmem S2048x512 .bf16 := Memref.whole cc0_scratch1

abbrev barS : Sem sig := (SemArray.scalar (sig.barrier 0 rfl) : Sems sig S_).sem

def ssem (j : Fin 20) : DmaSem sig :=
  ⟨if j.val < 6 then 2 + j.val else if j.val < 13 then 8 + j.val else 15 + j.val, by have := j.isLt; have h43 : sig.nDmaSem = 43 := rfl; split <;> [skip; split] <;> omega⟩
def rsem (j : Fin 20) : DmaSem sig :=
  ⟨if j.val < 6 then 8 + j.val else if j.val < 13 then 15 + j.val else 22 + j.val, by have := j.isLt; have h43 : sig.nDmaSem = 43 := rfl; split <;> [skip; split] <;> omega⟩

abbrev barCell (c : Dev nD) : GSem nD τ sig := ((c : Thread nD τ), .reg barS)
abbrev sendCell (c : Dev nD) (j : Fin 20) : GSem nD τ sig := ((c : Thread nD τ), .dma (ssem j))
abbrev recvCell (c : Dev nD) (j : Fin 20) : GSem nD τ sig := ((c : Thread nD τ), .dma (rsem j))

def xstg (c : Dev nD) : (cc0_stg0_0 : Ref sig .tc).ty.Contents (Elt F) :=
  (win0_0.blk (0 : Fin 1)).view.read (Elt F) ((s₀ m ρ).mem ((c : Thread nD τ).loc main_arg0))

abbrev tr (x : F .f32) : F .bf16 := FloatOps.truncf .bf16 bitsLt_bf16_f32 x

def accF (c : Dev nD) : (cc0_scratch1 : Ref sig .tc).ty.Contents (Elt F) :=
  fun i => tr (xstg m ρ (srcDev c (i 0).val) i)

def sbufF (c : Dev nD) : (cc0_scratch0 : Ref sig .tc).ty.Contents (Elt F) :=
  fun i => tr (xstg m ρ c (fun a => match a with
    | ⟨0, _⟩ => ⟨(if (i 0).val < 512 then 512 * cq c + (i 0).val else 512 * cd c + ((i 0).val - 512)) % 2048, Nat.mod_lt _ (by decide)⟩
    | ⟨1, _⟩ => i 1))

def outF (c : Dev nD) : (cc0_stg1_0 : Ref sig .tc).ty.Contents (Elt F) :=
  fun i => FloatOps.addf (tr (xstg m ρ c i)) (accF m ρ c i)

def rows2048 (lo n : Nat) : Finset S2048x512.Idx := Finset.univ.filter fun i => lo ≤ (i 0).val ∧ (i 0).val < lo + n
def rows672 (lo n : Nat) : Finset S672x512.Idx := Finset.univ.filter fun i => lo ≤ (i 0).val ∧ (i 0).val < lo + n

def RS (e : Dev nD) (j : Fin 20) : Finset S2048x512.Idx := rows2048 (roff e j) (rrows j)
def FS (c : Dev nD) (j : Fin 20) : Finset S2048x512.Idx := rows2048 (foff c j) (rrows j)
def SS (j : Fin 20) : Finset S672x512.Idx := rows672 (soff j) (rrows j)

theorem RS_disjoint (e : Dev nD) (j j' : Fin 20) (h : j ≠ j') : Disjoint (RS e j) (RS e j') := by
  rw [Finset.disjoint_left]
  intro i hi hi'
  unfold RS rows2048 at hi hi'
  rw [Finset.mem_filter] at hi hi'
  have hd := rows_disjoint e j j' h
  omega
theorem RS_cover (e : Dev nD) : (Finset.univ : Finset (Fin 20)).biUnion (RS e) = Finset.univ := by
  ext i
  simp only [Finset.mem_biUnion, Finset.mem_univ, true_and, iff_true]
  obtain ⟨j, h1, h2⟩ := rows_cover e (i 0).val (i 0).isLt
  refine ⟨j, ?_⟩
  unfold RS rows2048
  rw [Finset.mem_filter]
  exact ⟨Finset.mem_univ _, h1, h2⟩
theorem FS_subset (c : Dev nD) (j : Fin 20) (hj : 6 ≤ j.val) : FS c j ⊆ RS c (fsrc j) := by
  intro i hi
  unfold FS rows2048 at hi
  unfold RS rows2048
  rw [Finset.mem_filter] at hi ⊢
  have hs := foff_sub c j hj
  exact ⟨Finset.mem_univ _, by omega, by omega⟩

/-- A unit-stride rectangle of whole rows of an N × 512 buffer is a set of rows. -/
theorem rect_set_rows (N : ℕ) (off : Fin 2 → Nat) (n : Nat) (inb : ∀ a, off a + (![n, 512] : Fin 2 → Nat) a ≤ (⟨2, ![N, 512]⟩ : Shape).size a) (h1 : off 1 = 0) :
    (Rect.unit (s := ⟨2, ![N, 512]⟩) off ![n, 512] inb).set = Finset.univ.filter fun i => off 0 ≤ (i 0).val ∧ (i 0).val < off 0 + n := by
  ext i
  rw [Rect.mem_set_unit, Finset.mem_filter]
  constructor
  · intro h
    exact ⟨Finset.mem_univ _, (h 0).1, (h 0).2⟩
  · rintro ⟨_, hlo, hhi⟩
    have hi1 : (i 1).val < 512 := (i 1).isLt
    refine Fin.forall_fin_two.mpr ⟨⟨hlo, hhi⟩, ?_, ?_⟩
    · show off 1 ≤ (i 1).val
      omega
    · show (i 1).val < off 1 + 512
      omega
theorem rect_set_2048 (off : Fin 2 → Nat) (n : Nat) (inb : ∀ a, off a + (![n, 512] : Fin 2 → Nat) a ≤ S2048x512.size a) (h1 : off 1 = 0) :
    (Rect.unit (s := S2048x512) off ![n, 512] inb).set = rows2048 (off 0) n := rect_set_rows 2048 off n inb h1
theorem rect_set_672 (off : Fin 2 → Nat) (n : Nat) (inb : ∀ a, off a + (![n, 512] : Fin 2 → Nat) a ≤ S672x512.size a) (h1 : off 1 = 0) :
    (Rect.unit (s := S672x512) off ![n, 512] inb).set = rows672 (off 0) n := rect_set_rows 672 off n inb h1

abbrev qA : PosShare TreeShare := fullShare.left
abbrev qB : PosShare TreeShare := fullShare.right.left
abbrev qC : PosShare TreeShare := fullShare.right.right
def fsh (j : Fin 20) : PosShare TreeShare := if 13 ≤ j.val ∧ j.val ≤ 17 then qB else qA

def NJ (j : Fin 20) : Nat := sig.dmaCredit .tc (Kind.tc.table .vmem) aM.view.buf ⟨2, ![rrows j, 512]⟩ .bf16

abbrev aLoc (c : Dev nD) : Loc nD τ sig := aM.view.loc (c : Thread nD τ)
abbrev sLoc (c : Dev nD) : Loc nD τ sig := sM.view.loc (c : Thread nD τ)
abbrev xLoc (c : Dev nD) : Loc nD τ sig := xM.view.loc (c : Thread nD τ)
abbrev oLoc (c : Dev nD) : Loc nD τ sig := oM.view.loc (c : Thread nD τ)

def recvPay (c : Dev nD) (j : Fin 20) : sProp 𝕄 := aLoc c ↦[RS c j]{fullShare} accF m ρ c
def sendPay (c : Dev nD) (j : Fin 20) : sProp 𝕄 :=
  if j.val < 6 then sLoc c ↦[SS j]{fullShare} sbufF m ρ c else aLoc c ↦[FS c j]{fsh j} accF m ρ c
def barPay (c : Dev nD) (l : Fin 3) : sProp 𝕄 :=
  bigSep (Finset.univ.filter fun j : Fin 20 => link j = l) fun j => iprop(∃ f, aLoc (nb l c) ↦[RS (nb l c) j]{fullShare} f)

def isSendSem (s : DmaSem sig) : Prop := (2 ≤ s.val ∧ s.val < 8) ∨ (14 ≤ s.val ∧ s.val < 21) ∨ (28 ≤ s.val ∧ s.val < 35)
instance (s : DmaSem sig) : Decidable (isSendSem s) := by unfold isSendSem; infer_instance
def slotOf (s : DmaSem sig) : Fin 20 :=
  ⟨(if s.val < 8 then s.val - 2 else if s.val < 14 then s.val - 8 else if s.val < 21 then s.val - 8 else if s.val < 28 then s.val - 15
    else if s.val < 35 then s.val - 15 else s.val - 22) % 20, Nat.mod_lt _ (by decide)⟩
def isActive (s : DmaSem sig) : Prop := 2 ≤ s.val ∧ s.val < 42
instance (s : DmaSem sig) : Decidable (isActive s) := by unfold isActive; infer_instance

theorem rrows_pos (j : Fin 20) : 0 < rrows j := by revert j; decide
theorem NJ_pos' (j : Fin 20) : 0 < NJ j := by
  unfold NJ
  refine sig.dmaCredit_pos _ _ _ _ _ (Shape.numel_pos ?_)
  refine Fin.forall_fin_two.mpr ⟨?_, ?_⟩
  · show 0 < rrows j
    exact rrows_pos j
  · show 0 < 512
    decide

def Rd : Rounds.Schedule (GSem nD τ sig) (Fin 3) 𝕄 where
  duties g r :=
    if r = 0 ∧ g.1.2 = .tc then
      (match g.2 with
        | .reg s => if s = barS then Finset.univ else ∅
        | .dma s => if isActive s then {0} else ∅)
    else ∅
  amount g _ _ := match g.2 with
    | .reg _ => 1
    | .dma s => NJ (slotOf s)
  payload g _ d := match g.2 with
    | .reg _ => barPay g.1.1 d
    | .dma s => if isSendSem s then sendPay m ρ g.1.1 (slotOf s) else recvPay m ρ g.1.1 (slotOf s)
  amount_pos g r d hd := by
    rcases g with ⟨t, sm⟩
    cases sm with
    | reg s => exact Nat.one_pos
    | dma s => exact NJ_pos' (slotOf s)

section Tables
variable (c : Dev nD) (j : Fin 20)

theorem slotOf_ssem : slotOf (ssem j) = j := by revert j; decide
theorem slotOf_rsem : slotOf (rsem j) = j := by revert j; decide
theorem isSend_ssem : isSendSem (ssem j) := by revert j; decide
theorem not_isSend_rsem : ¬ isSendSem (rsem j) := by revert j; decide
theorem isActive_ssem : isActive (ssem j) := by revert j; decide
theorem isActive_rsem : isActive (rsem j) := by revert j; decide

theorem duties_bar : (Rd (F := F) m ρ).duties (barCell c) 0 = Finset.univ := by
  dsimp only [Rd]; rw [if_pos (And.intro rfl rfl)]; exact if_pos rfl
theorem duties_send : (Rd (F := F) m ρ).duties (sendCell c j) 0 = {0} := by
  dsimp only [Rd]; rw [if_pos (And.intro rfl rfl)]; exact if_pos (isActive_ssem j)
theorem duties_recv : (Rd (F := F) m ρ).duties (recvCell c j) 0 = {0} := by
  dsimp only [Rd]; rw [if_pos (And.intro rfl rfl)]; exact if_pos (isActive_rsem j)
theorem duties_later (g : GSem nD τ sig) : ∀ r, 1 ≤ r → (Rd (F := F) m ρ).duties g r = ∅ :=
  fun r hr => by dsimp only [Rd]; exact if_neg fun h => by have h0 := h.1; omega
theorem amount_bar (d : Fin 3) : (Rd (F := F) m ρ).amount (barCell c) 0 d = 1 := rfl
theorem amount_send (d : Fin 3) : (Rd (F := F) m ρ).amount (sendCell c j) 0 d = NJ j := by
  show NJ (slotOf (ssem j)) = NJ j; rw [slotOf_ssem]
theorem amount_recv (d : Fin 3) : (Rd (F := F) m ρ).amount (recvCell c j) 0 d = NJ j := by
  show NJ (slotOf (rsem j)) = NJ j; rw [slotOf_rsem]
theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul, Nat.mul_one]
theorem expect_send : (Rd (F := F) m ρ).expect (sendCell c j) 0 = NJ j := by
  unfold Schedule.expect Schedule.amountOf; rw [duties_send, Finset.sum_singleton, amount_send]
theorem expect_recv : (Rd (F := F) m ρ).expect (recvCell c j) 0 = NJ j := by
  unfold Schedule.expect Schedule.amountOf; rw [duties_recv, Finset.sum_singleton, amount_recv]
theorem payload_bar (l : Fin 3) : (Rd (F := F) m ρ).payload (barCell c) 0 l = barPay c l := rfl
theorem payload_send (d : Fin 3) : (Rd (F := F) m ρ).payload (sendCell c j) 0 d = sendPay m ρ c j := by
  show (if isSendSem (ssem j) then sendPay m ρ c (slotOf (ssem j)) else recvPay m ρ c (slotOf (ssem j))) = sendPay m ρ c j
  rw [if_pos (isSend_ssem j), slotOf_ssem]
theorem payload_recv (d : Fin 3) : (Rd (F := F) m ρ).payload (recvCell c j) 0 d = recvPay m ρ c j := by
  show (if isSendSem (rsem j) then sendPay m ρ c (slotOf (rsem j)) else recvPay m ρ c (slotOf (rsem j))) = recvPay m ρ c j
  rw [if_neg (not_isSend_rsem j), slotOf_rsem]
theorem NJ_pos : 0 < NJ j := NJ_pos' j
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]
theorem rest_bar : bigSep ((Rd (F := F) m ρ).duties (barCell c) 0 \ ∅) (fun d => (Rd (F := F) m ρ).payload (barCell c) 0 d)
    = iprop(barPay (F := F) c 0 ∗ barPay c 1 ∗ barPay c 2) := by
  rw [Finset.sdiff_empty, duties_bar, bigSep_univ_eq_bigSepL ([0, 1, 2] : List (Fin 3)) (by decide) (by decide), bigSepL_cons_cons,
    bigSepL_cons_cons, bigSepL_singleton, payload_bar, payload_bar, payload_bar]
  rfl

instance Rd_payload_storable (g : GSem nD τ sig) (r : ℕ) (d : Fin 3) :
    BI.Storable (upEmb : UEmb _ 𝕄) ((Rd (F := F) m ρ).payload g r d) := by
  rcases g with ⟨t, sm⟩
  cases sm with
  | reg s =>
    show BI.Storable (upEmb : UEmb _ 𝕄) (barPay (F := F) t.1 d)
    unfold barPay; infer_instance
  | dma s =>
    show BI.Storable (upEmb : UEmb _ 𝕄) (if isSendSem s then sendPay m ρ t.1 (slotOf s) else recvPay m ρ t.1 (slotOf s))
    split
    · unfold sendPay; split <;> infer_instance
    · unfold recvPay; infer_instance

end Tables

def L (g : GSem nD τ sig) : Finset Unit := if g.1.2 = .tc then {()} else ∅
def lvS (s : DmaSem sig) : ℕ :=
  if isSendSem s ∨ ¬ isActive s then 0
  else if (slotOf s).val < 6 then 2
  else if (slotOf s).val = 11 ∨ (slotOf s).val = 12 ∨ (slotOf s).val = 18 ∨ (slotOf s).val = 19 then 4 else 3
def lv (g : GSem nD τ sig) (_ : Unit) : ℕ := match g.2 with | .reg s => if s = barS then 1 else 0 | .dma s => lvS s

def Owed (c : Dev nD) (T : Finset (Fin 20)) : CellTallies nD τ sig Unit :=
  ∑ j ∈ T, tallyAt (recvCell (nb (link j) c) j) () (NJ j)
def O₀ (c : Dev nD) : CellTallies nD τ sig Unit :=
  Owed c Finset.univ + tallyAt (barCell (zbud c)) () 1 + tallyAt (barCell (ybud c)) () 1 + tallyAt (barCell (partner c)) () 1

end Cert.Kernel.Sched

end
-- ==== Proof.Bits.State.lean ====
import proofs.«900723_g7700000000000724_dist_ar_v7x_xyz2x4x4_x_m2048_n512_bf16_1_alg».proof.Proof.Bits.Sched

noncomputable section

namespace Cert.Kernel.State

open Cert.Kernel.Mesh Cert.Kernel.Sched

open Idealize.ShloMosaic
open Idealize.ShloMosaic.TcCoe
open Idealize.SL Idealize.SL.RA Idealize.SL.BI
open Idealize.SL.BI.BIBase
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def csem (i : Fin 41) : SemLoc sig :=
  if i.val = 0 then .reg barS else .dma ⟨i.val + 1, by have := i.isLt; have h43 : sig.nDmaSem = 43 := rfl; omega⟩
abbrev kcell (ck : Dev nD × Fin 41) : GSem nD τ sig := ((ck.1 : Thread nD τ), csem ck.2)
def sIx (j : Fin 20) : Fin 41 := ⟨(ssem j).val - 1, by revert j; decide⟩
def rIx (j : Fin 20) : Fin 41 := ⟨(rsem j).val - 1, by revert j; decide⟩
theorem csem_sIx (j : Fin 20) : csem (sIx j) = .dma (ssem j) := by revert j; decide
theorem csem_rIx (j : Fin 20) : csem (rIx j) = .dma (rsem j) := by revert j; decide
theorem csem_inj : Function.Injective csem := by decide
theorem kcell_send (c : Dev nD) (j : Fin 20) : kcell (c, sIx j) = sendCell c j := by
  show ((c : Thread nD τ), csem (sIx j)) = ((c : Thread nD τ), SemLoc.dma (ssem j)); rw [csem_sIx]
theorem kcell_recv (c : Dev nD) (j : Fin 20) : kcell (c, rIx j) = recvCell c j := by
  show ((c : Thread nD τ), csem (rIx j)) = ((c : Thread nD τ), SemLoc.dma (rsem j)); rw [csem_rIx]
theorem kcell_injective : Function.Injective (kcell : Dev nD × Fin 41 → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := csem_inj h2
  subst h3; rfl

def records (K : Dev nD × Fin 41 → ℕ) : sProp 𝕄 :=
  iprop((bigSep Finset.univ fun ck : Dev nD × Fin 41 => cellInv ER (Rd m ρ) (K ck) (kcell ck))
    ∗ (bigSep Finset.univ fun ck : Dev nD × Fin 41 => reached ER (kcell ck) 0)
    ∗ levAts L lv)

instance records_persistent (K : Dev nD × Fin 41 → ℕ) : BI.Persistent (records m ρ K) := by unfold records; infer_instance

structure Pg where
    R : Finset (Fin 20)
    S : Finset (Fin 20)
    D : Finset (Fin 20)
    A : Finset (Fin 20)
deriving DecidableEq

def lent (c : Dev nD) (σ : Pg) (q : PosShare TreeShare) (j : Fin 20) : Finset S2048x512.Idx :=
  (σ.S.filter fun j' => 6 ≤ j'.val ∧ fsrc j' = j ∧ fsh j' = q).biUnion (FS c)

def outAt (c : Dev nD) (A : Finset (Fin 20)) (f0 : (cc0_stg1_0 : Ref sig .tc).ty.Contents (Elt F)) :
    (cc0_stg1_0 : Ref sig .tc).ty.Contents (Elt F) :=
  fun i => if ∃ j ∈ A, i ∈ RS c j then outF m ρ c i else f0 i

def sendSt (c : Dev nD) (σ : Pg) (j : Fin 20) : sProp 𝕄 :=
  if j ∈ σ.D then iprop(sendPay m ρ c j ∗ semVal (sendCell c j) 0)
  else if j ∈ σ.S then iprop(cred (tallyAt (sendCell c j) () (NJ j)) ∗ atPos ER (sendCell c j) 0 ∅ 0)
  else iprop(dutyTok ER (sendCell c j) 0 0 ∗ dutyTok ER (recvCell (nb (link j) c) j) 0 0 ∗ atPos ER (sendCell c j) 0 ∅ 0
    ∗ (∃ f, aLoc (nb (link j) c) ↦[RS (nb (link j) c) j]{fullShare} f)
    ∗ (if j.val < 6 then sLoc c ↦[SS j]{fullShare} sbufF m ρ c else iprop(emp)))

def recvSt (c : Dev nD) (σ : Pg) (j : Fin 20) : sProp 𝕄 :=
  if j ∈ σ.R then iprop(semVal (recvCell c j) 0 ∗ (aLoc c ↦[RS c j]{qC} accF m ρ c)
    ∗ (aLoc c ↦[RS c j \ lent c σ qA j]{qA} accF m ρ c) ∗ (aLoc c ↦[RS c j \ lent c σ qB j]{qB} accF m ρ c))
  else iprop(cred (tallyAt (recvCell c j) () (NJ j)) ∗ atPos ER (recvCell c j) 0 ∅ 0)

def St (K : Dev nD × Fin 41 → ℕ) (c : Dev nD) (f0 : (cc0_stg1_0 : Ref sig .tc).ty.Contents (Elt F)) (σ : Pg) : sProp 𝕄 :=
  iprop(records m ρ K
    ∗ (∃ W, owes (c : Thread nD τ) (Owed c (Finset.univ \ σ.S)) W)
    ∗ (xLoc c ↦{fullShare} xstg m ρ c)
    ∗ (oLoc c ↦{fullShare} outAt m ρ c σ.A f0)
    ∗ (bigSep Finset.univ fun j => sendSt m ρ c σ j)
    ∗ (bigSep Finset.univ fun j => recvSt m ρ c σ j))

abbrev 𝒱₀ : Variants := Variants.none

abbrev dCell (c : Dev nD) : GSem nD τ sig := ((c : Thread nD τ), .dma ⟨42, by decide⟩)

def payToks (c : Dev nD) : sProp 𝕄 :=
  iprop((bigSep Finset.univ fun l : Fin 3 => dutyTok ER (barCell (nb l c)) 0 l)
    ∗ bigSep Finset.univ fun j : Fin 20 => iprop(dutyTok ER (sendCell c j) 0 0 ∗ dutyTok ER (recvCell (nb (link j) c) j) 0 0))
def positions (c : Dev nD) : sProp 𝕄 :=
  iprop(atPos ER (barCell c) 0 ∅ 0
    ∗ bigSep Finset.univ fun j : Fin 20 => iprop(atPos ER (sendCell c j) 0 ∅ 0 ∗ atPos ER (recvCell c j) 0 ∅ 0))
def ghost (K : Dev nD × Fin 41 → ℕ) (c : Dev nD) : sProp 𝕄 := iprop(records m ρ K ∗ positions c ∗ payToks c)
def creds (c : Dev nD) : sProp 𝕄 :=
  iprop(cred (tallyAt (barCell c) () 3) ∗ bigSep Finset.univ fun j : Fin 20 => cred (tallyAt (recvCell c j) () (NJ j)))
def start (c : Dev nD) : sProp 𝕄 := iprop((∃ K, ghost m ρ K c) ∗ creds c ∗ semVal (dCell c) 0)

def Φ₀ (c : Dev nD) : sProp 𝕄 := iprop(start m ρ c ∗ (∃ f, sLoc c ↦{fullShare} f) ∗ (∃ f, aLoc c ↦{fullShare} f))
def Φ₁ (c : Dev nD) : sProp 𝕄 :=
  iprop((∃ f, sLoc c ↦{fullShare} f) ∗ (∃ f, aLoc c ↦{fullShare} f)
    ∗ (bigSep Finset.univ fun j : Fin 20 => iprop(semVal (sendCell c j) 0 ∗ semVal (recvCell c j) 0)) ∗ semVal (dCell c) 0)

def dats (_ : Fin 1) (c : Dev nD) : Dat τ (Elt F) Unit ℕ UU ℕ cfg0 c where
  A w := (Sched.s₀ m ρ).mem ((cfg0.win w).arr.view.loc (c : Thread nD τ))
  after w _ := match w with
    | ⟨0, _⟩ => xstg m ρ c
    | ⟨1, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 41 → ℕ) (c : Dev nD) : sProp 𝕄 :=
  iprop((ghost m ρ K c ∗ creds c ∗ semVal (dCell c) 0 ∗ (∃ f, sLoc c ↦{fullShare} f) ∗ (∃ f, aLoc c ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outF m ρ c))

def σ₀ : Pg := ⟨∅, ∅, ∅, ∅⟩
def σ₁ : Pg := ⟨Finset.univ, Finset.univ, Finset.univ, Finset.univ⟩

def afterEntry (K : Dev nD × Fin 41 → ℕ) (c : Dev nD) : sProp 𝕄 :=
  iprop(∃ f0, St m ρ K c f0 σ₀ ∗ semVal (dCell c) 0)

def σ3 : Pg := ⟨∅, ∅, ∅, ∅⟩
def σ4 : Pg := { σ3 with S := insert 1 (insert 0 σ3.S) }
def σ5 : Pg := { σ4 with S := insert 3 (insert 2 σ4.S) }
def σ6 : Pg := { σ5 with S := insert 5 (insert 4 σ5.S), R := insert 0 σ5.R }
def σ7 : Pg := { σ6 with S := insert 13 (insert 6 σ6.S), A := insert 0 σ6.A }
def σ8 : Pg := { σ7 with R := insert 1 σ7.R, S := insert 14 (insert 7 σ7.S) }
def σ9 : Pg := { σ8 with A := insert 1 σ8.A, R := insert 2 σ8.R, S := insert 8 σ8.S }
def σ10 : Pg := { σ9 with S := insert 15 σ9.S, A := insert 2 σ9.A, R := insert 3 σ9.R }
def σ11 : Pg := { σ10 with S := insert 16 (insert 9 σ10.S), A := insert 3 σ10.A }
def σ12 : Pg := { σ11 with R := insert 4 σ11.R, S := insert 17 (insert 10 σ11.S) }
def σ13 : Pg := { σ12 with A := insert 5 (insert 4 σ12.A), R := insert 5 σ12.R }
def σ14 : Pg := { σ13 with R := insert 14 (insert 13 σ13.R), A := insert 14 (insert 13 σ13.A) }
def σ15 : Pg := { σ14 with R := insert 15 σ14.R, S := insert 11 σ14.S }
def σ16 : Pg := { σ15 with A := insert 15 σ15.A, R := insert 16 σ15.R, S := insert 12 σ15.S }
def σ17 : Pg := { σ16 with A := insert 6 (insert 16 σ16.A), R := insert 6 σ16.R }
def σ18 : Pg := { σ17 with R := insert 8 (insert 7 σ17.R), A := insert 7 σ17.A }
def σ19 : Pg := { σ18 with A := insert 8 σ18.A, R := insert 9 σ18.R, S := insert 18 σ18.S }
def σ20 : Pg := { σ19 with A := insert 9 σ19.A, R := insert 10 σ19.R, S := insert 19 σ19.S }
def σ21 : Pg := { σ20 with A := insert 17 (insert 10 σ20.A), R := insert 17 σ20.R }
def σ22 : Pg := { σ21 with R := insert 12 (insert 11 σ21.R), A := insert 11 σ21.A }
def σ23 : Pg := { σ22 with A := insert 18 (insert 12 σ22.A), R := insert 18 σ22.R }
def σ24 : Pg := { σ23 with R := insert 19 σ23.R, A := insert 19 σ23.A, D := insert 1 (insert 0 σ23.D) }
def σ25 : Pg := { σ24 with D := insert 13 (insert 6 (insert 5 (insert 4 (insert 3 (insert 2 σ24.D))))) }
def σ26 : Pg := { σ25 with D := insert 16 (insert 9 (insert 15 (insert 8 (insert 14 (insert 7 σ25.D))))) }
def σ27 : Pg := { σ26 with D := insert 12 (insert 11 (insert 17 (insert 10 σ26.D))) }
def σ28 : Pg := { σ27 with D := insert 19 (insert 18 σ27.D) }

theorem σ28_full : σ28 = σ₁ := by
  have hR : σ28.R = Finset.univ := by decide
  have hS : σ28.S = Finset.univ := by decide
  have hD : σ28.D = Finset.univ := by decide
  have hA : σ28.A = Finset.univ := by decide
  show (⟨σ28.R, σ28.S, σ28.D, σ28.A⟩ : Pg) = _
  rw [hR, hS, hD, hA]; rfl

/-- A printed part of the body at the kernel's own buffers and semaphore arrays. -/
abbrev atBufs.{u} {β : Sort u} (f : (a0 : Memref sig .tc .vmem S2048x512 .f32) → a0.IsWhole → (a1 : Memref sig .tc .vmem S2048x512 .bf16) → a1.IsWhole →
    (a2 : Memref sig .tc .vmem S672x512 .bf16) → a2.IsWhole → (a3 : Memref sig .tc .vmem S2048x512 .bf16) → a3.IsWhole →
    DmaSems sig S6 → DmaSems sig S6 → DmaSems sig S7 → DmaSems sig S7 → DmaSems sig S7 → DmaSems sig S7 → DmaSems sig S_ → β) : β :=
  f (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8

end Cert.Kernel.State

end
-- ==== Proof.Bits.MeshFacts.lean ====
import proofs.«900723_g7700000000000724_dist_ar_v7x_xyz2x4x4_x_m2048_n512_bf16_1_alg».proof.Proof.Bits.Mesh

namespace Cert.Kernel.Mesh

open Idealize.ShloMosaic Cert.Kernel.Gen

theorem dev1_eq (c : Dev nD) : (⟨k0_dev1 c, k0_dev1_lt c⟩ : Dev nD) = partner c := by revert c; decide +kernel
theorem dev2_eq (c : Dev nD) : (⟨k0_dev2 c, k0_dev2_lt c⟩ : Dev nD) = ybud c := by revert c; decide +kernel
theorem dev3_eq (c : Dev nD) : (⟨k0_dev3 c, k0_dev3_lt c⟩ : Dev nD) = zbud c := by revert c; decide +kernel
theorem dev4_eq (c : Dev nD) : (⟨k0_dev4 c, k0_dev4_lt c⟩ : Dev nD) = partner c := by revert c; decide +kernel
theorem dev5_eq (c : Dev nD) : (⟨k0_dev5 c, k0_dev5_lt c⟩ : Dev nD) = partner c := by revert c; decide +kernel
theorem dev6_eq (c : Dev nD) : (⟨k0_dev6 c, k0_dev6_lt c⟩ : Dev nD) = partner c := by revert c; decide +kernel
theorem dev7_eq (c : Dev nD) : (⟨k0_dev7 c, k0_dev7_lt c⟩ : Dev nD) = partner c := by revert c; decide +kernel
theorem dev8_eq (c : Dev nD) : (⟨k0_dev8 c, k0_dev8_lt c⟩ : Dev nD) = partner c := by revert c; decide +kernel
theorem dev9_eq (c : Dev nD) : (⟨k0_dev9 c, k0_dev9_lt c⟩ : Dev nD) = partner c := by revert c; decide +kernel
theorem dev10_eq (c : Dev nD) : (⟨k0_dev10 c, k0_dev10_lt c⟩ : Dev nD) = ybud c := by revert c; decide +kernel
theorem dev11_eq (c : Dev nD) : (⟨k0_dev11 c, k0_dev11_lt c⟩ : Dev nD) = zbud c := by revert c; decide +kernel
theorem dev12_eq (c : Dev nD) : (⟨k0_dev12 c, k0_dev12_lt c⟩ : Dev nD) = ybud c := by revert c; decide +kernel
theorem dev13_eq (c : Dev nD) : (⟨k0_dev13 c, k0_dev13_lt c⟩ : Dev nD) = zbud c := by revert c; decide +kernel
theorem dev14_eq (c : Dev nD) : (⟨k0_dev14 c, k0_dev14_lt c⟩ : Dev nD) = ybud c := by revert c; decide +kernel
theorem dev15_eq (c : Dev nD) : (⟨k0_dev15 c, k0_dev15_lt c⟩ : Dev nD) = zbud c := by revert c; decide +kernel
theorem dev16_eq (c : Dev nD) : (⟨k0_dev16 c, k0_dev16_lt c⟩ : Dev nD) = ybud c := by revert c; decide +kernel
theorem dev17_eq (c : Dev nD) : (⟨k0_dev17 c, k0_dev17_lt c⟩ : Dev nD) = zbud c := by revert c; decide +kernel
theorem dev18_eq (c : Dev nD) : (⟨k0_dev18 c, k0_dev18_lt c⟩ : Dev nD) = ybud c := by revert c; decide +kernel
theorem dev19_eq (c : Dev nD) : (⟨k0_dev19 c, k0_dev19_lt c⟩ : Dev nD) = zbud c := by revert c; decide +kernel
theorem dev20_eq (c : Dev nD) : (⟨k0_dev20 c, k0_dev20_lt c⟩ : Dev nD) = ybud c := by revert c; decide +kernel
theorem dev21_eq (c : Dev nD) : (⟨k0_dev21 c, k0_dev21_lt c⟩ : Dev nD) = ybud c := by revert c; decide +kernel
theorem dev22_eq (c : Dev nD) : (⟨k0_dev22 c, k0_dev22_lt c⟩ : Dev nD) = zbud c := by revert c; decide +kernel
theorem dev23_eq (c : Dev nD) : (⟨k0_dev23 c, k0_dev23_lt c⟩ : Dev nD) = zbud c := by revert c; decide +kernel

theorem off1_eq (c : Dev nD) : k0_off1 c = ![512 * cq c, 0] := by revert c; decide +kernel
theorem off2_eq (c : Dev nD) : k0_off2 c = ![512 * cd c, 0] := by revert c; decide +kernel
theorem off2_own (c : Dev nD) : k0_off2 c = ![roff c 5, 0] := by revert c; decide +kernel
theorem off3_0_partner (c : Dev nD) : k0_off3 c 0#32 = ![roff (partner c) 0, 0] := by revert c; decide +kernel
theorem off3_0_src6 (c : Dev nD) : k0_off3 c 0#32 = ![foff c 6, 0] := by revert c; decide +kernel
theorem off3_0_src13 (c : Dev nD) : k0_off3 c 0#32 = ![foff c 13, 0] := by revert c; decide +kernel
theorem off3_64_partner (c : Dev nD) : k0_off3 c 64#32 = ![roff (partner c) 1, 0] := by revert c; decide +kernel
theorem off3_64_src7 (c : Dev nD) : k0_off3 c 64#32 = ![foff c 7, 0] := by revert c; decide +kernel
theorem off3_64_src14 (c : Dev nD) : k0_off3 c 64#32 = ![foff c 14, 0] := by revert c; decide +kernel
theorem off4_128_partner (c : Dev nD) : k0_off4 c 128#32 = ![roff (partner c) 2, 0] := by revert c; decide +kernel
theorem off4_128_src8 (c : Dev nD) : k0_off4 c 128#32 = ![foff c 8, 0] := by revert c; decide +kernel
theorem off4_128_src15 (c : Dev nD) : k0_off4 c 128#32 = ![foff c 15, 0] := by revert c; decide +kernel
theorem off4_256_partner (c : Dev nD) : k0_off4 c 256#32 = ![roff (partner c) 3, 0] := by revert c; decide +kernel
theorem off4_256_src9 (c : Dev nD) : k0_off4 c 256#32 = ![foff c 9, 0] := by revert c; decide +kernel
theorem off4_256_src16 (c : Dev nD) : k0_off4 c 256#32 = ![foff c 16, 0] := by revert c; decide +kernel
theorem off4_384_partner (c : Dev nD) : k0_off4 c 384#32 = ![roff (partner c) 4, 0] := by revert c; decide +kernel
theorem off4_384_src10 (c : Dev nD) : k0_off4 c 384#32 = ![foff c 10, 0] := by revert c; decide +kernel
theorem off4_384_src17 (c : Dev nD) : k0_off4 c 384#32 = ![foff c 17, 0] := by revert c; decide +kernel
theorem off5_partner (c : Dev nD) : k0_off5 c = ![roff (partner c) 5, 0] := by revert c; decide +kernel
theorem off6_0_own (c : Dev nD) : k0_off6 c 0#32 = ![roff c 0, 0] := by revert c; decide +kernel
theorem off6_64_own (c : Dev nD) : k0_off6 c 64#32 = ![roff c 1, 0] := by revert c; decide +kernel
theorem off7_128_own (c : Dev nD) : k0_off7 c 128#32 = ![roff c 2, 0] := by revert c; decide +kernel
theorem off7_256_own (c : Dev nD) : k0_off7 c 256#32 = ![roff c 3, 0] := by revert c; decide +kernel
theorem off7_384_own (c : Dev nD) : k0_off7 c 384#32 = ![roff c 4, 0] := by revert c; decide +kernel
theorem off9_0_own (c : Dev nD) : k0_off9 c 0#32 = ![roff c 13, 0] := by revert c; decide +kernel
theorem off9_64_own (c : Dev nD) : k0_off9 c 64#32 = ![roff c 14, 0] := by revert c; decide +kernel
theorem off12_128_own (c : Dev nD) : k0_off12 c 128#32 = ![roff c 15, 0] := by revert c; decide +kernel
theorem off12_256_own (c : Dev nD) : k0_off12 c 256#32 = ![roff c 16, 0] := by revert c; decide +kernel
theorem off12_384_own (c : Dev nD) : k0_off12 c 384#32 = ![roff c 17, 0] := by revert c; decide +kernel
theorem off11_src11 (c : Dev nD) : k0_off11 c = ![foff c 11, 0] := by revert c; decide +kernel
theorem off13_src12 (c : Dev nD) : k0_off13 c = ![foff c 12, 0] := by revert c; decide +kernel
theorem off15_0_own (c : Dev nD) : k0_off15 c 0#32 = ![roff c 6, 0] := by revert c; decide +kernel
theorem off15_64_own (c : Dev nD) : k0_off15 c 64#32 = ![roff c 7, 0] := by revert c; decide +kernel
theorem off17_128_own (c : Dev nD) : k0_off17 c 128#32 = ![roff c 8, 0] := by revert c; decide +kernel
theorem off17_256_own (c : Dev nD) : k0_off17 c 256#32 = ![roff c 9, 0] := by revert c; decide +kernel
theorem off17_384_own (c : Dev nD) : k0_off17 c 384#32 = ![roff c 10, 0] := by revert c; decide +kernel
theorem off18_src18 (c : Dev nD) : k0_off18 c = ![foff c 18, 0] := by revert c; decide +kernel
theorem off16_384_src19 (c : Dev nD) : k0_off16 c 384#32 = ![foff c 19, 0] := by revert c; decide +kernel
theorem off20_own (c : Dev nD) : k0_off20 c = ![roff c 11, 0] := by revert c; decide +kernel
theorem off22_own (c : Dev nD) : k0_off22 c = ![roff c 12, 0] := by revert c; decide +kernel
theorem off24_own (c : Dev nD) : k0_off24 c = ![roff c 18, 0] := by revert c; decide +kernel
theorem off26_own (c : Dev nD) : k0_off26 c = ![roff c 19, 0] := by revert c; decide +kernel

end Cert.Kernel.Mesh
-- ==== Proof.Bits.StepsWait.lean ====
import proofs.«900723_g7700000000000724_dist_ar_v7x_xyz2x4x4_x_m2048_n512_bf16_1_alg».proof.Proof.Bits.State

noncomputable section

namespace Cert.Kernel.Proved

open Cert.Kernel.Mesh Cert.Kernel.Sched Cert.Kernel.State

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}
variable {K : Dev nD × Fin 41 → ℕ} {c : Dev nD} {f0 : (cc0_stg1_0 : Ref sig .tc).ty.Contents (Elt F)} {σ : Pg}

theorem records_cell (ck : Dev nD × Fin 41) :
    records m ρ K ⊢ iprop(cellInv ER (Rd m ρ) (K ck) (kcell ck) ∗ reached ER (kcell ck) 0) := by
  unfold records
  have hI : (bigSep Finset.univ (fun ck : Dev nD × Fin 41 => cellInv ER (Rd m ρ) (K ck) (kcell ck)) : sProp 𝕄)
      ⊢ cellInv ER (Rd m ρ) (K ck) (kcell ck) := bigSep_elim (Finset.mem_univ ck)
  have hR : (bigSep Finset.univ (fun ck : Dev nD × Fin 41 => reached ER (kcell ck) 0) : sProp 𝕄)
      ⊢ reached ER (kcell ck) 0 := bigSep_elim (Finset.mem_univ ck)
  iintro ⟨#HI, #HR, -⟩
  isplitr
  · iapply hI; iexact HI
  · iapply hR; iexact HR
theorem records_send (c : Dev nD) (j : Fin 20) :
    records m ρ K ⊢ iprop(cellInv ER (Rd m ρ) (K (c, sIx j)) (sendCell c j) ∗ reached ER (sendCell c j) 0) :=
  kcell_send c j ▸ records_cell (c, sIx j)
theorem records_recv (c : Dev nD) (j : Fin 20) :
    records m ρ K ⊢ iprop(cellInv ER (Rd m ρ) (K (c, rIx j)) (recvCell c j) ∗ reached ER (recvCell c j) 0) :=
  kcell_recv c j ▸ records_cell (c, rIx j)
theorem records_lev : records m ρ K ⊢ (levAts L lv : sProp 𝕄) := by
  unfold records
  iintro ⟨-, -, H⟩
  iexact H

theorem L_tc (c : Dev nD) (s : SemLoc sig) : L ((c : Thread nD τ), s) = {()} := if_pos rfl

/-- An arrival cell may be waited on while every copy still owed goes to a higher arrival cell. -/
theorem mayWait_recv (c : Dev nD) (j : Fin 20) (T : Finset (Fin 20)) (h : ∀ j' ∈ T, lvS (rsem j) < lvS (rsem j')) :
    (levAts L lv : sProp 𝕄) ⊢ MayWait (c : Thread nD τ) (.dma (rsem j)) () (Owed c T) :=
  Pipeline.mayWait_of_levAts (L := L) (lev := lv) (by rw [L_tc]; exact Finset.mem_singleton_self _)
    (fun g i hg => by
      unfold Owed at hg
      obtain ⟨j', hj', hpos⟩ := Pipeline.sum_pos_exists hg
      rw [tallyAt_apply] at hpos
      by_cases hh : g = recvCell (nb (link j') c) j' ∧ i = ()
      · rw [hh.1]
        exact ⟨by rw [L_tc]; exact Finset.mem_singleton_self _, h j' hj'⟩
      · rw [if_neg hh] at hpos; exact absurd hpos (Nat.lt_irrefl 0))

theorem sendSt_fresh (j : Fin 20) (hS : j ∉ σ.S) (hD : j ∉ σ.D) :
    sendSt m ρ c σ j
      = iprop(dutyTok ER (sendCell c j) 0 0 ∗ dutyTok ER (recvCell (nb (link j) c) j) 0 0 ∗ atPos ER (sendCell c j) 0 ∅ 0
        ∗ (∃ f, aLoc (nb (link j) c) ↦[RS (nb (link j) c) j]{fullShare} f)
        ∗ (if j.val < 6 then sLoc c ↦[SS j]{fullShare} sbufF m ρ c else iprop(emp))) := by
  unfold sendSt; rw [if_neg hD, if_neg hS]
theorem sendSt_issued (j : Fin 20) (hD : j ∉ σ.D) (hS : j ∈ σ.S) :
    sendSt m ρ c σ j = iprop(cred (tallyAt (sendCell c j) () (NJ j)) ∗ atPos ER (sendCell c j) 0 ∅ 0) := by
  unfold sendSt; rw [if_neg hD, if_pos hS]
theorem sendSt_waited (j : Fin 20) (hD : j ∈ σ.D) :
    sendSt m ρ c σ j = iprop(sendPay m ρ c j ∗ semVal (sendCell c j) 0) := by
  unfold sendSt; rw [if_pos hD]
theorem recvSt_pending (j : Fin 20) (hR : j ∉ σ.R) :
    recvSt m ρ c σ j = iprop(cred (tallyAt (recvCell c j) () (NJ j)) ∗ atPos ER (recvCell c j) 0 ∅ 0) := by
  unfold recvSt; rw [if_neg hR]
theorem recvSt_waited (j : Fin 20) (hR : j ∈ σ.R) :
    recvSt m ρ c σ j = iprop(semVal (recvCell c j) 0 ∗ (aLoc c ↦[RS c j]{qC} accF m ρ c)
      ∗ (aLoc c ↦[RS c j \ lent c σ qA j]{qA} accF m ρ c) ∗ (aLoc c ↦[RS c j \ lent c σ qB j]{qB} accF m ρ c)) := by
  unfold recvSt; rw [if_pos hR]

/-- The wait instruction on a DMA semaphore is a wait for the copy's units. -/
theorem wait_eq {sp sp' : Space} {s s' : Shape} {e e' : EltTy} (sem : DmaSem sig) {j : Fin 20}
    {src : Memref sig .tc sp' s' e'} {κ' : Kind} {dst : Memref sig κ' sp s e} {hsrc : src.view.WordExact} {hdst : dst.view.WordExact}
    (hcred : dst.view.dmaCredit = NJ j) (K' : PUnit → sProp 𝕄) :
    wpE (defs₀ (F := F)) 𝒱₀ (c : Thread nD τ) none Set.univ (.waitDma2 sem src dst hsrc hdst) K'
      = waitSpec (c : Thread nD τ) Set.univ (.dma sem) (NJ j) K' :=
  hcred ▸ wpE_waitDma2_eq (defs := defs₀ (F := F)) 𝒱₀ (c : Thread nD τ) none Set.univ (sem := sem) (src := src) (dst := dst)
    (hsrc := hsrc) (hdst := hdst) K'

/-- Waiting for arrival j: the slice arrives, holding its final rows, and is cut in its three shares. -/
theorem step_recv_wait {α : Type} {Q : α → sProp 𝕄} (j : Fin 20)
    {sp sp' : Space} {s s' : Shape} {e e' : EltTy} {sem : DmaSem sig}
    {src : Memref sig .tc sp' s' e'} {κ' : Kind} {dst : Memref sig κ' sp s e} {hsrc : src.view.WordExact} {hdst : dst.view.WordExact}
    {k : PUnit → Prog (TpuEff nD τ sig (Elt F) Λ₀ .tc) α}
    (hj : j ∉ σ.R := by decide) (hlev : ∀ j' ∈ Finset.univ \ σ.S, lvS (rsem j) < lvS (rsem j') := by decide)
    (hsem : sem = rsem j := by rfl) (hcred : dst.view.dmaCredit = NJ j := by rfl) :
    St m ρ K c f0 σ ⊢ iprop((St m ρ K c f0 { σ with R := insert j σ.R } -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hsem
  unfold St
  iintro ⟨#Hrec, ⟨%W, HO⟩, Hx, Hout, Hsend, Hrecv⟩ Hk
  icases (bigSep_univ_update (Φ := fun j' => recvSt m ρ c σ j') (Ψ := fun j' => recvSt m ρ c { σ with R := insert j σ.R } j') j
    (fun j' h => by unfold recvSt; simp only [Finset.mem_insert, h, false_or]; rfl)) $$ Hrecv with ⟨Hrj, Hback⟩
  icases (Entails.of_eq (recvSt_pending j hj)) $$ Hrj with ⟨Hcr, Hat⟩
  ihave #HI := (records_recv c j) $$ Hrec
  icases HI with ⟨#HI, -⟩
  iapply (Rounds.wp_wait_rest_token 𝒱₀ ER (Rd m ρ) (c : Thread nD τ) none (κ := K (c, rIx j)) (wait_eq (rsem j) hcred) (Set.mem_univ _) ()
      (O := Owed c (Finset.univ \ σ.S)) (W := W) (R := 0) (m := 0) (T := ∅) (by rw [Nat.zero_add, expect_recv])) $$ [HO Hcr Hat]
  · iframe HI Hcr HO Hat
    iapply (mayWait_recv c j _ hlev); iapply records_lev; iexact Hrec
  iintro ⟨HO, Hat, -, Hpay⟩
  ihave Hpay := (Entails.of_eq (rest_recv m ρ c j)) $$ Hpay
  imod (Rounds.cell_close ER (Rd m ρ) (Set.mem_univ (K (c, rIx j))) (fun h => h) (R := 0 + 1) (duties_later m ρ (recvCell c j))) $$ [Hat] with Hz
  · iframe HI Hat
  unfold recvPay
  icases (pointsTo_share (PosShare.mem_left_op_right fullShare)).1 $$ Hpay with ⟨HA, HBC⟩
  icases (pointsTo_share (PosShare.mem_left_op_right fullShare.right)).1 $$ HBC with ⟨HB, HC⟩
  icases (pointsTo_split_subset (I := RS c j \ lent c σ qA j) Finset.sdiff_subset).1 $$ HA with ⟨HA, -⟩
  icases (pointsTo_split_subset (I := RS c j \ lent c σ qB j) Finset.sdiff_subset).1 $$ HB with ⟨HB, -⟩
  iapply Hk
  iframe Hrec Hx Hout
  isplitl [HO]; · iexists _; iexact HO
  isplitl [Hsend]; · iexact Hsend
  iapply Hback
  rw [recvSt_waited (σ := { σ with R := insert j σ.R }) j (Finset.mem_insert_self _ _)]
  iframe Hz HC
  isplitl [HA]; · iexact HA
  iexact HB

/-- Waiting for departure j, once every departure is issued: the borrowed source comes back. -/
theorem step_send_wait {α : Type} {Q : α → sProp 𝕄} (j : Fin 20)
    {sp sp' : Space} {s s' : Shape} {e e' : EltTy} {sem : DmaSem sig}
    {src : Memref sig .tc sp' s' e'} {κ' : Kind} {dst : Memref sig κ' sp s e} {hsrc : src.view.WordExact} {hdst : dst.view.WordExact}
    {k : PUnit → Prog (TpuEff nD τ sig (Elt F) Λ₀ .tc) α}
    (hjS : σ.S = Finset.univ := by decide) (hjD : j ∉ σ.D := by decide)
    (hsem : sem = ssem j := by rfl) (hcred : dst.view.dmaCredit = NJ j := by rfl) :
    St m ρ K c f0 σ ⊢ iprop((St m ρ K c f0 { σ with D := insert j σ.D } -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hsem
  have hO : Owed c (Finset.univ \ σ.S) = 0 := by rw [hjS, Finset.sdiff_self]; exact Finset.sum_empty
  unfold St
  iintro ⟨#Hrec, ⟨%W, HO⟩, Hx, Hout, Hsend, Hrecv⟩ Hk
  icases (bigSep_univ_update (Φ := fun j' => sendSt m ρ c σ j') (Ψ := fun j' => sendSt m ρ c { σ with D := insert j σ.D } j') j
    (fun j' h => by unfold sendSt; simp only [Finset.mem_insert, h, false_or])) $$ Hsend with ⟨Hsj, Hback⟩
  icases (Entails.of_eq (sendSt_issued j hjD (hjS ▸ Finset.mem_univ j))) $$ Hsj with ⟨Hcr, Hat⟩
  ihave #HI := (records_send c j) $$ Hrec
  icases HI with ⟨#HI, -⟩
  iapply (Rounds.wp_wait_rest_token 𝒱₀ ER (Rd m ρ) (c : Thread nD τ) none (κ := K (c, sIx j)) (wait_eq (ssem j) hcred) (Set.mem_univ _) ()
      (O := Owed c (Finset.univ \ σ.S)) (W := W) (R := 0) (m := 0) (T := ∅) (by rw [Nat.zero_add, expect_send])) $$ [HO Hcr Hat]
  · iframe HI Hcr HO Hat
    rw [hO, MayWait_zero]; iempintro
  iintro ⟨HO, Hat, -, Hpay⟩
  ihave Hpay := (Entails.of_eq (rest_send m ρ c j)) $$ Hpay
  imod (Rounds.cell_close ER (Rd m ρ) (Set.mem_univ (K (c, sIx j))) (fun h => h) (R := 0 + 1) (duties_later m ρ (sendCell c j))) $$ [Hat] with Hz
  · iframe HI Hat
  iapply Hk
  iframe Hrec Hx Hout
  isplitl [HO]; · iexists _; iexact HO
  isplitr [Hrecv]; swap; · iexact Hrecv
  iapply Hback
  rw [sendSt_waited (σ := { σ with D := insert j σ.D }) j (Finset.mem_insert_self _ _)]
  iframe Hpay Hz

end Cert.Kernel.Proved

end
-- ==== Proof.Bits.Exit.lean ====
import proofs.«900723_g7700000000000724_dist_ar_v7x_xyz2x4x4_x_m2048_n512_bf16_1_alg».proof.Proof.Bits.State

noncomputable section

namespace Cert.Kernel.Proved

open Cert.Kernel.Mesh Cert.Kernel.Sched

open Idealize.ShloMosaic
open Idealize.SL.RA Idealize.SL.BI
open Idealize.SL.BI.BIBase
open Idealize.ShloMosaic.Pipeline (Dat Cfg Window BodyObligation cellOf)
open Cert.Kernel.State

variable {F : FTy → Type} [FloatOps F]

local notation "𝕄" => MT nD τ sig Unit (Elt F) ℕ UU ℕ

variable (m : (ℓ : Loc nD τ sig) → Buf (Elt F) ℓ) (ρ : Dev nD → PrngReg)

namespace Exit

theorem qA_ne_qB : (qA : PosShare TreeShare) ≠ qB := by decide

theorem outAt_full (c : Dev nD) (f0 : (cc0_stg1_0 : Ref sig .tc).ty.Contents (Elt F)) :
    outAt m ρ c σ₁.A f0 = outF m ρ c := by
  funext i
  have hi : i ∈ (Finset.univ : Finset (Fin 20)).biUnion (RS c) := RS_cover c ▸ Finset.mem_univ i
  obtain ⟨j, hj, hij⟩ := Finset.mem_biUnion.mp hi
  exact if_pos ⟨j, hj, hij⟩

theorem Owed_full (c : Dev nD) : Owed c (Finset.univ \ σ₁.S) = 0 :=
  (congrArg (Owed c) (Finset.sdiff_self _)).trans Finset.sum_empty

-- A buffer held whole is the product of its pieces over any family of disjoint sets that covers it.
theorem cut {ℓ : Loc nD τ sig} {q : PosShare TreeShare} {f : Buf (Elt F) ℓ} {T : Type} (S : Finset T) (K : T → Finset (Idx ℓ))
    (hd : ∀ t ∈ S, ∀ t' ∈ S, t ≠ t' → Disjoint (K t) (K t')) (hc : S.biUnion K = Finset.univ) :
    (ℓ ↦{q} f : sProp 𝕄) = bigSep S fun t => ℓ ↦[K t]{q} f := by
  rw [← pointsTo_biUnion S K hd, hc]

def Rel (q : PosShare TreeShare) : Finset (Fin 20) := Finset.univ.filter fun j : Fin 20 => 6 ≤ j.val ∧ fsh j = q

theorem fsh_group (j j' : Fin 20) (h : fsh j = fsh j') : (13 ≤ j.val ∧ j.val ≤ 17) ↔ (13 ≤ j'.val ∧ j'.val ≤ 17) := by
  revert j j'; decide

theorem foff_disjoint (c : Dev nD) (j j' : Fin 20) (h6 : 6 ≤ j.val) (h6' : 6 ≤ j'.val) (hne : j ≠ j')
    (hg : (13 ≤ j.val ∧ j.val ≤ 17) ↔ (13 ≤ j'.val ∧ j'.val ≤ 17)) :
    foff c j + rrows j ≤ foff c j' ∨ foff c j' + rrows j' ≤ foff c j := by
  revert c j j'; decide

theorem FS_disjoint (c : Dev nD) (q : PosShare TreeShare) (j j' : Fin 20) (hj : j ∈ Rel q) (hj' : j' ∈ Rel q) (hne : j ≠ j') :
    Disjoint (FS c j) (FS c j') := by
  obtain ⟨_, h6, hq⟩ := Finset.mem_filter.mp hj
  obtain ⟨_, h6', hq'⟩ := Finset.mem_filter.mp hj'
  have hd := foff_disjoint c j j' h6 h6' hne (fsh_group j j' (hq.trans hq'.symm))
  rw [Finset.disjoint_left]
  intro i hi hi'
  unfold FS rows2048 at hi hi'
  rw [Finset.mem_filter] at hi hi'
  omega

theorem rest_lent_disjoint (c : Dev nD) (q : PosShare TreeShare) :
    Disjoint ((Finset.univ : Finset (Fin 20)).biUnion fun s => RS c s \ lent c σ₁ q s) ((Rel q).biUnion (FS c)) := by
  rw [Finset.disjoint_left]
  intro i hi hi'
  obtain ⟨s, _, his⟩ := Finset.mem_biUnion.mp hi
  obtain ⟨j, hj, hij⟩ := Finset.mem_biUnion.mp hi'
  obtain ⟨_, h6, hq⟩ := Finset.mem_filter.mp hj
  obtain ⟨hiR, hiL⟩ := Finset.mem_sdiff.mp his
  have hs : s = fsrc j := by
    by_contra hne
    exact Finset.disjoint_left.mp (RS_disjoint c s (fsrc j) hne) hiR (FS_subset c j h6 hij)
  exact hiL (Finset.mem_biUnion.mpr ⟨j, Finset.mem_filter.mpr ⟨Finset.mem_univ j, h6, hs.symm, hq⟩, hij⟩)

theorem rest_lent_cover (c : Dev nD) (q : PosShare TreeShare) :
    ((Finset.univ : Finset (Fin 20)).biUnion fun s => RS c s \ lent c σ₁ q s) ∪ ((Rel q).biUnion (FS c)) = Finset.univ := by
  ext i
  simp only [Finset.mem_union, Finset.mem_univ, iff_true]
  obtain ⟨s, hs, his⟩ := Finset.mem_biUnion.mp (RS_cover c ▸ Finset.mem_univ i : i ∈ (Finset.univ : Finset (Fin 20)).biUnion (RS c))
  by_cases hl : i ∈ lent c σ₁ q s
  · obtain ⟨j, hj, hij⟩ := Finset.mem_biUnion.mp hl
    obtain ⟨_, h6, _, hq⟩ := Finset.mem_filter.mp hj
    exact Or.inr (Finset.mem_biUnion.mpr ⟨j, Finset.mem_filter.mpr ⟨Finset.mem_univ j, h6, hq⟩, hij⟩)
  · exact Or.inl (Finset.mem_biUnion.mpr ⟨s, hs, Finset.mem_sdiff.mpr ⟨his, hl⟩⟩)

theorem soff_cover (r : Nat) (hr : r < 672) : ∃ j : Fin 20, j.val < 6 ∧ soff j ≤ r ∧ r < soff j + rrows j := by
  rcases (by omega : 0 ≤ r ∧ r < 64 ∨ 64 ≤ r ∧ r < 128 ∨ 128 ≤ r ∧ r < 256 ∨ 256 ≤ r ∧ r < 384 ∨ 384 ≤ r ∧ r < 512 ∨ 512 ≤ r ∧ r < 672)
    with h | h | h | h | h | h
  exacts [⟨0, by decide, h⟩, ⟨1, by decide, h⟩, ⟨2, by decide, h⟩, ⟨3, by decide, h⟩, ⟨4, by decide, h⟩, ⟨5, by decide, h⟩]

theorem SS_disjoint (j j' : Fin 20) (h : j.val < 6) (h' : j'.val < 6) (hne : j ≠ j') : Disjoint (SS j) (SS j') := by
  have hd : soff j + rrows j ≤ soff j' ∨ soff j' + rrows j' ≤ soff j := by revert j j'; decide
  rw [Finset.disjoint_left]
  intro i hi hi'
  unfold SS rows672 at hi hi'
  rw [Finset.mem_filter] at hi hi'
  omega

theorem SS_cover : (Finset.univ.filter fun j : Fin 20 => j.val < 6).biUnion SS = Finset.univ := by
  ext i
  simp only [Finset.mem_biUnion, Finset.mem_univ, iff_true]
  obtain ⟨j, h6, h⟩ := soff_cover (i 0).val (i 0).isLt
  exact ⟨j, Finset.mem_filter.mpr ⟨Finset.mem_univ j, h6⟩, Finset.mem_filter.mpr ⟨Finset.mem_univ _, h⟩⟩

theorem scr_cut (c : Dev nD) (f : Buf (Elt F) (sLoc c)) :
    (sLoc c ↦{fullShare} f : sProp 𝕄) = bigSep (Finset.univ.filter fun j : Fin 20 => j.val < 6) fun j => sLoc c ↦[SS j]{fullShare} f :=
  cut (ℓ := sLoc c) _ SS (fun j hj j' hj' => SS_disjoint j j' (Finset.mem_filter.mp hj).2 (Finset.mem_filter.mp hj').2) SS_cover

theorem scratch_whole (c : Dev nD) :
    bigSep (Finset.univ.filter fun j : Fin 20 => j.val < 6) (sendPay m ρ c) ⊢ (sLoc c ↦{fullShare} sbufF m ρ c : sProp 𝕄) := by
  rw [scr_cut]
  exact Entails.of_eq (bigSep_congr fun j hj => if_pos (Finset.mem_filter.mp hj).2)

theorem relays_at (c : Dev nD) (q : PosShare TreeShare) :
    bigSep (Rel q) (sendPay m ρ c) = bigSep (Rel q) fun j => (aLoc c ↦[FS c j]{q} accF m ρ c : sProp 𝕄) :=
  bigSep_congr fun j hj => by
    obtain ⟨_, h6, hq⟩ := Finset.mem_filter.mp hj
    unfold sendPay
    rw [if_neg (by omega), hq]

theorem relays_split : (Finset.univ.filter fun j : Fin 20 => ¬ j.val < 6) = Rel qA ∪ Rel qB := by
  ext j
  simp only [Rel, Finset.mem_filter, Finset.mem_union, Finset.mem_univ, true_and, ← and_or_left, not_lt]
  exact (and_iff_left (by unfold fsh; split; exacts [Or.inr rfl, Or.inl rfl])).symm

theorem relays_disjoint : Disjoint (Rel qA) (Rel qB) :=
  Finset.disjoint_left.mpr fun j h h' => qA_ne_qB ((Finset.mem_filter.mp h).2.2.symm.trans (Finset.mem_filter.mp h').2.2)

theorem acc_share_whole (c : Dev nD) (q : PosShare TreeShare) :
    iprop((bigSep Finset.univ fun s : Fin 20 => aLoc c ↦[RS c s \ lent c σ₁ q s]{q} accF m ρ c)
      ∗ bigSep (Rel q) (sendPay m ρ c)) ⊢ (aLoc c ↦{q} accF m ρ c : sProp 𝕄) := by
  rw [relays_at, ← pointsTo_biUnion (ℓ := aLoc c) Finset.univ (fun s => RS c s \ lent c σ₁ q s) fun s _ s' _ h =>
      Finset.disjoint_of_subset_left Finset.sdiff_subset (Finset.disjoint_of_subset_right Finset.sdiff_subset (RS_disjoint c s s' h)),
    ← pointsTo_biUnion (ℓ := aLoc c) (Rel q) (FS c) fun j hj j' hj' => FS_disjoint c q j j' hj hj']
  exact (pointsTo_union (rest_lent_disjoint c q)).2.trans (Entails.of_eq (by rw [rest_lent_cover]))

theorem acc_whole (c : Dev nD) :
    iprop((bigSep Finset.univ fun s : Fin 20 => aLoc c ↦[RS c s]{qC} accF m ρ c)
      ∗ (bigSep Finset.univ fun s : Fin 20 => aLoc c ↦[RS c s \ lent c σ₁ qA s]{qA} accF m ρ c)
      ∗ (bigSep Finset.univ fun s : Fin 20 => aLoc c ↦[RS c s \ lent c σ₁ qB s]{qB} accF m ρ c)
      ∗ bigSep (Finset.univ.filter fun j : Fin 20 => ¬ j.val < 6) (sendPay m ρ c))
    ⊢ (aLoc c ↦{fullShare} accF m ρ c : sProp 𝕄) := by
  rw [relays_split, show bigSep (Rel qA ∪ Rel qB) (sendPay m ρ c) = iprop(bigSep (Rel qA) (sendPay m ρ c) ∗ bigSep (Rel qB) (sendPay m ρ c)) from
      bigSep_union relays_disjoint, ← cut (ℓ := aLoc c) Finset.univ (RS c) (fun s _ s' _ => RS_disjoint c s s') (RS_cover c)]
  iintro ⟨HC, HA, HB, HRA, HRB⟩
  ihave HA' := (acc_share_whole m ρ c qA) $$ [HA HRA]
  · iframe
  ihave HB' := (acc_share_whole m ρ c qB) $$ [HB HRB]
  · iframe
  iapply (pointsTo_share (PosShare.mem_left_op_right fullShare)).2
  iframe HA'
  iapply (pointsTo_share (PosShare.mem_left_op_right fullShare.right)).2
  iframe

theorem sends_full (c : Dev nD) :
    (bigSep Finset.univ fun j => sendSt m ρ c σ₁ j)
      = iprop((bigSep (Finset.univ.filter fun j : Fin 20 => j.val < 6) (sendPay m ρ c)
          ∗ bigSep (Finset.univ.filter fun j : Fin 20 => ¬ j.val < 6) (sendPay m ρ c))
        ∗ bigSep Finset.univ fun j : Fin 20 => semVal (sendCell c j) 0) := by
  rw [bigSep_congr (Φ := fun j => sendSt m ρ c σ₁ j) (Ψ := fun j => iprop(sendPay m ρ c j ∗ semVal (sendCell c j) 0)) fun j _ => if_pos (Finset.mem_univ j), bigSep_sep',
    bigSep_filter_split Finset.univ (fun j : Fin 20 => j.val < 6) (Φ := sendPay m ρ c)]
  rfl

theorem recvs_full (c : Dev nD) :
    (bigSep Finset.univ fun j => recvSt m ρ c σ₁ j)
      = iprop((bigSep Finset.univ fun j : Fin 20 => semVal (recvCell c j) 0)
        ∗ (bigSep Finset.univ fun s : Fin 20 => aLoc c ↦[RS c s]{qC} accF m ρ c)
        ∗ (bigSep Finset.univ fun s : Fin 20 => aLoc c ↦[RS c s \ lent c σ₁ qA s]{qA} accF m ρ c)
        ∗ (bigSep Finset.univ fun s : Fin 20 => aLoc c ↦[RS c s \ lent c σ₁ qB s]{qB} accF m ρ c)) := by
  rw [← bigSep_sep', ← bigSep_sep', ← bigSep_sep']
  exact bigSep_congr fun j _ => if_pos (Finset.mem_univ j)

end Exit

open Exit

theorem exit_of_full (K : Dev nD × Fin 41 → ℕ) (c : Dev nD) (f0 : (cc0_stg1_0 : Ref sig .tc).ty.Contents (Elt F)) :
    iprop(St m ρ K c f0 σ₁ ∗ semVal (dCell c) 0) ⊢ |={Set.univ}=> bodyPost m ρ c := by
  unfold St
  rw [sends_full, recvs_full, Owed_full, outAt_full]
  iintro ⟨⟨#Hrec, ⟨%W, HO⟩, Hx, Hout, ⟨⟨HSx, HSf⟩, HzS⟩, HzR, HC, HA, HB⟩, HzD⟩
  imodintro
  unfold bodyPost Φ₁ Dat.owesAt Pipeline.owesWithin
  rw [show (dats m ρ 0 c).owed t₀.succ = 0 from rfl]
  isplitl [HSx HSf HzS HzR HC HA HB HzD]
  · isplitl [HSx]
    · iexists sbufF m ρ c
      iapply (scratch_whole m ρ c)
      iexact HSx
    isplitl [HSf HC HA HB]
    · iexists accF m ρ c
      iapply (acc_whole m ρ c)
      iframe
    rw [bigSep_sep']
    iframe
  isplitl [HO]
  · iexists W
    isplitr; · ipureintro; exact fun _ _ => Or.inl trivial
    iexact HO
  isplitl [Hx]
  · iexists _
    isplitr; · (ipureintro; rfl)
    iexact Hx
  iexists _
  isplitr; · (ipureintro; rfl)
  iexact Hout

end Cert.Kernel.Proved
end
-- ==== Proof.Bits.Entry.lean ====
import proofs.«900723_g7700000000000724_dist_ar_v7x_xyz2x4x4_x_m2048_n512_bf16_1_alg».proof.Proof.Bits.State
import proofs.«900723_g7700000000000724_dist_ar_v7x_xyz2x4x4_x_m2048_n512_bf16_1_alg».proof.Proof.Bits.MeshFacts
import proofs.«900723_g7700000000000724_dist_ar_v7x_xyz2x4x4_x_m2048_n512_bf16_1_alg».proof.Proof.Bits.Exit
import Idealize.ShloMosaic.Lib.Pipeline.Value

noncomputable section

namespace Cert.Kernel.Proved

open Cert.Kernel.Gen Cert.Kernel.Mesh Cert.Kernel.Sched Cert.Kernel.State

open Idealize.ShloMosaic
open Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem entry_bigSep_links (Φ : Fin 20 → sProp 𝕄) :
    bigSep Finset.univ Φ = iprop(bigSep (Finset.univ.filter fun j => link j = 0) Φ ∗ bigSep (Finset.univ.filter fun j => link j = 1) Φ
      ∗ bigSep (Finset.univ.filter fun j => link j = 2) Φ) := by
  rw [bigSep_filter_split Finset.univ (fun j : Fin 20 => link j = 0) (Φ := Φ),
    bigSep_filter_split (Finset.univ.filter fun j : Fin 20 => ¬ link j = 0) (fun j => link j = 1) (Φ := Φ),
    show ((Finset.univ.filter fun j : Fin 20 => ¬ link j = 0).filter fun j => link j = 1) = Finset.univ.filter fun j => link j = 1 from by decide,
    show ((Finset.univ.filter fun j : Fin 20 => ¬ link j = 0).filter fun j => ¬ link j = 1) = Finset.univ.filter fun j => link j = 2 from by decide]
  rfl

theorem entry_acc_cut (c : Dev nD) (f : Buf (Elt F) (aLoc c)) :
    (aLoc c ↦{fullShare} f : sProp 𝕄) = bigSep Finset.univ fun j : Fin 20 => aLoc c ↦[RS c j]{fullShare} f := by
  rw [← pointsTo_biUnion (ℓ := aLoc c) Finset.univ (RS c) fun j _ j' _ => RS_disjoint c j j', RS_cover]

theorem entry_L_tc (c : Dev nD) (sm : SemLoc sig) : L ((c : Thread nD τ), sm) = {()} := if_pos rfl

theorem entry_Owed_pos {c : Dev nD} {T : Finset (Fin 20)} {g : GSem nD τ sig} {u : Unit} (h : 0 < Owed c T g u) :
    ∃ j ∈ T, g = recvCell (nb (link j) c) j := by
  unfold Owed at h
  rw [Finset.sum_apply, Finsupp.finset_sum_apply] at h
  obtain ⟨j, hj, hpos⟩ := Finset.exists_ne_zero_of_sum_ne_zero (Nat.pos_iff_ne_zero.mp h)
  rw [tallyAt_apply] at hpos
  by_cases hg : g = recvCell (nb (link j) c) j ∧ u = ()
  · exact ⟨j, hj, hg.1⟩
  · rw [if_neg hg] at hpos; exact absurd rfl hpos

theorem entry_lvS_rsem (j : Fin 20) : 1 < lvS (rsem j) := by revert j; decide

theorem entry_mayWait (c : Dev nD) :
    (levAts L lv : sProp 𝕄) ⊢ MayWait (c : Thread nD τ) (.reg barS) () (Owed c Finset.univ) :=
  MayOwe.of_cut (L := L) (lev := lv) 1
    (fun p hp => by rw [Finset.mem_singleton.mp hp, entry_L_tc]; exact Finset.mem_singleton_self _)
    (fun g u hg => by obtain ⟨j, _, rfl⟩ := entry_Owed_pos hg; rw [entry_L_tc]; exact Finset.mem_singleton_self _)
    (fun p hp => by rw [Finset.mem_singleton.mp hp]; show (if barS = barS then 1 else 0) ≤ 1; rw [if_pos rfl])
    (fun g u hg => by obtain ⟨j, _, rfl⟩ := entry_Owed_pos hg; exact entry_lvS_rsem j)

theorem entry_pay1_apply (v : Vec F S512x512 .f32) (i : S512x512.Idx) : k0_pay1 v i = tr (v i) := by
  unfold k0_pay1; rw [shapeCast_self, shapeCast_self]; rfl
theorem entry_pay2_apply (v : Vec F S160x512 .f32) (i : S160x512.Idx) : k0_pay2 v i = tr (v i) := by
  unfold k0_pay2; rw [shapeCast_self, shapeCast_self]; rfl

theorem entry_ex_intro (c : Dev nD) (j : Fin 20) (fa : Buf (Elt F) (aLoc c)) :
    (aLoc c ↦[RS c j]{fullShare} fa : sProp 𝕄) ⊢ iprop(∃ f, aLoc c ↦[RS c j]{fullShare} f) := by
  iintro H; iexists fa; iexact H

theorem entry_give_l (c : Dev nD) (l : Fin 3) (fa : Buf (Elt F) (aLoc c)) :
    bigSep (Finset.univ.filter fun j : Fin 20 => link j = l) (fun j => (aLoc c ↦[RS c j]{fullShare} fa : sProp 𝕄)) ⊢ barPay (F := F) (nb l c) l := by
  unfold barPay; rw [nb_nb]
  exact bigSep_mono fun j _ => entry_ex_intro c j fa

theorem entry_give (c : Dev nD) (fa : Buf (Elt F) (aLoc c)) :
    (aLoc c ↦{fullShare} fa : sProp 𝕄) ⊢ iprop(barPay (F := F) (partner c) 0 ∗ barPay (ybud c) 1 ∗ barPay (zbud c) 2) := by
  rw [entry_acc_cut, entry_bigSep_links]
  exact BI.sep_mono (entry_give_l c 0 fa) (BI.sep_mono (entry_give_l c 1 fa) (entry_give_l c 2 fa))

theorem entry_take_l (c : Dev nD) (l : Fin 3) :
    barPay (F := F) c l = bigSep (Finset.univ.filter fun j : Fin 20 => link j = l)
      (fun j => iprop(∃ f, aLoc (nb (link j) c) ↦[RS (nb (link j) c) j]{fullShare} f)) := by
  unfold barPay
  exact bigSep_congr fun j hj => by rw [(Finset.mem_filter.mp hj).2]

theorem entry_take (c : Dev nD) :
    iprop(barPay (F := F) c 0 ∗ barPay c 1 ∗ barPay c 2)
      ⊢ bigSep Finset.univ fun j : Fin 20 => iprop(∃ f, aLoc (nb (link j) c) ↦[RS (nb (link j) c) j]{fullShare} f) := by
  rw [entry_bigSep_links]
  exact BI.sep_mono (Entails.of_eq (entry_take_l c 0)) (BI.sep_mono (Entails.of_eq (entry_take_l c 1)) (Entails.of_eq (entry_take_l c 2)))

theorem entry_toks3 (c : Dev nD) :
    (bigSep Finset.univ fun l : Fin 3 => (dutyTok ER (barCell (nb l c)) 0 l : sProp 𝕄))
      ⊢ iprop(dutyTok ER (barCell (partner c)) 0 0 ∗ dutyTok ER (barCell (ybud c)) 0 1 ∗ dutyTok ER (barCell (zbud c)) 0 2) := by
  rw [bigSep_univ_eq_bigSepL ([0, 1, 2] : List (Fin 3)) (by decide) (by decide), bigSepL_cons_cons, bigSepL_cons_cons, bigSepL_singleton]
  exact BI.Entails.refl _

theorem entry_inv (K : Dev nD × Fin 41 → ℕ) (e : Dev nD) :
    records m ρ K ⊢ iprop(cellInv ER (Rd m ρ) (K (e, 0)) (barCell e) ∗ reached ER (barCell e) 0) := by
  unfold records
  exact BI.sep_mono (bigSep_elim (Finset.mem_univ ((e, 0) : Dev nD × Fin 41)))
    ((BI.sep_and.trans BI.and_elimL).trans (bigSep_elim (Finset.mem_univ ((e, 0) : Dev nD × Fin 41))))

theorem entry_lev (K : Dev nD × Fin 41 → ℕ) : records m ρ K ⊢ (levAts L lv : sProp 𝕄) := by
  unfold records
  iintro ⟨-, -, #H⟩; iexact H

abbrev rA : Rect S672x512 := Rect.unit (s := S672x512) ![0, 0] S512x512.size inb_S672x512_S512x512_0_0
abbrev rB : Rect S672x512 := Rect.unit (s := S672x512) ![512, 0] S160x512.size inb_S672x512_S160x512_512_0

theorem entry_scr_filled (c : Dev nD) (fs : Buf (Elt F) (sLoc c)) :
    (sLoc c ↦{fullShare} (((sM : Memref sig .tc .vmem S672x512 .bf16).access rB).write (Elt F) (((sM : Memref sig .tc .vmem S672x512 .bf16).access rA).write (Elt F) fs (k0_pay1 ((xM : Memref sig .tc .vmem S2048x512 .f32).view.readAt (Elt F) (Rect.unit (s := S2048x512) (k0_off1 c) S512x512.size (k0_off1_inb c)).toLoadRect (xstg m ρ c))) Finset.univ) (k0_pay2 ((xM : Memref sig .tc .vmem S2048x512 .f32).view.readAt (Elt F) (Rect.unit (s := S2048x512) (k0_off2 c) S160x512.size (k0_off2_inb c)).toLoadRect (xstg m ρ c))) Finset.univ) : sProp 𝕄)
      ⊢ bigSep (Finset.univ.filter fun j : Fin 20 => j.val < 6) fun j => sLoc c ↦[SS j]{fullShare} sbufF m ρ c := by
  rw [← Exit.scr_cut]
  refine Entails.of_eq ?_
  congr 1
  funext i
  have hq : cq c ≤ 3 := by unfold cq py pz; omega
  have hd : cd c ≤ 3 := by unfold cd py pz; omega
  have e10 : k0_off1 c 0 = 512 * cq c := congrFun (off1_eq c) 0
  have e11 : k0_off1 c 1 = 0 := congrFun (off1_eq c) 1
  have e20 : k0_off2 c 0 = 512 * cd c := congrFun (off2_eq c) 0
  have e21 : k0_off2 c 1 = 0 := congrFun (off2_eq c) 1
  have hi0 : (i 0).val < 672 := (i 0).isLt
  have hi1 : (i 1).val < 512 := (i 1).isLt
  unfold sbufF
  by_cases hB : i ∈ ((sM : Memref sig .tc .vmem S672x512 .bf16).access rB).setOn Finset.univ
  · obtain ⟨y, -, hy⟩ := Finset.mem_map.mp hB
    have h0 : (i 0).val = 512 + 1 * (y 0).val := by rw [← hy]; rfl
    have h1 : (i 1).val = 0 + 1 * (y 1).val := by rw [← hy]; rfl
    conv_lhs => rw [← hy, View.write_emb_of_mem _ _ (Finset.mem_univ y)]
    show k0_pay2 _ y = _
    rw [entry_pay2_apply]
    refine congrArg tr (congrArg (xstg m ρ c) (funext fun a => Fin.ext ?_))
    match a with
    | ⟨0, _⟩ =>
      show k0_off2 c 0 + 1 * (y 0).val = (if (i 0).val < 512 then 512 * cq c + (i 0).val else 512 * cd c + ((i 0).val - 512)) % 2048
      rw [if_neg (by omega), e20]; omega
    | ⟨1, _⟩ =>
      show k0_off2 c 1 + 1 * (y 1).val = (i 1).val
      rw [e21, h1]
  · rw [View.write_of_not_mem _ _ _ hB]
    have hlt : (i 0).val < 512 := by
      rw [View.setOn_univ, View.set_slice_whole, Rect.mem_set_unit] at hB
      by_contra h
      exact hB (Fin.forall_fin_two.mpr ⟨⟨by show 512 ≤ (i 0).val; omega, by show (i 0).val < 512 + 160; omega⟩, Nat.zero_le _, (i 1).isLt⟩)
    have hA : i ∈ ((sM : Memref sig .tc .vmem S672x512 .bf16).access rA).setOn Finset.univ := by
      rw [View.setOn_univ, View.set_slice_whole, Rect.mem_set_unit]
      exact Fin.forall_fin_two.mpr ⟨⟨Nat.zero_le _, by show (i 0).val < 0 + 512; omega⟩, Nat.zero_le _, by show (i 1).val < 0 + 512; omega⟩
    obtain ⟨y, -, hy⟩ := Finset.mem_map.mp hA
    have h0 : (i 0).val = 0 + 1 * (y 0).val := by rw [← hy]; rfl
    have h1 : (i 1).val = 0 + 1 * (y 1).val := by rw [← hy]; rfl
    conv_lhs => rw [← hy, View.write_emb_of_mem _ _ (Finset.mem_univ y)]
    show k0_pay1 _ y = _
    rw [entry_pay1_apply]
    refine congrArg tr (congrArg (xstg m ρ c) (funext fun a => Fin.ext ?_))
    match a with
    | ⟨0, _⟩ =>
      show k0_off1 c 0 + 1 * (y 0).val = (if (i 0).val < 512 then 512 * cq c + (i 0).val else 512 * cd c + ((i 0).val - 512)) % 2048
      rw [if_pos hlt, e10]; omega
    | ⟨1, _⟩ =>
      show k0_off1 c 1 + 1 * (y 1).val = (i 1).val
      rw [e11, h1]

theorem entry_outAt_empty (c : Dev nD) (f0 : (cc0_stg1_0 : Ref sig .tc).ty.Contents (Elt F)) : outAt m ρ c ∅ f0 = f0 := by
  funext i
  unfold outAt
  rw [if_neg]
  rintro ⟨j, hj, -⟩
  exact absurd hj (Finset.notMem_empty j)

theorem entry_zip4 (A B C D : Fin 20 → sProp 𝕄) :
    BI.sep (bigSep Finset.univ A) (BI.sep (bigSep Finset.univ B) (BI.sep (bigSep Finset.univ C) (bigSep Finset.univ D)))
      = bigSep Finset.univ fun j => BI.sep (A j) (BI.sep (B j) (BI.sep (C j) (D j))) := by
  rw [bigSep_sep, bigSep_sep, bigSep_sep]

theorem entry_sendSt (c : Dev nD) :
    iprop((bigSep Finset.univ fun j : Fin 20 => iprop(dutyTok ER (sendCell c j) 0 0 ∗ dutyTok ER (recvCell (nb (link j) c) j) 0 0))
        ∗ (bigSep Finset.univ fun j : Fin 20 => atPos ER (sendCell c j) 0 ∅ 0)
        ∗ (bigSep Finset.univ fun j : Fin 20 => iprop(∃ f, aLoc (nb (link j) c) ↦[RS (nb (link j) c) j]{fullShare} f))
        ∗ (bigSep (Finset.univ.filter fun j : Fin 20 => j.val < 6) fun j => sLoc c ↦[SS j]{fullShare} sbufF m ρ c))
      ⊢ (bigSep Finset.univ fun j => sendSt m ρ c σ₀ j : sProp 𝕄) := by
  rw [bigSep_filter]
  refine (Entails.of_eq (entry_zip4 _ _ _ _)).trans (bigSep_mono fun j _ => ?_)
  simp only [sendSt, σ₀, Finset.notMem_empty, ↓reduceIte]
  exact BI.sep_assoc

theorem entry_recvSt (c : Dev nD) :
    iprop((bigSep Finset.univ fun j : Fin 20 => cred (tallyAt (recvCell c j) () (NJ j)))
        ∗ (bigSep Finset.univ fun j : Fin 20 => atPos ER (recvCell c j) 0 ∅ 0))
      ⊢ (bigSep Finset.univ fun j => recvSt m ρ c σ₀ j : sProp 𝕄) := by
  refine (Entails.of_eq (bigSep_sep _ _ _).symm).trans (bigSep_mono fun j _ => ?_)
  simp only [recvSt, σ₀, Finset.notMem_empty, ↓reduceIte]
  exact BI.Entails.refl _

theorem entry_rest (c : Dev nD) :
    bigSep ((Rd (F := F) m ρ).duties (barCell c) 0 \ ∅) (fun d => (Rd (F := F) m ρ).payload (barCell c) 0 d)
      ⊢ bigSep Finset.univ fun j : Fin 20 => iprop(∃ f, aLoc (nb (link j) c) ↦[RS (nb (link j) c) j]{fullShare} f) :=
  (Entails.of_eq (rest_bar m ρ c)).trans (entry_take c)

theorem part2 (K : Dev nD × Fin 41 → ℕ) (c : Dev nD) (v2 v5 v8 v12 v22 v26 v29 v32 v33 : BitVec 32) (Kt : BitVec 32 → sProp 𝕄) :
    iprop(bodyPre m ρ K c ∗ (∀ r, afterEntry m ρ K c -∗ Kt r))
      ⊢ wp frame (wpE (defs₀ (F := F)) 𝒱₀ (c : Thread nD τ) none) Set.univ
        (k0_part2_skel (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 c v2 v5 v8 v12 v22 v26 v29 (SemArray.scalar (sig.barrier 0 rfl)) v32 v33) Kt := by
  unfold k0_part2_skel
  simp only [semSignalWord, semWaitWord, Prog.lift, Prog.bind_op, Prog.bind_ret, Prog.pure_eq_ret]
  unfold bodyPre ghost positions payToks creds
  iintro ⟨⟨⟨⟨#Hrec, ⟨HatB, Hats⟩, ⟨HtB, Hts⟩⟩, ⟨HcB, Hcs⟩, Hd, ⟨%fs, Hs⟩, ⟨%fa, Ha⟩⟩, Ho, ⟨%d0, %g0, %hg0, Hx⟩, ⟨%d1, %g1, %hg1, Hout⟩⟩, Hk⟩
  have hx : g0 = xstg m ρ c := by
    rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc
    = Owed c Finset.univ + tallyAt (barCell (zbud c)) () 1 + tallyAt (barCell (ybud c)) () 1 + tallyAt (barCell (partner c)) () 1 from rfl]
  simp only [dev1_eq c, dev2_eq c, dev3_eq c]
  ihave #Hlev := (entry_lev m ρ K) $$ Hrec
  ihave #HB0 := (entry_inv m ρ K (partner c)) $$ Hrec
  ihave #HB1 := (entry_inv m ρ K (ybud c)) $$ Hrec
  ihave #HB2 := (entry_inv m ρ K (zbud c)) $$ Hrec
  ihave #HBc := (entry_inv m ρ K c) $$ Hrec
  icases HB0 with ⟨#HI0, #HR0⟩
  icases HB1 with ⟨#HI1, #HR1⟩
  icases HB2 with ⟨#HI2, #HR2⟩
  icases HBc with ⟨#HIc, -⟩
  ihave Hgive := (entry_give c fa) $$ Ha
  icases Hgive with ⟨Hp0, Hp1, Hp2⟩
  ihave Ht3 := (entry_toks3 c) $$ HtB
  icases Ht3 with ⟨Ht0, Ht1, Ht2⟩
  iapply (Rounds.wp_signal 𝒱₀ ER (Rd m ρ) (c : Thread nD τ) none (dst := (partner c : Thread nD τ)) (sem := barS) (κ := K (partner c, 0)) (r := 0)
      (d := (0 : Fin 3)) (by rw [duties_bar]; exact Finset.mem_univ _) ((amount_bar m ρ (partner c) 0).trans (by decide)) ()
      (Owed c Finset.univ + tallyAt (barCell (zbud c)) () 1 + tallyAt (barCell (ybud c)) () 1) rfl) $$ [HO Ht0 Hp0]
  · rw [payload_bar]; iframe HI0 HR0 Ht0 Hp0; iexact HO
  iintro HO
  iapply (Rounds.wp_signal 𝒱₀ ER (Rd m ρ) (c : Thread nD τ) none (dst := (ybud c : Thread nD τ)) (sem := barS) (κ := K (ybud c, 0)) (r := 0)
      (d := (1 : Fin 3)) (by rw [duties_bar]; exact Finset.mem_univ _) ((amount_bar m ρ (ybud c) 1).trans (by decide)) ()
      (Owed c Finset.univ + tallyAt (barCell (zbud c)) () 1) rfl) $$ [HO Ht1 Hp1]
  · rw [payload_bar]; iframe HI1 HR1 Ht1 Hp1; iexact HO
  iintro HO
  iapply (Rounds.wp_signal 𝒱₀ ER (Rd m ρ) (c : Thread nD τ) none (dst := (zbud c : Thread nD τ)) (sem := barS) (κ := K (zbud c, 0)) (r := 0)
      (d := (2 : Fin 3)) (by rw [duties_bar]; exact Finset.mem_univ _) ((amount_bar m ρ (zbud c) 2).trans (by decide)) ()
      (Owed c Finset.univ) rfl) $$ [HO Ht2 Hp2]
  · rw [payload_bar]; iframe HI2 HR2 Ht2 Hp2; iexact HO
  iintro HO
  iapply (Rounds.wp_wait_rest_token 𝒱₀ ER (Rd m ρ) (c : Thread nD τ) none (κ := K (c, 0))
      (wpE_semWait_eq 𝒱₀ (c : Thread nD τ) none Set.univ) (Set.mem_univ _) () (O := Owed c Finset.univ) (W := W) (R := 0) (m := 0) (T := ∅)
      (by rw [expect_bar]; decide)) $$ [HcB HO HatB]
  · iframe HIc HatB
    isplitl [HcB]; · iexact HcB
    isplitl [HO]; · iexact HO
    iapply (entry_mayWait c); iexact Hlev
  iintro ⟨HO, -, -, Hpay⟩
  ihave Hnb := (entry_rest m ρ c) $$ Hpay
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM) (r := rA) (Mk := Finset.univ) (Finset.subset_univ _)) $$ Hs; iintro Hs
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM) (r := rB) (Mk := Finset.univ) (Finset.subset_univ _)) $$ Hs; iintro Hs
  rw [wp_ret]; imodintro
  iapply Hk
  ihave Hscr6 := (entry_scr_filled m ρ c fs) $$ Hs
  ihave Hat2 := (Entails.of_eq (bigSep_sep' _ _ _)) $$ Hats
  icases Hat2 with ⟨HatS, HatR⟩
  unfold afterEntry St
  iexists g1
  rw [show (Finset.univ \ (σ₀ : Pg).S) = (Finset.univ : Finset (Fin 20)) from Finset.sdiff_empty, show (σ₀ : Pg).A = ∅ from rfl, entry_outAt_empty]
  iframe Hrec Hx Hout Hd
  isplitl [HO]; · iexists _; iexact HO
  isplitl [Hts HatS Hnb Hscr6]
  · iapply (entry_sendSt m ρ c); iframe
  · iapply (entry_recvSt m ρ c); iframe

end Cert.Kernel.Proved

end
-- ==== Proof.Bits.StepsMem.lean ====
import proofs.«900723_g7700000000000724_dist_ar_v7x_xyz2x4x4_x_m2048_n512_bf16_1_alg».proof.Proof.Bits.StepsWait
import Idealize.ShloMosaic.Lib.Pipeline.Value

noncomputable section

namespace Cert.Kernel.Proved

open Cert.Kernel.Gen Cert.Kernel.Mesh Cert.Kernel.Sched Cert.Kernel.State

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem setOn_acc (M : Finset S2048x512.Idx) :
    aM.view.setOn M = M := Finset.map_refl

theorem setOn_out_access (R : Rect S2048x512) :
    (oM.access R).setOn Finset.univ = R.set := by
  rw [View.setOn_univ, View.set_slice]
  exact Finset.map_refl

theorem rect_RS (c : Dev nD) (j : Fin 20) {n : ℕ} {off : Fin 2 → ℕ}
    (inb : ∀ a, off a + (![n, 512] : Fin 2 → ℕ) a ≤ S2048x512.size a)
    (hn : n = rrows j) (hoff : off = ![roff c j, 0]) :
    (Rect.unit (s := S2048x512) off ![n, 512] inb).set = RS c j := by
  subst hn hoff
  rw [rect_set_2048 _ _ inb rfl]
  rfl

/-- A vector cast to its own shape, rounded, plus a second vector: at every index the rounded element plus the other. -/
theorem round_add_apply {S : Shape} (h : S.ShapeCasts S) (a : Vec F S .f32) (b : Vec F S .bf16) :
    addf (truncf .bf16 (shapeCast S a h) bitsLt_bf16_f32) b
      = fun y => FloatOps.addf (FloatOps.truncf .bf16 bitsLt_bf16_f32 (a y)) (b y) := by
  rw [shapeCast_self]
  rfl

section Values
variable (c : Dev nD) (f0 : (cc0_stg1_0 : Ref sig .tc).ty.Contents (Elt F))

theorem outAt_of_mem (A : Finset (Fin 20)) {i : S2048x512.Idx} {j : Fin 20} (hj : j ∈ A) (hi : i ∈ RS c j) :
    outAt m ρ c A f0 i = outF m ρ c i := if_pos ⟨j, hj, hi⟩

theorem outAt_insert_of_not_mem (A : Finset (Fin 20)) {i : S2048x512.Idx} {j : Fin 20} (hi : i ∉ RS c j) :
    outAt m ρ c (insert j A) f0 i = outAt m ρ c A f0 i := by
  unfold outAt
  refine if_congr ⟨?_, fun ⟨j', hj', h⟩ => ⟨j', Finset.mem_insert_of_mem hj', h⟩⟩ rfl rfl
  rintro ⟨j', hj', h⟩
  rcases Finset.mem_insert.mp hj' with rfl | h'
  · exact absurd h hi
  · exact ⟨j', h', h⟩

/-- Writing, on the rows of slot j, the rounded rows of x plus the arrived rows makes those rows hold the result. -/
theorem store_value (A : Finset (Fin 20)) (j : Fin 20) {n : ℕ} {off : Fin 2 → ℕ}
    (inb : ∀ a, off a + (![n, 512] : Fin 2 → ℕ) a ≤ S2048x512.size a)
    (w : (Rect.unit (s := S2048x512) off ![n, 512] inb).shape.Idx → Elt F .bf16)
    (hn : n = rrows j) (hoff : off = ![roff c j, 0])
    (hw : ∀ y, w y = FloatOps.addf (tr (xM.view.readAt (Elt F) (Rect.unit (s := S2048x512) off ![n, 512] inb).toLoadRect (xstg m ρ c) y))
      (aM.view.readAt (Elt F) (Rect.unit (s := S2048x512) off ![n, 512] inb).toLoadRect (accF m ρ c) y)) :
    (oM.access (Rect.unit (s := S2048x512) off ![n, 512] inb)).write (Elt F) (outAt m ρ c A f0) w Finset.univ
      = outAt m ρ c (insert j A) f0 := by
  have hset := rect_RS c j inb hn hoff
  funext i
  by_cases hi : i ∈ (Rect.unit (s := S2048x512) off ![n, 512] inb).set
  · obtain ⟨y, rfl⟩ := (Rect.unit (s := S2048x512) off ![n, 512] inb).toLoadRect.exists_idx_of_mem hi
    refine (View.write_emb_of_mem (v := oM.access (Rect.unit (s := S2048x512) off ![n, 512] inb))
      (Val := Elt F) (outAt m ρ c A f0) w (M := Finset.univ) (x := y) (Finset.mem_univ y)).trans ?_
    rw [outAt_of_mem m ρ c f0 (insert j A) (Finset.mem_insert_self j A) (hset ▸ hi)]
    exact hw y
  · rw [View.write_of_not_mem _ _ _ (by rw [setOn_out_access]; exact hi)]
    exact (outAt_insert_of_not_mem m ρ c f0 A (hset ▸ hi)).symm

end Values

section Steps
variable {m} {ρ}
variable {K : Dev nD × Fin 41 → ℕ} {c : Dev nD} {f0 : (cc0_stg1_0 : Ref sig .tc).ty.Contents (Elt F)} {σ : Pg}

theorem step_load_x {α : Type} {Q : α → sProp 𝕄} {r : LoadRect S2048x512} {hl : xM.view.LoadsAt r}
    {k : (r.shape.Idx → Elt F .f32) → Prog (TpuEff nD τ sig (Elt F) Λ₀ .tc) α} :
    St m ρ K c f0 σ ⊢ iprop((St m ρ K c f0 σ -∗ wp frame (wpE (defs₀ (F := F)) 𝒱₀ (c : Thread nD τ) none) Set.univ
          (k (xM.view.readAt (Elt F) r (xstg m ρ c))) Q)
      -∗ wp frame (wpE (defs₀ (F := F)) 𝒱₀ (c : Thread nD τ) none) Set.univ (.op (.load xM r hl) k) Q) := by
  unfold St
  iintro ⟨#Hrec, HO, Hx, Hrest⟩ Hk
  iapply (wp_load 𝒱₀ (c : Thread nD τ) none Set.univ (m := xM) (r := r) (Finset.subset_univ _)) $$ Hx
  iintro Hx
  iapply Hk
  iframe Hrec HO Hx Hrest

/-- A load of an arrived slice of the accumulation buffer, its rectangle rrows j whole rows from row roff c j on. -/
theorem step_load_acc {α : Type} {Q : α → sProp 𝕄} (j : Fin 20) {n : ℕ} {off : Fin 2 → ℕ} {inb} {hl}
    {k : ((Rect.unit (s := S2048x512) off ![n, 512] inb).toLoadRect.shape.Idx → Elt F .bf16) → Prog (TpuEff nD τ sig (Elt F) Λ₀ .tc) α}
    (hoff : off = ![roff c j, 0]) (hj : j ∈ σ.R := by decide) (hn : n = rrows j := by rfl) :
    St m ρ K c f0 σ ⊢ iprop((St m ρ K c f0 σ -∗ wp frame (wpE (defs₀ (F := F)) 𝒱₀ (c : Thread nD τ) none) Set.univ
          (k (aM.view.readAt (Elt F) (Rect.unit (s := S2048x512) off ![n, 512] inb).toLoadRect (accF m ρ c))) Q)
      -∗ wp frame (wpE (defs₀ (F := F)) 𝒱₀ (c : Thread nD τ) none) Set.univ (.op (.load aM (Rect.unit (s := S2048x512) off ![n, 512] inb).toLoadRect hl) k) Q) := by
  unfold St
  iintro ⟨#Hrec, HO, Hx, Hout, Hsend, Hrecv⟩ Hk
  icases (bigSep_univ_update (Φ := fun j => recvSt m ρ c σ j) (Ψ := fun j => recvSt m ρ c σ j) j (fun _ _ => rfl)) $$ Hrecv with ⟨Hj, Hback⟩
  icases (Entails.of_eq (recvSt_waited j hj)) $$ Hj with ⟨Hz, HC, HA, HB⟩
  iapply (wp_load 𝒱₀ (c : Thread nD τ) none Set.univ (m := aM) (r := (Rect.unit (s := S2048x512) off ![n, 512] inb).toLoadRect) (S := RS c j) (q := qC)
    (by rw [setOn_acc]; exact (rect_RS c j inb hn hoff).subset)) $$ HC
  iintro HC
  iapply Hk
  iframe Hrec HO Hx Hout Hsend
  iapply Hback
  rw [recvSt_waited j hj]
  iframe Hz HC HA HB

theorem step_load_out {α : Type} {Q : α → sProp 𝕄} {r : LoadRect S2048x512} {hl : oM.view.LoadsAt r}
    {k : (r.shape.Idx → Elt F .bf16) → Prog (TpuEff nD τ sig (Elt F) Λ₀ .tc) α} :
    St m ρ K c f0 σ ⊢ iprop((St m ρ K c f0 σ -∗ wp frame (wpE (defs₀ (F := F)) 𝒱₀ (c : Thread nD τ) none) Set.univ
          (k (oM.view.readAt (Elt F) r (outAt m ρ c σ.A f0))) Q)
      -∗ wp frame (wpE (defs₀ (F := F)) 𝒱₀ (c : Thread nD τ) none) Set.univ (.op (.load oM r hl) k) Q) := by
  unfold St
  iintro ⟨#Hrec, HO, Hx, Hout, Hrest⟩ Hk
  iapply (wp_load 𝒱₀ (c : Thread nD τ) none Set.univ (m := oM) (r := r) (Finset.subset_univ _)) $$ Hout
  iintro Hout
  iapply Hk
  iframe Hrec HO Hx Hout Hrest

/-- The store of slot j's rows of the result: the rounded rows of x plus the arrived rows. -/
theorem step_store_out {α : Type} {Q : α → sProp 𝕄} (j : Fin 20) {n : ℕ} {off : Fin 2 → ℕ} {inb} {hx} {hm} {hS}
    {k : PUnit → Prog (TpuEff nD τ sig (Elt F) Λ₀ .tc) α}
    (hoff : off = ![roff c j, 0]) (hj : j ∉ σ.A := by decide) (hn : n = rrows j := by rfl) :
    St m ρ K c f0 σ ⊢ iprop((St m ρ K c f0 { σ with A := insert j σ.A } -∗ wp frame (wpE (defs₀ (F := F)) 𝒱₀ (c : Thread nD τ) none) Set.univ (k ⟨⟩) Q)
      -∗ wp frame (wpE (defs₀ (F := F)) 𝒱₀ (c : Thread nD τ) none) Set.univ
        (.op (.store oM (Rect.unit (s := S2048x512) off ![n, 512] inb)
          (addf (truncf .bf16 (shapeCast (Rect.unit (s := S2048x512) off ![n, 512] inb).shape (xM.view.readAt (Elt F) (Rect.unit (s := S2048x512) off ![n, 512] inb).toLoadRect (xstg m ρ c)) hS) bitsLt_bf16_f32)
            (aM.view.readAt (Elt F) (Rect.unit (s := S2048x512) off ![n, 512] inb).toLoadRect (accF m ρ c)))
          Finset.univ hx hm) k) Q) := by
  unfold St
  iintro ⟨#Hrec, HO, Hx, Hout, Hsend, Hrecv⟩ Hk
  iapply (wp_store 𝒱₀ (c : Thread nD τ) none Set.univ (m := oM) (r := (Rect.unit (s := S2048x512) off ![n, 512] inb))
    (Mk := Finset.univ) (Finset.subset_univ _)) $$ Hout
  iintro Hout
  rw [store_value m ρ c f0 σ.A j inb _ hn hoff (congrFun (round_add_apply hS _ _))]
  iapply Hk
  iframe Hrec HO Hx Hout
  isplitl [Hsend]; · iexact Hsend
  iexact Hrecv

end Steps

end Cert.Kernel.Proved

end
-- ==== Proof.Bits.StepsSend.lean ====
import proofs.«900723_g7700000000000724_dist_ar_v7x_xyz2x4x4_x_m2048_n512_bf16_1_alg».proof.Proof.Bits.StepsWait
import Idealize.ShloMosaic.Lib.Pipeline.Value

noncomputable section

namespace Cert.Kernel.Proved

open Cert.Kernel.Mesh Cert.Kernel.Sched Cert.Kernel.State

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

namespace Send

def srcDevQ (c : Dev nD) (q : Nat) (b : Bool) : Dev nD :=
  if q = cq c then partner c
  else if q = cy c then partner (ybud c)
  else if q = cz c then partner (zbud c)
  else if b = true then partner c else partner (zbud (ybud c))

theorem srcDev_eq_Q (c : Dev nD) (r : Nat) : srcDev c r = srcDevQ c (r / 512) (decide (r % 512 < 160)) := by
  unfold srcDev srcDevQ
  simp only [decide_eq_true_eq]

theorem srcQ_send_x : ∀ (c : Dev nD) (j : Fin 20), j.val < 6 →
    roff (partner c) j % 512 + rrows j ≤ 512 ∧
    ∀ b : Bool, (b = decide (roff (partner c) j % 512 < 160) ∨ (roff (partner c) j % 512 < 160 ∧ 160 < roff (partner c) j % 512 + rrows j)) →
      srcDevQ (partner c) (roff (partner c) j / 512) b = c := by
  decide

theorem srcDev_send_x (c : Dev nD) (j : Fin 20) (hj : j.val < 6) (t : Nat) (ht : t < rrows j) :
    srcDev (partner c) (roff (partner c) j + t) = c := by
  obtain ⟨h1, h2⟩ := srcQ_send_x c j hj
  rw [srcDev_eq_Q]
  have hq : (roff (partner c) j + t) / 512 = roff (partner c) j / 512 := by omega
  rw [hq]
  apply h2
  by_cases hb : roff (partner c) j % 512 < 160 ∧ 160 < roff (partner c) j % 512 + rrows j
  · exact Or.inr hb
  · left
    congr 1
    apply propext
    constructor <;> intro h <;> omega

theorem row_send_x (c : Dev nD) (j : Fin 20) (hj : j.val < 6) (t : Nat) (ht : t < rrows j) :
    (if soff j + t < 512 then 512 * cq c + (soff j + t) else 512 * cd c + (soff j + t - 512)) % 2048 = roff (partner c) j + t := by
  have hA : ∀ (c : Dev nD) (j : Fin 20), j.val < 6 →
      soff j + rrows j ≤ 672 ∧ (soff j < 512 → soff j + rrows j ≤ 512 ∧ roff (partner c) j = 512 * cq c + soff j) ∧
      (512 ≤ soff j → soff j = 512 ∧ roff (partner c) j = 512 * cd c) ∧ roff (partner c) j + rrows j ≤ 2048 := by decide
  obtain ⟨h0, h1, h2, h3⟩ := hA c j hj
  by_cases hs : soff j < 512
  · obtain ⟨h1a, h1b⟩ := h1 hs
    rw [if_pos (by omega), h1b]
    rw [h1b] at h3
    omega
  · obtain ⟨h2a, h2b⟩ := h2 (by omega)
    rw [if_neg (by omega), h2b]
    rw [h2b] at h3
    omega

theorem srcQ_send_f : ∀ (c : Dev nD) (j : Fin 20), 6 ≤ j.val →
    foff c j % 512 + rrows j ≤ 512 ∧
    ∀ b : Bool, (b = decide (foff c j % 512 < 160) ∨ (foff c j % 512 < 160 ∧ 160 < foff c j % 512 + rrows j)) →
      srcDevQ (nb (link j) c) (foff c j / 512) b = srcDevQ c (foff c j / 512) b := by
  decide

theorem srcDev_send_f (c : Dev nD) (j : Fin 20) (hj : 6 ≤ j.val) (t : Nat) (ht : t < rrows j) :
    srcDev (nb (link j) c) (foff c j + t) = srcDev c (foff c j + t) := by
  obtain ⟨h1, h2⟩ := srcQ_send_f c j hj
  rw [srcDev_eq_Q, srcDev_eq_Q]
  have hq : (foff c j + t) / 512 = foff c j / 512 := by omega
  rw [hq]
  apply h2
  by_cases hb : foff c j % 512 < 160 ∧ 160 < foff c j % 512 + rrows j
  · exact Or.inr hb
  · left
    congr 1
    apply propext
    constructor <;> intro h <;> omega

theorem qA_ne_qB : (qA : PosShare TreeShare) ≠ qB := by decide

/-- Two relays that borrow the same share of the same arrival slot are the same relay. -/
theorem relay_inj : ∀ (j j' : Fin 20), 6 ≤ j.val → 6 ≤ j'.val → fsrc j' = fsrc j → fsh j' = fsh j → j' = j := by decide

section Bookkeeping
variable (c : Dev nD) (σ : Pg) (j : Fin 20)

theorem lent_insert (q : PosShare TreeShare) (j0 : Fin 20) :
    lent c { σ with S := insert j σ.S } q j0
      = if 6 ≤ j.val ∧ fsrc j = j0 ∧ fsh j = q then FS c j ∪ lent c σ q j0 else lent c σ q j0 := by
  unfold lent
  show ((insert j σ.S).filter _).biUnion (FS c) = _
  rw [Finset.filter_insert]
  by_cases h : 6 ≤ j.val ∧ fsrc j = j0 ∧ fsh j = q
  · rw [if_pos h, if_pos h, Finset.biUnion_insert]
  · rw [if_neg h, if_neg h]

theorem lent_insert_of_not (q : PosShare TreeShare) (j0 : Fin 20) (h : ¬ (6 ≤ j.val ∧ fsrc j = j0 ∧ fsh j = q)) :
    lent c { σ with S := insert j σ.S } q j0 = lent c σ q j0 := by
  rw [lent_insert, if_neg h]

theorem recvSt_other (j0 : Fin 20) (h : ¬ (6 ≤ j.val ∧ fsrc j = j0)) :
    recvSt m ρ c { σ with S := insert j σ.S } j0 = recvSt m ρ c σ j0 := by
  unfold recvSt
  rw [lent_insert_of_not c σ j qA j0 (fun hh => h ⟨hh.1, hh.2.1⟩), lent_insert_of_not c σ j qB j0 (fun hh => h ⟨hh.1, hh.2.1⟩)]

theorem lent_fresh (hj6 : 6 ≤ j.val) (hjS : j ∉ σ.S) : lent c σ (fsh j) (fsrc j) = ∅ := by
  unfold lent
  apply Finset.eq_empty_of_forall_notMem
  intro i hi
  rw [Finset.mem_biUnion] at hi
  obtain ⟨j', hj', -⟩ := hi
  rw [Finset.mem_filter] at hj'
  obtain ⟨hS, h6, hsrc, hsh⟩ := hj'
  have := relay_inj j j' hj6 h6 hsrc hsh
  subst this
  exact absurd hS hjS

end Bookkeeping

section Lend
variable (c : Dev nD) (σ : Pg) (j : Fin 20)

theorem lend_part (hj6 : 6 ≤ j.val) (hjS : j ∉ σ.S) (q : PosShare TreeShare) (hq : fsh j = q) :
    (aLoc c ↦[RS c (fsrc j) \ lent c σ q (fsrc j)]{q} accF m ρ c : sProp 𝕄)
      ⊢ iprop((aLoc c ↦[FS c j]{q} accF m ρ c) ∗ (aLoc c ↦[RS c (fsrc j) \ lent c { σ with S := insert j σ.S } q (fsrc j)]{q} accF m ρ c)) := by
  have h0 : lent c σ q (fsrc j) = ∅ := by rw [← hq]; exact lent_fresh c σ j hj6 hjS
  rw [lent_insert, if_pos ⟨hj6, rfl, hq⟩, h0, Finset.union_empty, Finset.sdiff_empty]
  exact (pointsTo_split_subset (FS_subset c j hj6)).1

theorem keep_part (q : PosShare TreeShare) (hq : fsh j ≠ q) :
    lent c { σ with S := insert j σ.S } q (fsrc j) = lent c σ q (fsrc j) :=
  lent_insert_of_not c σ j q (fsrc j) (fun h => hq h.2.2)

theorem recvSt_lend (hj6 : 6 ≤ j.val) (hjS : j ∉ σ.S) (hR : fsrc j ∈ σ.R) :
    recvSt m ρ c σ (fsrc j)
      ⊢ iprop((aLoc c ↦[FS c j]{fsh j} accF m ρ c) ∗ recvSt m ρ c { σ with S := insert j σ.S } (fsrc j)) := by
  have hR' : fsrc j ∈ ({ σ with S := insert j σ.S } : Pg).R := hR
  unfold recvSt
  rw [if_pos hR, if_pos hR']
  by_cases h : 13 ≤ j.val ∧ j.val ≤ 17
  · have hq : fsh j = qB := if_pos h
    have hne : fsh j ≠ qA := by rw [hq]; exact fun e => qA_ne_qB e.symm
    rw [keep_part c σ j qA hne, hq]
    iintro ⟨Hv, HC, HA, HB⟩
    ihave H := (lend_part m ρ c σ j hj6 hjS qB hq) $$ HB
    icases H with ⟨HF, HB⟩
    iframe HF Hv HC HA HB
  · have hq : fsh j = qA := if_neg h
    have hne : fsh j ≠ qB := by rw [hq]; exact qA_ne_qB
    rw [keep_part c σ j qB hne, hq]
    iintro ⟨Hv, HC, HA, HB⟩
    ihave H := (lend_part m ρ c σ j hj6 hjS qA hq) $$ HA
    icases H with ⟨HF, HA⟩
    iframe HF Hv HC HA HB

end Lend

theorem set_stage_slice (j : Fin 20) (sinb) (hs) :
    (sM.slice (Rect.unit (s := S672x512) ![Mesh.soff j, 0] ![rrows j, 512] sinb) hs).view.set = SS j := by
  refine (View.set_slice_whole (cc0_scratch0 : Ref sig .tc) (Rect.unit (s := S672x512) ![Mesh.soff j, 0] ![rrows j, 512] sinb)).trans ?_
  exact rect_set_672 _ _ _ rfl
theorem set_acc_slice (lo : Nat) (j : Fin 20) (dinb) (hd') :
    (aM.slice (Rect.unit (s := S2048x512) ![lo, 0] ![rrows j, 512] dinb) hd').view.set = rows2048 lo (rrows j) := by
  refine (View.set_slice_whole (cc0_scratch1 : Ref sig .tc) (Rect.unit (s := S2048x512) ![lo, 0] ![rrows j, 512] dinb)).trans ?_
  exact rect_set_2048 _ _ _ rfl

theorem emb_acc_slice (lo n : Nat) (dinb) (hd') (y) (a) :
    (((aM.slice (Rect.unit (s := S2048x512) ![lo, 0] ![n, 512] dinb) hd').view.emb y) a).val
      = (![lo, 0] : Fin 2 → ℕ) a + (y a).val := by
  show (![lo, 0] : Fin 2 → ℕ) a + 1 * (y a).val = _
  rw [Nat.one_mul]
theorem emb_stage_slice (lo n : Nat) (sinb) (hs) (y) (a) :
    (((sM.slice (Rect.unit (s := S672x512) ![lo, 0] ![n, 512] sinb) hs).view.emb y) a).val
      = (![lo, 0] : Fin 2 → ℕ) a + (y a).val := by
  show (![lo, 0] : Fin 2 → ℕ) a + 1 * (y a).val = _
  rw [Nat.one_mul]

theorem link_x (j : Fin 20) (hj6 : j.val < 6) : link j = 0 := by unfold link; rw [if_pos hj6]
theorem nb_link_x (c : Dev nD) (j : Fin 20) (hj6 : j.val < 6) : nb (link j) c = partner c := by rw [link_x j hj6]; rfl

theorem landed_x (c e : Dev nD) (he : e = partner c) (j : Fin 20) (hj6 : j.val < 6) (sinb) (hs) (dinb) (hd')
    (fd : (cc0_scratch1 : Ref sig .tc).ty.Contents (Elt F)) :
    ∀ i ∈ RS e j,
      (aM.slice (Rect.unit (s := S2048x512) ![roff e j, 0] ![rrows j, 512] dinb) hd').view.write (Elt F) fd
        ((sM.slice (Rect.unit (s := S672x512) ![Mesh.soff j, 0] ![rrows j, 512] sinb) hs).view.read (Elt F) (sbufF m ρ c))
        Finset.univ i = accF m ρ e i := by
  subst he
  intro i hi
  have hi' : i ∈ (aM.slice (Rect.unit (s := S2048x512) ![roff (partner c) j, 0] ![rrows j, 512] dinb) hd').view.set := by
    rw [set_acc_slice]; exact hi
  obtain ⟨y, rfl⟩ := View.exists_emb_of_mem_set _ hi'
  rw [View.write_emb_of_mem _ _ (Finset.mem_univ y), View.read_apply, cast_cast, cast_eq]
  have hy0 : (y 0).val < rrows j := (y 0).isLt
  have hd0 := emb_acc_slice (roff (partner c) j) (rrows j) dinb hd' y 0
  have hd1 := emb_acc_slice (roff (partner c) j) (rrows j) dinb hd' y 1
  have hs0 := emb_stage_slice (Mesh.soff j) (rrows j) sinb hs y 0
  have hs1 := emb_stage_slice (Mesh.soff j) (rrows j) sinb hs y 1
  unfold accF sbufF
  rw [hd0]
  show _ = tr (xstg m ρ (srcDev (partner c) (roff (partner c) j + (y 0).val)) _)
  rw [srcDev_send_x c j hj6 _ hy0]
  congr 2
  refine funext (Fin.forall_fin_two.mpr ⟨?_, ?_⟩)
  · apply Fin.ext
    show (if _ < 512 then _ else _) % 2048 = _
    rw [hs0, hd0]
    exact row_send_x c j hj6 _ hy0
  · apply Fin.ext
    show _ = _
    rw [hs1, hd1]
    rfl

theorem landed_f (c e : Dev nD) (j : Fin 20) (he : e = nb (link j) c) (hj6 : 6 ≤ j.val) (sinb) (hs) (dinb) (hd')
    (fd : (cc0_scratch1 : Ref sig .tc).ty.Contents (Elt F)) :
    ∀ i ∈ RS e j,
      (aM.slice (Rect.unit (s := S2048x512) ![roff e j, 0] ![rrows j, 512] dinb) hd').view.write (Elt F) fd
        ((aM.slice (Rect.unit (s := S2048x512) ![foff c j, 0] ![rrows j, 512] sinb) hs).view.read (Elt F) (accF m ρ c))
        Finset.univ i = accF m ρ e i := by
  intro i hi
  have hi' : i ∈ (aM.slice (Rect.unit (s := S2048x512) ![roff e j, 0] ![rrows j, 512] dinb) hd').view.set := by
    rw [set_acc_slice]; exact hi
  obtain ⟨y, rfl⟩ := View.exists_emb_of_mem_set _ hi'
  rw [View.write_emb_of_mem _ _ (Finset.mem_univ y), View.read_apply, cast_cast, cast_eq]
  have hy0 : (y 0).val < rrows j := (y 0).isLt
  have hd0 := emb_acc_slice (roff e j) (rrows j) dinb hd' y 0
  have hd1 := emb_acc_slice (roff e j) (rrows j) dinb hd' y 1
  have hs0 := emb_acc_slice (foff c j) (rrows j) sinb hs y 0
  have hs1 := emb_acc_slice (foff c j) (rrows j) sinb hs y 1
  have hfr : roff e j = foff c j := by rw [he]; exact (foff_eq_roff c j hj6).symm
  have hidx : (aM.slice (Rect.unit (s := S2048x512) ![foff c j, 0] ![rrows j, 512] sinb) hs).view.emb y
      = (aM.slice (Rect.unit (s := S2048x512) ![roff e j, 0] ![rrows j, 512] dinb) hd').view.emb y := by
    refine funext (Fin.forall_fin_two.mpr ⟨?_, ?_⟩)
    · apply Fin.ext
      rw [hs0, hd0]
      show foff c j + _ = roff e j + _
      omega
    · apply Fin.ext
      rw [hs1, hd1]
      rfl
  rw [hidx]
  unfold accF
  rw [hd0]
  show tr (xstg m ρ (srcDev c (roff e j + (y 0).val)) _) = tr (xstg m ρ (srcDev e (roff e j + (y 0).val)) _)
  have hsd : ∀ t, t < rrows j → srcDev c (roff e j + t) = srcDev e (roff e j + t) := by
    intro t ht
    rw [hfr, he]; exact (srcDev_send_f c j hj6 t ht).symm
  rw [hsd _ hy0]

theorem owed_split (c : Dev nD) (σ : Pg) (j : Fin 20) (hjS : j ∉ σ.S) :
    Owed c (Finset.univ \ σ.S) = Owed c ((Finset.univ \ σ.S).erase j) + tallyAt (recvCell (nb (link j) c) j) () (NJ j) := by
  unfold Owed
  exact (Finset.sum_erase_add _ _ (Finset.mem_sdiff.mpr ⟨Finset.mem_univ j, hjS⟩)).symm
theorem owed_after (c : Dev nD) (σ : Pg) (j : Fin 20) :
    Owed c (Finset.univ \ insert j σ.S) = Owed c ((Finset.univ \ σ.S).erase j) := by
  rw [Finset.sdiff_insert]

abbrev stageSl (j : Fin 20) (sinb : ∀ a, (![Mesh.soff j, 0] : Fin 2 → ℕ) a + (![rrows j, 512] : Fin 2 → ℕ) a ≤ S672x512.size a)
    (hs : ∀ a, (Rect.unit (s := S672x512) ![Mesh.soff j, 0] ![rrows j, 512] sinb).stride a = 1) :
    Memref sig .tc .vmem (Rect.unit (s := S672x512) ![Mesh.soff j, 0] ![rrows j, 512] sinb).shape .bf16 :=
  sM.slice (Rect.unit (s := S672x512) ![Mesh.soff j, 0] ![rrows j, 512] sinb) hs
abbrev accSl (lo : Nat) (j : Fin 20) (dinb : ∀ a, (![lo, 0] : Fin 2 → ℕ) a + (![rrows j, 512] : Fin 2 → ℕ) a ≤ S2048x512.size a)
    (hd' : ∀ a, (Rect.unit (s := S2048x512) ![lo, 0] ![rrows j, 512] dinb).stride a = 1) :
    Memref sig .tc .vmem (Rect.unit (s := S2048x512) ![lo, 0] ![rrows j, 512] dinb).shape .bf16 :=
  aM.slice (Rect.unit (s := S2048x512) ![lo, 0] ![rrows j, 512] dinb) hd'

theorem amount_accSl (lo : Nat) (j : Fin 20) (dinb) (hd') (s : DmaSem sig) : (accSl lo j dinb hd').view.amount (.dma s) = NJ j := rfl

section Steps
variable (K : Dev nD × Fin 41 → ℕ) (c : Dev nD) (f0 : (cc0_stg1_0 : Ref sig .tc).ty.Contents (Elt F)) (σ : Pg)

theorem pay_send_x (j : Fin 20) (hj6 : j.val < 6) (sinb) (hs) :
    ((stageSl j sinb hs).view.loc (c : Thread nD τ) ↦[(stageSl j sinb hs).view.set]{fullShare} sbufF m ρ c)
      ⊢ (Rd m ρ).payload (sendCell c j) 0 0 := by
  rw [payload_send]; unfold sendPay; rw [if_pos hj6, set_stage_slice]

theorem pay_recv_x (j : Fin 20) (hj6 : j.val < 6) (sinb) (hs) (dinb) (hd') (fd : (cc0_scratch1 : Ref sig .tc).ty.Contents (Elt F)) :
    ((accSl (roff (nb (link j) c) j) j dinb hd').view.loc (Dev.tc (nb (link j) c) : Thread nD τ)
        ↦[(accSl (roff (nb (link j) c) j) j dinb hd').view.set]{fullShare}
          ((accSl (roff (nb (link j) c) j) j dinb hd').view.write (Elt F) fd ((stageSl j sinb hs).view.read (Elt F) (sbufF m ρ c)) Finset.univ))
      ⊢ (Rd m ρ).payload (recvCell (nb (link j) c) j) 0 0 := by
  rw [payload_recv]; unfold recvPay
  rw [set_acc_slice]
  have h := landed_x m ρ c (nb (link j) c) (nb_link_x c j hj6) j hj6 sinb hs dinb hd' fd
  exact Entails.of_eq (pointsTo_congr (ℓ := aLoc (nb (link j) c)) (I := RS (nb (link j) c) j) (q := fullShare)
    (f := (accSl (roff (nb (link j) c) j) j dinb hd').view.write (Elt F) fd ((stageSl j sinb hs).view.read (Elt F) (sbufF m ρ c)) Finset.univ)
    (g := accF m ρ (nb (link j) c)) h)

end Steps

section Steps2
variable (K : Dev nD × Fin 41 → ℕ) (c : Dev nD) (f0 : (cc0_stg1_0 : Ref sig .tc).ty.Contents (Elt F)) (σ : Pg)

theorem wp_send_x_rule {α : Type} {Q : α → sProp 𝕄} (j : Fin 20) (hj6 : j.val < 6) (hjS : j ∉ σ.S)
    {sinb} {dinb} {hs} {hd'} {hsc} {hsrc} {hdst} {hsem}
    {k : PUnit → Prog (TpuEff nD τ sig (Elt F) Λ₀ .tc) α}
    (fd : (cc0_scratch1 : Ref sig .tc).ty.Contents (Elt F)) (W : Waits sig Unit) :
    iprop(cellInv ER (Rd m ρ) (K (c, sIx j)) (sendCell c j) ∗ cellInv ER (Rd m ρ) (K (nb (link j) c, rIx j)) (recvCell (nb (link j) c) j)
        ∗ (sLoc c ↦[SS j]{fullShare} sbufF m ρ c) ∗ (aLoc (nb (link j) c) ↦[RS (nb (link j) c) j]{fullShare} fd)
        ∗ owes (c : Thread nD τ) (Owed c (Finset.univ \ σ.S)) W
        ∗ dutyTok ER (sendCell c j) 0 0 ∗ reached ER (sendCell c j) 0
        ∗ dutyTok ER (recvCell (nb (link j) c) j) 0 0 ∗ reached ER (recvCell (nb (link j) c) j) 0)
      ⊢ iprop(((cred (tallyAt (sendCell c j) () (NJ j)) ∗ owes (c : Thread nD τ) (Owed c ((Finset.univ \ σ.S).erase j)) W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (stageSl j sinb hs)
              (.remote (Dev.tc (nb (link j) c) : Thread nD τ) (accSl (roff (nb (link j) c) j) j dinb hd') (.dma (ssem j)) hsc)
              (.dma (rsem j)) hsrc hdst hsem) k) Q) := by
  rw [← set_stage_slice j sinb hs, show RS (nb (link j) c) j = _ from (set_acc_slice (roff (nb (link j) c) j) j dinb hd').symm]
  exact Rounds.wp_send_pointsTo 𝒱₀ ER (Rd m ρ) (c : Thread nD τ) none
    (c' := (Dev.tc (nb (link j) c) : Thread nD τ))
    (src := stageSl j sinb hs) (dst := accSl (roff (nb (link j) c) j) j dinb hd')
    (q := fullShare) (fs := sbufF m ρ c) (fd := fd)
    (κ₁ := K (c, sIx j)) (κ₂ := K (nb (link j) c, rIx j)) (r₁ := 0) (r₂ := 0) (d₁ := 0) (d₂ := 0)
    (by rw [duties_send]; exact Finset.mem_singleton_self _) (by rw [duties_recv]; exact Finset.mem_singleton_self _)
    () () (NJ j) (amount_accSl _ j dinb hd' (rsem j)) (amount_send m ρ c j 0) (amount_recv m ρ (nb (link j) c) j 0)
    (Owed c ((Finset.univ \ σ.S).erase j)) (owed_split c σ j hjS) (W := W)
    (pay_send_x m ρ c j hj6 sinb hs) (pay_recv_x m ρ c j hj6 sinb hs dinb hd' fd)

end Steps2

section Steps3
variable (K : Dev nD × Fin 41 → ℕ) (c : Dev nD) (f0 : (cc0_stg1_0 : Ref sig .tc).ty.Contents (Elt F)) (σ : Pg)

theorem pay_send_f (j : Fin 20) (hj6 : 6 ≤ j.val) (sinb) (hs) :
    ((accSl (foff c j) j sinb hs).view.loc (c : Thread nD τ) ↦[(accSl (foff c j) j sinb hs).view.set]{fsh j} accF m ρ c)
      ⊢ (Rd m ρ).payload (sendCell c j) 0 0 := by
  rw [payload_send]; unfold sendPay; rw [if_neg (by omega), set_acc_slice]
  exact .rfl

theorem pay_recv_f (j : Fin 20) (hj6 : 6 ≤ j.val) (sinb) (hs) (dinb) (hd') (fd : (cc0_scratch1 : Ref sig .tc).ty.Contents (Elt F)) :
    ((accSl (roff (nb (link j) c) j) j dinb hd').view.loc (Dev.tc (nb (link j) c) : Thread nD τ)
        ↦[(accSl (roff (nb (link j) c) j) j dinb hd').view.set]{fullShare}
          ((accSl (roff (nb (link j) c) j) j dinb hd').view.write (Elt F) fd ((accSl (foff c j) j sinb hs).view.read (Elt F) (accF m ρ c)) Finset.univ))
      ⊢ (Rd m ρ).payload (recvCell (nb (link j) c) j) 0 0 := by
  rw [payload_recv]; unfold recvPay
  rw [set_acc_slice]
  have h := landed_f m ρ c (nb (link j) c) j rfl hj6 sinb hs dinb hd' fd
  exact Entails.of_eq (pointsTo_congr (ℓ := aLoc (nb (link j) c)) (I := RS (nb (link j) c) j) (q := fullShare)
    (f := (accSl (roff (nb (link j) c) j) j dinb hd').view.write (Elt F) fd ((accSl (foff c j) j sinb hs).view.read (Elt F) (accF m ρ c)) Finset.univ)
    (g := accF m ρ (nb (link j) c)) h)

theorem wp_send_f_rule {α : Type} {Q : α → sProp 𝕄} (j : Fin 20) (hj6 : 6 ≤ j.val) (hjS : j ∉ σ.S)
    {sinb} {dinb} {hs} {hd'} {hsc} {hsrc} {hdst} {hsem}
    {k : PUnit → Prog (TpuEff nD τ sig (Elt F) Λ₀ .tc) α}
    (fd : (cc0_scratch1 : Ref sig .tc).ty.Contents (Elt F)) (W : Waits sig Unit) :
    iprop(cellInv ER (Rd m ρ) (K (c, sIx j)) (sendCell c j) ∗ cellInv ER (Rd m ρ) (K (nb (link j) c, rIx j)) (recvCell (nb (link j) c) j)
        ∗ (aLoc c ↦[FS c j]{fsh j} accF m ρ c) ∗ (aLoc (nb (link j) c) ↦[RS (nb (link j) c) j]{fullShare} fd)
        ∗ owes (c : Thread nD τ) (Owed c (Finset.univ \ σ.S)) W
        ∗ dutyTok ER (sendCell c j) 0 0 ∗ reached ER (sendCell c j) 0
        ∗ dutyTok ER (recvCell (nb (link j) c) j) 0 0 ∗ reached ER (recvCell (nb (link j) c) j) 0)
      ⊢ iprop(((cred (tallyAt (sendCell c j) () (NJ j)) ∗ owes (c : Thread nD τ) (Owed c ((Finset.univ \ σ.S).erase j)) W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accSl (foff c j) j sinb hs)
              (.remote (Dev.tc (nb (link j) c) : Thread nD τ) (accSl (roff (nb (link j) c) j) j dinb hd') (.dma (ssem j)) hsc)
              (.dma (rsem j)) hsrc hdst hsem) k) Q) := by
  rw [show FS c j = _ from (set_acc_slice (foff c j) j sinb hs).symm,
    show RS (nb (link j) c) j = _ from (set_acc_slice (roff (nb (link j) c) j) j dinb hd').symm]
  exact Rounds.wp_send_pointsTo 𝒱₀ ER (Rd m ρ) (c : Thread nD τ) none
    (c' := (Dev.tc (nb (link j) c) : Thread nD τ))
    (src := accSl (foff c j) j sinb hs) (dst := accSl (roff (nb (link j) c) j) j dinb hd')
    (q := fsh j) (fs := accF m ρ c) (fd := fd)
    (κ₁ := K (c, sIx j)) (κ₂ := K (nb (link j) c, rIx j)) (r₁ := 0) (r₂ := 0) (d₁ := 0) (d₂ := 0)
    (by rw [duties_send]; exact Finset.mem_singleton_self _) (by rw [duties_recv]; exact Finset.mem_singleton_self _)
    () () (NJ j) (amount_accSl _ j dinb hd' (rsem j)) (amount_send m ρ c j 0) (amount_recv m ρ (nb (link j) c) j 0)
    (Owed c ((Finset.univ \ σ.S).erase j)) (owed_split c σ j hjS) (W := W)
    (pay_send_f m ρ c j hj6 sinb hs) (pay_recv_f m ρ c j hj6 sinb hs dinb hd' fd)

end Steps3

end Send

open Send

section Step
variable {m} {ρ}
variable {K : Dev nD × Fin 41 → ℕ} {c : Dev nD} {f0 : (cc0_stg1_0 : Ref sig .tc).ty.Contents (Elt F)} {σ : Pg}

/-- Departure j < 6: rows of the staging scratch go to slot j of the device across x. -/
theorem step_send_x {α : Type} {Q : α → sProp 𝕄} (j : Fin 20)
    {rows : ℕ} {soff doff : Fin 2 → ℕ} {sinb} {dinb} {hs} {hd'} {d : Dev nD} {ss rs : DmaSem sig} {hsc} {hsrc} {hdst} {hsem}
    {k : PUnit → Prog (TpuEff nD τ sig (Elt F) Λ₀ .tc) α}
    (hd : d = nb (link j) c) (hdo : doff = ![roff (nb (link j) c) j, 0])
    (hj6 : j.val < 6 := by decide) (hjS : j ∉ σ.S := by decide) (hjD : j ∉ σ.D := by decide)
    (hss : ss = ssem j := by rfl) (hrs : rs = rsem j := by rfl) (hrows : rows = rrows j := by rfl)
    (hso : soff = ![Mesh.soff j, 0] := by rfl) :
    St m ρ K c f0 σ ⊢ iprop((St m ρ K c f0 { σ with S := insert j σ.S } -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (sM.slice (Rect.unit (s := S672x512) soff ![rows, 512] sinb) hs)
          (.remote (Dev.tc d : Thread nD τ) (aM.slice (Rect.unit (s := S2048x512) doff ![rows, 512] dinb) hd') (.dma ss) hsc)
          (.dma rs) hsrc hdst hsem) k) Q) := by
  subst hd; subst hss; subst hrs; subst hrows; subst hso; subst hdo
  unfold St
  iintro ⟨#Hrec, ⟨%W, HO⟩, Hx, Hout, Hsend, Hrecv⟩ Hk
  icases (bigSep_univ_update (Φ := fun j' => sendSt m ρ c σ j') (Ψ := fun j' => sendSt m ρ c { σ with S := insert j σ.S } j') j
    (fun j' h => by unfold sendSt; simp only [Finset.mem_insert, h, false_or])) $$ Hsend with ⟨Hj, Hback⟩
  ihave Hj := (Entails.of_eq (sendSt_fresh j hjS hjD)) $$ Hj
  rw [if_pos hj6]
  icases Hj with ⟨Ht1, Ht2, Hat, ⟨%fd, Hdst⟩, Hsrc⟩
  ihave HS := (records_send c j) $$ Hrec
  icases HS with ⟨HIs, Hrs⟩
  ihave HR := (records_recv (nb (link j) c) j) $$ Hrec
  icases HR with ⟨HIr, Hrr⟩
  iapply (wp_send_x_rule m ρ K c σ j hj6 hjS fd W) $$ [HIs HIr Hsrc Hdst HO Ht1 Hrs Ht2 Hrr]
  · iframe HIs HIr Hsrc Hdst HO Ht1 Hrs Ht2 Hrr
  iintro ⟨Hc, HO⟩
  iapply Hk
  iframe Hrec Hx Hout
  isplitl [HO]
  · iexists W
    ihave HO := (Entails.of_eq (congrArg (fun O => owes (c : Thread nD τ) O W) (owed_after c σ j).symm)) $$ HO
    iexact HO
  isplitl [Hc Hat Hback]
  · iapply Hback
    rw [sendSt_issued (σ := { σ with S := insert j σ.S }) j hjD (Finset.mem_insert_self _ _)]
    iframe Hc Hat
  · rw [bigSep_congr (fun j' _ => recvSt_other m ρ c σ j j' (fun h => absurd h.1 (by omega)))]
    iexact Hrecv

/-- Relay j ≥ 6: rows of an arrived slice of the accumulation buffer go to the same rows on the y or z pair. -/
theorem step_send_f {α : Type} {Q : α → sProp 𝕄} (j : Fin 20)
    {rows : ℕ} {soff doff : Fin 2 → ℕ} {sinb} {dinb} {hs} {hd'} {d : Dev nD} {ss rs : DmaSem sig} {hsc} {hsrc} {hdst} {hsem}
    {k : PUnit → Prog (TpuEff nD τ sig (Elt F) Λ₀ .tc) α}
    (hd : d = nb (link j) c) (hso : soff = ![foff c j, 0])
    (hj6 : 6 ≤ j.val := by decide) (hjS : j ∉ σ.S := by decide) (hjD : j ∉ σ.D := by decide) (hsrcR : fsrc j ∈ σ.R := by decide)
    (hss : ss = ssem j := by rfl) (hrs : rs = rsem j := by rfl) (hrows : rows = rrows j := by rfl) (hdo : doff = soff := by rfl) :
    St m ρ K c f0 σ ⊢ iprop((St m ρ K c f0 { σ with S := insert j σ.S } -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (aM.slice (Rect.unit (s := S2048x512) soff ![rows, 512] sinb) hs)
          (.remote (Dev.tc d : Thread nD τ) (aM.slice (Rect.unit (s := S2048x512) doff ![rows, 512] dinb) hd') (.dma ss) hsc)
          (.dma rs) hsrc hdst hsem) k) Q) := by
  subst hd; subst hss; subst hrs; subst hrows; subst hso
  have hdo := hdo.trans (show (![foff c j, 0] : Fin 2 → ℕ) = ![roff (nb (link j) c) j, 0] by rw [foff_eq_roff c j hj6])
  subst hdo
  unfold St
  iintro ⟨#Hrec, ⟨%W, HO⟩, Hx, Hout, Hsend, Hrecv⟩ Hk
  icases (bigSep_univ_update (Φ := fun j' => sendSt m ρ c σ j') (Ψ := fun j' => sendSt m ρ c { σ with S := insert j σ.S } j') j
    (fun j' h => by unfold sendSt; simp only [Finset.mem_insert, h, false_or])) $$ Hsend with ⟨Hj, Hback⟩
  ihave Hj := (Entails.of_eq (sendSt_fresh j hjS hjD)) $$ Hj
  rw [if_neg (show ¬ j.val < 6 by omega)]
  icases Hj with ⟨Ht1, Ht2, Hat, ⟨%fd, Hdst⟩, -⟩
  icases (bigSep_univ_update (Φ := fun j' => recvSt m ρ c σ j') (Ψ := fun j' => recvSt m ρ c { σ with S := insert j σ.S } j') (fsrc j)
    (fun j' h => recvSt_other m ρ c σ j j' (fun hh => h hh.2.symm))) $$ Hrecv with ⟨Hrj, Hrback⟩
  ihave Hrj := (recvSt_lend m ρ c σ j hj6 hjS hsrcR) $$ Hrj
  icases Hrj with ⟨Hsrc, Hrj⟩
  ihave HS := (records_send c j) $$ Hrec
  icases HS with ⟨HIs, Hrs⟩
  ihave HR := (records_recv (nb (link j) c) j) $$ Hrec
  icases HR with ⟨HIr, Hrr⟩
  iapply (wp_send_f_rule m ρ K c σ j hj6 hjS fd W) $$ [HIs HIr Hsrc Hdst HO Ht1 Hrs Ht2 Hrr]
  · iframe HIs HIr Hsrc Hdst HO Ht1 Hrs Ht2 Hrr
  iintro ⟨Hc, HO⟩
  iapply Hk
  iframe Hrec Hx Hout
  isplitl [HO]
  · iexists W
    ihave HO := (Entails.of_eq (congrArg (fun O => owes (c : Thread nD τ) O W) (owed_after c σ j).symm)) $$ HO
    iexact HO
  isplitl [Hc Hat Hback]
  · iapply Hback
    rw [sendSt_issued (σ := { σ with S := insert j σ.S }) j hjD (Finset.mem_insert_self _ _)]
    iframe Hc Hat
  · iapply Hrback
    iexact Hrj

end Step

end Cert.Kernel.Proved

end
-- ==== Proof.Bits.BodyA.lean ====
import proofs.«900723_g7700000000000724_dist_ar_v7x_xyz2x4x4_x_m2048_n512_bf16_1_alg».proof.Proof.Bits.State
import proofs.«900723_g7700000000000724_dist_ar_v7x_xyz2x4x4_x_m2048_n512_bf16_1_alg».proof.Proof.Bits.MeshFacts
import proofs.«900723_g7700000000000724_dist_ar_v7x_xyz2x4x4_x_m2048_n512_bf16_1_alg».proof.Proof.Bits.StepsMem
import proofs.«900723_g7700000000000724_dist_ar_v7x_xyz2x4x4_x_m2048_n512_bf16_1_alg».proof.Proof.Bits.StepsWait
import proofs.«900723_g7700000000000724_dist_ar_v7x_xyz2x4x4_x_m2048_n512_bf16_1_alg».proof.Proof.Bits.StepsSend

noncomputable section

namespace Cert.Kernel.BodyPf

open Cert.Kernel.Gen Cert.Kernel.Mesh Cert.Kernel.Sched Cert.Kernel.State Cert.Kernel.Proved

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Fin 41 → ℕ} {c : Dev nD} {f0 : (cc0_stg1_0 : Ref sig .tc).ty.Contents (Elt F)}

theorem part3 {v5 v8 v12 v23 v65 : BitVec 32} {Kt : (BitVec 32) → sProp 𝕄} :
    iprop(St m ρ K c f0 σ3 ∗ (∀ r, St m ρ K c f0 σ4 -∗ Kt r))
      ⊢ wp frame (wpE (defs₀ (F := F)) 𝒱₀ (c : Thread nD τ) none) Set.univ
        (atBufs k0_part3_skel c v5 v8 v12 v23 v65) Kt := by
  simp only [atBufs, k0_part3_skel, Prog.lift, Prog.bind_op, Prog.bind_ret, Prog.pure_eq_ret]
  iintro ⟨HSt, Hk⟩
  iapply (step_send_x 0 (hd := dev4_eq c) (hdo := off3_0_partner c)) $$ HSt
  iintro HSt
  iapply (step_send_x 1 (hd := dev5_eq c) (hdo := off3_64_partner c)) $$ HSt
  iintro HSt
  rw [wp_ret]
  imodintro
  iapply Hk
  iexact HSt

theorem part4 {v5 v8 v12 v23 v96 : BitVec 32} {Kt : (PUnit) → sProp 𝕄} :
    iprop(St m ρ K c f0 σ4 ∗ (∀ r, St m ρ K c f0 σ5 -∗ Kt r))
      ⊢ wp frame (wpE (defs₀ (F := F)) 𝒱₀ (c : Thread nD τ) none) Set.univ
        (atBufs k0_part4_skel c v5 v8 v12 v23 v96) Kt := by
  simp only [atBufs, k0_part4_skel, Prog.lift, Prog.bind_op, Prog.bind_ret, Prog.pure_eq_ret]
  iintro ⟨HSt, Hk⟩
  iapply (step_send_x 2 (hd := dev6_eq c) (hdo := off4_128_partner c)) $$ HSt
  iintro HSt
  iapply (step_send_x 3 (hd := dev7_eq c) (hdo := off4_256_partner c)) $$ HSt
  iintro HSt
  rw [wp_ret]
  imodintro
  iapply Hk
  iexact HSt

theorem part5 {v2 v5 v8 v12 v22 v23 : BitVec 32} {Kt : (Σ' (v159 : BitVec 32), BitVec 32) → sProp 𝕄} :
    iprop(St m ρ K c f0 σ5 ∗ (∀ r, St m ρ K c f0 σ6 -∗ Kt r))
      ⊢ wp frame (wpE (defs₀ (F := F)) 𝒱₀ (c : Thread nD τ) none) Set.univ
        (atBufs k0_part5_skel c v2 v5 v8 v12 v22 v23) Kt := by
  simp only [atBufs, k0_part5_skel, Prog.lift, Prog.bind_op, Prog.bind_ret, Prog.pure_eq_ret]
  iintro ⟨HSt, Hk⟩
  iapply (step_send_x 4 (hd := dev8_eq c) (hdo := off4_384_partner c)) $$ HSt
  iintro HSt
  iapply (step_send_x 5 (hd := dev9_eq c) (hdo := off5_partner c)) $$ HSt
  iintro HSt
  iapply (step_recv_wait 0) $$ HSt
  iintro HSt
  rw [wp_ret]
  imodintro
  iapply Hk
  iexact HSt

theorem part6 {v2 v5 v8 v23 v26 v29 v159 v160 : BitVec 32} {Kt : (BitVec 32) → sProp 𝕄} :
    iprop(St m ρ K c f0 σ6 ∗ (∀ r, St m ρ K c f0 σ7 -∗ Kt r))
      ⊢ wp frame (wpE (defs₀ (F := F)) 𝒱₀ (c : Thread nD τ) none) Set.univ
        (atBufs k0_part6_skel c v2 v5 v8 v23 v26 v29 v159 v160) Kt := by
  simp only [atBufs, k0_part6_skel, Prog.lift, Prog.bind_op, Prog.bind_ret, Prog.pure_eq_ret]
  iintro ⟨HSt, Hk⟩
  iapply (step_send_f 6 (hd := dev10_eq c) (hso := off3_0_src6 c)) $$ HSt
  iintro HSt
  iapply (step_send_f 13 (hd := dev11_eq c) (hso := off3_0_src13 c)) $$ HSt
  iintro HSt
  iapply step_load_x $$ HSt
  iintro HSt
  iapply (step_load_acc 0 (hoff := off6_0_own c)) $$ HSt
  iintro HSt
  iapply step_load_out $$ HSt
  iintro HSt
  iapply (step_store_out 0 (hoff := off6_0_own c)) $$ HSt
  iintro HSt
  rw [wp_ret]
  imodintro
  iapply Hk
  iexact HSt

theorem part7 {v2 v5 v8 v12 v26 v29 v196 : BitVec 32} {Kt : (Σ' (v204 : BitVec 32), Vec F S64x512 .f32) → sProp 𝕄} :
    iprop(St m ρ K c f0 σ7 ∗ (∀ r, ⌜r.2 = xM.view.readAt (Elt F) (Rect.unit (s := S2048x512) (k0_off6 c 64#32) S64x512.size (k0_off6_inb c 1)).toLoadRect (xstg m ρ c)⌝ -∗ St m ρ K c f0 σ8 -∗ Kt r))
      ⊢ wp frame (wpE (defs₀ (F := F)) 𝒱₀ (c : Thread nD τ) none) Set.univ
        (atBufs k0_part7_skel c v2 v5 v8 v12 v26 v29 v196) Kt := by
  simp only [atBufs, k0_part7_skel, Prog.lift, Prog.bind_op, Prog.bind_ret, Prog.pure_eq_ret]
  iintro ⟨HSt, Hk⟩
  iapply (step_recv_wait 1) $$ HSt
  iintro HSt
  iapply (step_send_f 7 (hd := dev12_eq c) (hso := off3_64_src7 c)) $$ HSt
  iintro HSt
  iapply (step_send_f 14 (hd := dev13_eq c) (hso := off3_64_src14 c)) $$ HSt
  iintro HSt
  iapply step_load_x $$ HSt
  iintro HSt
  rw [wp_ret]
  imodintro
  iapply Hk $$ %_ %rfl
  iexact HSt

theorem part8 {v2 v5 v8 v12 v23 v26 v204 : BitVec 32} {v230 : Vec F S64x512 .f32}
    (hv : v230 = xM.view.readAt (Elt F) (Rect.unit (s := S2048x512) (k0_off6 c 64#32) S64x512.size (k0_off6_inb c 1)).toLoadRect (xstg m ρ c)) {Kt : (Σ' (v249 : BitVec 32) (v262 : BitVec 32), BitVec 32) → sProp 𝕄} :
    iprop(St m ρ K c f0 σ8 ∗ (∀ r, St m ρ K c f0 σ9 -∗ Kt r))
      ⊢ wp frame (wpE (defs₀ (F := F)) 𝒱₀ (c : Thread nD τ) none) Set.univ
        (atBufs k0_part8_skel c v2 v5 v8 v12 v23 v26 v204 v230) Kt := by
  subst hv
  simp only [atBufs, k0_part8_skel, Prog.lift, Prog.bind_op, Prog.bind_ret, Prog.pure_eq_ret]
  iintro ⟨HSt, Hk⟩
  iapply (step_load_acc 1 (hoff := off6_64_own c)) $$ HSt
  iintro HSt
  iapply step_load_out $$ HSt
  iintro HSt
  iapply (step_store_out 1 (hoff := off6_64_own c)) $$ HSt
  iintro HSt
  iapply (step_recv_wait 2) $$ HSt
  iintro HSt
  iapply (step_send_f 8 (hd := dev14_eq c) (hso := off4_128_src8 c)) $$ HSt
  iintro HSt
  rw [wp_ret]
  imodintro
  iapply Hk
  iexact HSt

theorem part9 {v2 v5 v8 v12 v23 v29 v249 v262 c0_i32_178 : BitVec 32} {Kt : (Σ' (v294 : BitVec 32) (v296 : BitVec 32), BitVec 32) → sProp 𝕄} :
    iprop(St m ρ K c f0 σ9 ∗ (∀ r, St m ρ K c f0 σ10 -∗ Kt r))
      ⊢ wp frame (wpE (defs₀ (F := F)) 𝒱₀ (c : Thread nD τ) none) Set.univ
        (atBufs k0_part9_skel c v2 v5 v8 v12 v23 v29 v249 v262 c0_i32_178) Kt := by
  simp only [atBufs, k0_part9_skel, Prog.lift, Prog.bind_op, Prog.bind_ret, Prog.pure_eq_ret]
  iintro ⟨HSt, Hk⟩
  iapply (step_send_f 15 (hd := dev15_eq c) (hso := off4_128_src15 c)) $$ HSt
  iintro HSt
  iapply step_load_x $$ HSt
  iintro HSt
  iapply (step_load_acc 2 (hoff := off7_128_own c)) $$ HSt
  iintro HSt
  iapply step_load_out $$ HSt
  iintro HSt
  iapply (step_store_out 2 (hoff := off7_128_own c)) $$ HSt
  iintro HSt
  iapply (step_recv_wait 3) $$ HSt
  iintro HSt
  rw [wp_ret]
  imodintro
  iapply Hk
  iexact HSt

theorem part10 {v2 v5 v8 v23 v26 v29 v294 v296 c4_i32_201 : BitVec 32} {Kt : (PUnit) → sProp 𝕄} :
    iprop(St m ρ K c f0 σ10 ∗ (∀ r, St m ρ K c f0 σ11 -∗ Kt r))
      ⊢ wp frame (wpE (defs₀ (F := F)) 𝒱₀ (c : Thread nD τ) none) Set.univ
        (atBufs k0_part10_skel c v2 v5 v8 v23 v26 v29 v294 v296 c4_i32_201) Kt := by
  simp only [atBufs, k0_part10_skel, Prog.lift, Prog.bind_op, Prog.bind_ret, Prog.pure_eq_ret]
  iintro ⟨HSt, Hk⟩
  iapply (step_send_f 9 (hd := dev16_eq c) (hso := off4_256_src9 c)) $$ HSt
  iintro HSt
  iapply (step_send_f 16 (hd := dev17_eq c) (hso := off4_256_src16 c)) $$ HSt
  iintro HSt
  iapply step_load_x $$ HSt
  iintro HSt
  iapply (step_load_acc 3 (hoff := off7_256_own c)) $$ HSt
  iintro HSt
  iapply step_load_out $$ HSt
  iintro HSt
  iapply (step_store_out 3 (hoff := off7_256_own c)) $$ HSt
  iintro HSt
  rw [wp_ret]
  imodintro
  iapply Hk
  iexact HSt

theorem part11 {v2 v5 v8 v12 v26 v29 : BitVec 32} {Kt : (Σ' (v339 : BitVec 32), FVec F S128x512 .bf16) → sProp 𝕄} :
    iprop(St m ρ K c f0 σ11 ∗ (∀ r, ⌜r.2 = k0_pay7 (xM.view.readAt (Elt F) (Rect.unit (s := S2048x512) (k0_off7 c 384#32) S128x512.size (k0_off7_inb c 2)).toLoadRect (xstg m ρ c))⌝ -∗ St m ρ K c f0 σ12 -∗ Kt r))
      ⊢ wp frame (wpE (defs₀ (F := F)) 𝒱₀ (c : Thread nD τ) none) Set.univ
        (atBufs k0_part11_skel c v2 v5 v8 v12 v26 v29) Kt := by
  simp only [atBufs, k0_part11_skel, Prog.lift, Prog.bind_op, Prog.bind_ret, Prog.pure_eq_ret]
  iintro ⟨HSt, Hk⟩
  iapply (step_recv_wait 4) $$ HSt
  iintro HSt
  iapply (step_send_f 10 (hd := dev18_eq c) (hso := off4_384_src10 c)) $$ HSt
  iintro HSt
  iapply (step_send_f 17 (hd := dev19_eq c) (hso := off4_384_src17 c)) $$ HSt
  iintro HSt
  iapply step_load_x $$ HSt
  iintro HSt
  rw [wp_ret]
  imodintro
  iapply Hk $$ %_ %rfl
  iexact HSt

theorem part12 {v5 v8 v18 v22 v23 v339 : BitVec 32} {v367 : FVec F S128x512 .bf16}
    (hv : v367 = k0_pay7 (xM.view.readAt (Elt F) (Rect.unit (s := S2048x512) (k0_off7 c 384#32) S128x512.size (k0_off7_inb c 2)).toLoadRect (xstg m ρ c))) {Kt : (PUnit) → sProp 𝕄} :
    iprop(St m ρ K c f0 σ12 ∗ (∀ r, St m ρ K c f0 σ13 -∗ Kt r))
      ⊢ wp frame (wpE (defs₀ (F := F)) 𝒱₀ (c : Thread nD τ) none) Set.univ
        (atBufs k0_part12_skel c v5 v8 v18 v22 v23 v339 v367) Kt := by
  subst hv
  simp only [atBufs, k0_part12_skel, Prog.lift, Prog.bind_op, Prog.bind_ret, Prog.pure_eq_ret]
  iintro ⟨HSt, Hk⟩
  iapply (step_load_acc 4 (hoff := off7_384_own c)) $$ HSt
  iintro HSt
  iapply step_load_out $$ HSt
  iintro HSt
  iapply (step_store_out 4 (hoff := off7_384_own c)) $$ HSt
  iintro HSt
  iapply (step_recv_wait 5) $$ HSt
  iintro HSt
  iapply step_load_x $$ HSt
  iintro HSt
  iapply (step_load_acc 5 (hoff := off2_own c)) $$ HSt
  iintro HSt
  iapply step_load_out $$ HSt
  iintro HSt
  iapply (step_store_out 5 (hoff := off2_own c)) $$ HSt
  iintro HSt
  rw [wp_ret]
  imodintro
  iapply Hk
  iexact HSt

theorem part13 {v5 v8 v18 v23 : BitVec 32} {Kt : (PUnit) → sProp 𝕄} :
    iprop(St m ρ K c f0 σ13 ∗ (∀ r, St m ρ K c f0 σ14 -∗ Kt r))
      ⊢ wp frame (wpE (defs₀ (F := F)) 𝒱₀ (c : Thread nD τ) none) Set.univ
        (atBufs k0_part13_skel c v5 v8 v18 v23) Kt := by
  simp only [atBufs, k0_part13_skel, Prog.lift, Prog.bind_op, Prog.bind_ret, Prog.pure_eq_ret]
  iintro ⟨HSt, Hk⟩
  iapply (step_recv_wait 13) $$ HSt
  iintro HSt
  iapply step_load_x $$ HSt
  iintro HSt
  iapply (step_load_acc 13 (hoff := off9_0_own c)) $$ HSt
  iintro HSt
  iapply step_load_out $$ HSt
  iintro HSt
  iapply (step_store_out 13 (hoff := off9_0_own c)) $$ HSt
  iintro HSt
  iapply (step_recv_wait 14) $$ HSt
  iintro HSt
  iapply step_load_x $$ HSt
  iintro HSt
  iapply (step_load_acc 14 (hoff := off9_64_own c)) $$ HSt
  iintro HSt
  iapply step_load_out $$ HSt
  iintro HSt
  iapply (step_store_out 14 (hoff := off9_64_own c)) $$ HSt
  iintro HSt
  rw [wp_ret]
  imodintro
  iapply Hk
  iexact HSt

end Cert.Kernel.BodyPf

end
-- ==== Proof.Bits.BodyB.lean ====
import proofs.«900723_g7700000000000724_dist_ar_v7x_xyz2x4x4_x_m2048_n512_bf16_1_alg».proof.Proof.Bits.State
import proofs.«900723_g7700000000000724_dist_ar_v7x_xyz2x4x4_x_m2048_n512_bf16_1_alg».proof.Proof.Bits.MeshFacts
import proofs.«900723_g7700000000000724_dist_ar_v7x_xyz2x4x4_x_m2048_n512_bf16_1_alg».proof.Proof.Bits.StepsMem
import proofs.«900723_g7700000000000724_dist_ar_v7x_xyz2x4x4_x_m2048_n512_bf16_1_alg».proof.Proof.Bits.StepsWait
import proofs.«900723_g7700000000000724_dist_ar_v7x_xyz2x4x4_x_m2048_n512_bf16_1_alg».proof.Proof.Bits.StepsSend

noncomputable section

namespace Cert.Kernel.BodyPf

open Cert.Kernel.Gen Cert.Kernel.Mesh Cert.Kernel.Sched Cert.Kernel.State
open Cert.Kernel.Proved

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Fin 41 → ℕ} {c : Dev nD} {f0 : (cc0_stg1_0 : Ref sig .tc).ty.Contents (Elt F)}

theorem part14 {v2 v5 v8 v18 v23 v26 : BitVec 32} {Kt : (Σ' (v466 : BitVec 32), FVec F S128x512 .bf16) → sProp 𝕄} :
    iprop(St m ρ K c f0 σ14 ∗ (∀ r, ⌜r.2 = k0_pay12 (xM.view.readAt (Elt F) (Rect.unit (s := S2048x512) (k0_off12 c 128#32) S128x512.size (k0_off12_inb c 0)).toLoadRect (xstg m ρ c)) (aM.view.readAt (Elt F) (Rect.unit (s := S2048x512) (k0_off12 c 128#32) S128x512.size (k0_off12_inb c 0)).toLoadRect (accF m ρ c))⌝ -∗ St m ρ K c f0 σ15 -∗ Kt r))
      ⊢ wp frame (wpE (defs₀ (F := F)) 𝒱₀ (c : Thread nD τ) none) Set.univ
        (atBufs k0_part14_skel c v2 v5 v8 v18 v23 v26) Kt := by
  simp only [atBufs, k0_part14_skel, Prog.lift, Prog.bind_op, Prog.bind_ret, Prog.pure_eq_ret]
  iintro ⟨HSt, Hk⟩
  iapply (step_recv_wait 15) $$ HSt
  iintro HSt
  iapply (step_send_f 11 (hd := dev20_eq c) (hso := off11_src11 c)) $$ HSt
  iintro HSt
  iapply step_load_x $$ HSt
  iintro HSt
  iapply (step_load_acc 15 (hoff := off12_128_own c)) $$ HSt
  iintro HSt
  rw [wp_ret]
  imodintro
  iapply Hk
  · ipureintro; rfl
  · iexact HSt

theorem part15 {v2 v5 v8 v18 v23 v26 v466 : BitVec 32} {v473 : FVec F S128x512 .bf16}
    (hv : v473 = k0_pay12 (xM.view.readAt (Elt F) (Rect.unit (s := S2048x512) (k0_off12 c 128#32) S128x512.size (k0_off12_inb c 0)).toLoadRect (xstg m ρ c)) (aM.view.readAt (Elt F) (Rect.unit (s := S2048x512) (k0_off12 c 128#32) S128x512.size (k0_off12_inb c 0)).toLoadRect (accF m ρ c)))
    {Kt : (Σ' (v503 : BitVec 32), FVec F S128x512 .bf16) → sProp 𝕄} :
    iprop(St m ρ K c f0 σ15 ∗ (∀ r, ⌜r.2 = k0_pay13 (xM.view.readAt (Elt F) (Rect.unit (s := S2048x512) (k0_off12 c 256#32) S128x512.size (k0_off12_inb c 1)).toLoadRect (xstg m ρ c))⌝ -∗ St m ρ K c f0 σ16 -∗ Kt r))
      ⊢ wp frame (wpE (defs₀ (F := F)) 𝒱₀ (c : Thread nD τ) none) Set.univ
        (atBufs k0_part15_skel c v2 v5 v8 v18 v23 v26 v466 v473) Kt := by
  subst hv
  simp only [atBufs, k0_part15_skel, Prog.lift, Prog.bind_op, Prog.bind_ret, Prog.pure_eq_ret]
  iintro ⟨HSt, Hk⟩
  iapply step_load_out $$ HSt
  iintro HSt
  iapply (step_store_out 15 (hoff := off12_128_own c)) $$ HSt
  iintro HSt
  iapply (step_recv_wait 16) $$ HSt
  iintro HSt
  iapply (step_send_f 12 (hd := dev21_eq c) (hso := off13_src12 c)) $$ HSt
  iintro HSt
  iapply step_load_x $$ HSt
  iintro HSt
  rw [wp_ret]
  imodintro
  iapply Hk
  · ipureintro; rfl
  · iexact HSt

theorem part16 {v5 v8 v15 v23 v503 : BitVec 32} {v507 : FVec F S128x512 .bf16}
    (hv : v507 = k0_pay13 (xM.view.readAt (Elt F) (Rect.unit (s := S2048x512) (k0_off12 c 256#32) S128x512.size (k0_off12_inb c 1)).toLoadRect (xstg m ρ c)))
    {Kt : (Σ' (v541 : BitVec 32), BitVec 32) → sProp 𝕄} :
    iprop(St m ρ K c f0 σ16 ∗ (∀ r, St m ρ K c f0 σ17 -∗ Kt r))
      ⊢ wp frame (wpE (defs₀ (F := F)) 𝒱₀ (c : Thread nD τ) none) Set.univ
        (atBufs k0_part16_skel c v5 v8 v15 v23 v503 v507) Kt := by
  subst hv
  simp only [atBufs, k0_part16_skel, Prog.lift, Prog.bind_op, Prog.bind_ret, Prog.pure_eq_ret]
  iintro ⟨HSt, Hk⟩
  iapply (step_load_acc 16 (hoff := off12_256_own c)) $$ HSt
  iintro HSt
  iapply step_load_out $$ HSt
  iintro HSt
  iapply (step_store_out 16 (hoff := off12_256_own c)) $$ HSt
  iintro HSt
  iapply (step_recv_wait 6) $$ HSt
  iintro HSt
  iapply step_load_x $$ HSt
  iintro HSt
  iapply (step_load_acc 6 (hoff := off15_0_own c)) $$ HSt
  iintro HSt
  iapply step_load_out $$ HSt
  iintro HSt
  iapply (step_store_out 6 (hoff := off15_0_own c)) $$ HSt
  iintro HSt
  rw [wp_ret]
  imodintro
  iapply Hk
  iexact HSt

theorem part17 {v5 v8 v15 v23 v541 c1_i32_353 : BitVec 32} {Kt : (Σ' (v572 : BitVec 32) (v576 : FVec F S128x512 .bf16), Vec F S128x512 .bf16) → sProp 𝕄} :
    iprop(St m ρ K c f0 σ17 ∗ (∀ r, ⌜r.2.1 = k0_pay17 (xM.view.readAt (Elt F) (Rect.unit (s := S2048x512) (k0_off17 c 128#32) S128x512.size (k0_off17_inb c 0)).toLoadRect (xstg m ρ c))⌝ -∗ ⌜r.2.2 = (aM.view.readAt (Elt F) (Rect.unit (s := S2048x512) (k0_off17 c 128#32) S128x512.size (k0_off17_inb c 0)).toLoadRect (accF m ρ c))⌝ -∗ St m ρ K c f0 σ18 -∗ Kt r))
      ⊢ wp frame (wpE (defs₀ (F := F)) 𝒱₀ (c : Thread nD τ) none) Set.univ
        (atBufs k0_part17_skel c v5 v8 v15 v23 v541 c1_i32_353) Kt := by
  simp only [atBufs, k0_part17_skel, Prog.lift, Prog.bind_op, Prog.bind_ret, Prog.pure_eq_ret]
  iintro ⟨HSt, Hk⟩
  iapply (step_recv_wait 7) $$ HSt
  iintro HSt
  iapply step_load_x $$ HSt
  iintro HSt
  iapply (step_load_acc 7 (hoff := off15_64_own c)) $$ HSt
  iintro HSt
  iapply step_load_out $$ HSt
  iintro HSt
  iapply (step_store_out 7 (hoff := off15_64_own c)) $$ HSt
  iintro HSt
  iapply (step_recv_wait 8) $$ HSt
  iintro HSt
  iapply step_load_x $$ HSt
  iintro HSt
  iapply (step_load_acc 8 (hoff := off17_128_own c)) $$ HSt
  iintro HSt
  rw [wp_ret]
  imodintro
  iapply Hk
  · ipureintro; rfl
  · ipureintro; rfl
  · iexact HSt

theorem part18 {v2 v5 v8 v15 v23 v29 v572 : BitVec 32} {v576 : FVec F S128x512 .bf16} {v578 : Vec F S128x512 .bf16}
    (hv1 : v576 = k0_pay17 (xM.view.readAt (Elt F) (Rect.unit (s := S2048x512) (k0_off17 c 128#32) S128x512.size (k0_off17_inb c 0)).toLoadRect (xstg m ρ c)))
    (hv2 : v578 = (aM.view.readAt (Elt F) (Rect.unit (s := S2048x512) (k0_off17 c 128#32) S128x512.size (k0_off17_inb c 0)).toLoadRect (accF m ρ c)))
    {Kt : (Σ' (v609 : BitVec 32), FVec F S128x512 .f32) → sProp 𝕄} :
    iprop(St m ρ K c f0 σ18 ∗ (∀ r, ⌜r.2 = k0_pay19 (xM.view.readAt (Elt F) (Rect.unit (s := S2048x512) (k0_off17 c 256#32) S128x512.size (k0_off17_inb c 1)).toLoadRect (xstg m ρ c))⌝ -∗ St m ρ K c f0 σ19 -∗ Kt r))
      ⊢ wp frame (wpE (defs₀ (F := F)) 𝒱₀ (c : Thread nD τ) none) Set.univ
        (atBufs k0_part18_skel c v2 v5 v8 v15 v23 v29 v572 v576 v578) Kt := by
  subst hv1
  subst hv2
  simp only [atBufs, k0_part18_skel, Prog.lift, Prog.bind_op, Prog.bind_ret, Prog.pure_eq_ret]
  iintro ⟨HSt, Hk⟩
  iapply step_load_out $$ HSt
  iintro HSt
  iapply (step_store_out 8 (hoff := off17_128_own c)) $$ HSt
  iintro HSt
  iapply (step_recv_wait 9) $$ HSt
  iintro HSt
  iapply (step_send_f 18 (hd := dev22_eq c) (hso := off18_src18 c)) $$ HSt
  iintro HSt
  iapply step_load_x $$ HSt
  iintro HSt
  rw [wp_ret]
  imodintro
  iapply Hk
  · ipureintro; rfl
  · iexact HSt

theorem part19 {v2 v5 v8 v15 v23 v29 v609 : BitVec 32} {v612 : FVec F S128x512 .f32}
    (hv : v612 = k0_pay19 (xM.view.readAt (Elt F) (Rect.unit (s := S2048x512) (k0_off17 c 256#32) S128x512.size (k0_off17_inb c 1)).toLoadRect (xstg m ρ c)))
    {Kt : BitVec 32 → sProp 𝕄} :
    iprop(St m ρ K c f0 σ19 ∗ (∀ r, St m ρ K c f0 σ20 -∗ Kt r))
      ⊢ wp frame (wpE (defs₀ (F := F)) 𝒱₀ (c : Thread nD τ) none) Set.univ
        (atBufs k0_part19_skel c v2 v5 v8 v15 v23 v29 v609 v612) Kt := by
  subst hv
  simp only [atBufs, k0_part19_skel, Prog.lift, Prog.bind_op, Prog.bind_ret, Prog.pure_eq_ret]
  iintro ⟨HSt, Hk⟩
  iapply (step_load_acc 9 (hoff := off17_256_own c)) $$ HSt
  iintro HSt
  iapply step_load_out $$ HSt
  iintro HSt
  iapply (step_store_out 9 (hoff := off17_256_own c)) $$ HSt
  iintro HSt
  iapply (step_recv_wait 10) $$ HSt
  iintro HSt
  iapply (step_send_f 19 (hd := dev23_eq c) (hso := off16_384_src19 c)) $$ HSt
  iintro HSt
  rw [wp_ret]
  imodintro
  iapply Hk
  iexact HSt

theorem part20 {v5 v8 v18 v22 v23 v646 : BitVec 32} {Kt : (Σ' (v681 : BitVec 32), BitVec 32) → sProp 𝕄} :
    iprop(St m ρ K c f0 σ20 ∗ (∀ r, St m ρ K c f0 σ21 -∗ Kt r))
      ⊢ wp frame (wpE (defs₀ (F := F)) 𝒱₀ (c : Thread nD τ) none) Set.univ
        (atBufs k0_part20_skel c v5 v8 v18 v22 v23 v646) Kt := by
  simp only [atBufs, k0_part20_skel, Prog.lift, Prog.bind_op, Prog.bind_ret, Prog.pure_eq_ret]
  iintro ⟨HSt, Hk⟩
  iapply step_load_x $$ HSt
  iintro HSt
  iapply (step_load_acc 10 (hoff := off17_384_own c)) $$ HSt
  iintro HSt
  iapply step_load_out $$ HSt
  iintro HSt
  iapply (step_store_out 10 (hoff := off17_384_own c)) $$ HSt
  iintro HSt
  iapply (step_recv_wait 17) $$ HSt
  iintro HSt
  iapply step_load_x $$ HSt
  iintro HSt
  iapply (step_load_acc 17 (hoff := off12_384_own c)) $$ HSt
  iintro HSt
  iapply step_load_out $$ HSt
  iintro HSt
  iapply (step_store_out 17 (hoff := off12_384_own c)) $$ HSt
  iintro HSt
  rw [wp_ret]
  imodintro
  iapply Hk
  iexact HSt

theorem part21 {v5 v8 v22 v23 v681 c0_i32_440 : BitVec 32} {Kt : (Σ' (v715 : BitVec 32), Vec F S80x512 .f32) → sProp 𝕄} :
    iprop(St m ρ K c f0 σ21 ∗ (∀ r, ⌜r.2 = (xM.view.readAt (Elt F) (Rect.unit (s := S2048x512) (k0_off22 c) S80x512.size (k0_off22_inb c)).toLoadRect (xstg m ρ c))⌝ -∗ St m ρ K c f0 σ22 -∗ Kt r))
      ⊢ wp frame (wpE (defs₀ (F := F)) 𝒱₀ (c : Thread nD τ) none) Set.univ
        (atBufs k0_part21_skel c v5 v8 v22 v23 v681 c0_i32_440) Kt := by
  simp only [atBufs, k0_part21_skel, Prog.lift, Prog.bind_op, Prog.bind_ret, Prog.pure_eq_ret]
  iintro ⟨HSt, Hk⟩
  iapply (step_recv_wait 11) $$ HSt
  iintro HSt
  iapply step_load_x $$ HSt
  iintro HSt
  iapply (step_load_acc 11 (hoff := off20_own c)) $$ HSt
  iintro HSt
  iapply step_load_out $$ HSt
  iintro HSt
  iapply (step_store_out 11 (hoff := off20_own c)) $$ HSt
  iintro HSt
  iapply (step_recv_wait 12) $$ HSt
  iintro HSt
  iapply step_load_x $$ HSt
  iintro HSt
  rw [wp_ret]
  imodintro
  iapply Hk
  · ipureintro; rfl
  · iexact HSt

theorem part22 {v5 v8 v22 v23 v715 : BitVec 32} {v717 : Vec F S80x512 .f32}
    (hv : v717 = (xM.view.readAt (Elt F) (Rect.unit (s := S2048x512) (k0_off22 c) S80x512.size (k0_off22_inb c)).toLoadRect (xstg m ρ c)))
    {Kt : (Σ' (v751 : BitVec 32), BitVec 32) → sProp 𝕄} :
    iprop(St m ρ K c f0 σ22 ∗ (∀ r, St m ρ K c f0 σ23 -∗ Kt r))
      ⊢ wp frame (wpE (defs₀ (F := F)) 𝒱₀ (c : Thread nD τ) none) Set.univ
        (atBufs k0_part22_skel c v5 v8 v22 v23 v715 v717) Kt := by
  subst hv
  simp only [atBufs, k0_part22_skel, Prog.lift, Prog.bind_op, Prog.bind_ret, Prog.pure_eq_ret]
  iintro ⟨HSt, Hk⟩
  iapply (step_load_acc 12 (hoff := off22_own c)) $$ HSt
  iintro HSt
  iapply step_load_out $$ HSt
  iintro HSt
  iapply (step_store_out 12 (hoff := off22_own c)) $$ HSt
  iintro HSt
  iapply (step_recv_wait 18) $$ HSt
  iintro HSt
  iapply step_load_x $$ HSt
  iintro HSt
  iapply (step_load_acc 18 (hoff := off24_own c)) $$ HSt
  iintro HSt
  iapply step_load_out $$ HSt
  iintro HSt
  iapply (step_store_out 18 (hoff := off24_own c)) $$ HSt
  iintro HSt
  rw [wp_ret]
  imodintro
  iapply Hk
  iexact HSt

theorem part23 {v8 v22 v751 v752 : BitVec 32} {Kt : PUnit → sProp 𝕄} :
    iprop(St m ρ K c f0 σ23 ∗ (∀ r, St m ρ K c f0 σ24 -∗ Kt r))
      ⊢ wp frame (wpE (defs₀ (F := F)) 𝒱₀ (c : Thread nD τ) none) Set.univ
        (atBufs k0_part23_skel c v8 v22 v751 v752) Kt := by
  simp only [atBufs, k0_part23_skel, Prog.lift, Prog.bind_op, Prog.bind_ret, Prog.pure_eq_ret]
  iintro ⟨HSt, Hk⟩
  iapply (step_recv_wait 19) $$ HSt
  iintro HSt
  iapply step_load_x $$ HSt
  iintro HSt
  iapply (step_load_acc 19 (hoff := off26_own c)) $$ HSt
  iintro HSt
  iapply step_load_out $$ HSt
  iintro HSt
  iapply (step_store_out 19 (hoff := off26_own c)) $$ HSt
  iintro HSt
  iapply (step_send_wait 0) $$ HSt
  iintro HSt
  iapply (step_send_wait 1) $$ HSt
  iintro HSt
  rw [wp_ret]
  imodintro
  iapply Hk
  iexact HSt

theorem part24 {Kt : PUnit → sProp 𝕄} :
    iprop(St m ρ K c f0 σ24 ∗ (∀ r, St m ρ K c f0 σ25 -∗ Kt r))
      ⊢ wp frame (wpE (defs₀ (F := F)) 𝒱₀ (c : Thread nD τ) none) Set.univ
        (atBufs k0_part24_skel c) Kt := by
  simp only [atBufs, k0_part24_skel, Prog.lift, Prog.bind_op, Prog.bind_ret, Prog.pure_eq_ret]
  iintro ⟨HSt, Hk⟩
  iapply (step_send_wait 2) $$ HSt
  iintro HSt
  iapply (step_send_wait 3) $$ HSt
  iintro HSt
  iapply (step_send_wait 4) $$ HSt
  iintro HSt
  iapply (step_send_wait 5) $$ HSt
  iintro HSt
  iapply (step_send_wait 6) $$ HSt
  iintro HSt
  iapply (step_send_wait 13) $$ HSt
  iintro HSt
  rw [wp_ret]
  imodintro
  iapply Hk
  iexact HSt

theorem part25 {Kt : PUnit → sProp 𝕄} :
    iprop(St m ρ K c f0 σ25 ∗ (∀ r, St m ρ K c f0 σ26 -∗ Kt r))
      ⊢ wp frame (wpE (defs₀ (F := F)) 𝒱₀ (c : Thread nD τ) none) Set.univ
        (atBufs k0_part25_skel c) Kt := by
  simp only [atBufs, k0_part25_skel, Prog.lift, Prog.bind_op, Prog.bind_ret, Prog.pure_eq_ret]
  iintro ⟨HSt, Hk⟩
  iapply (step_send_wait 7) $$ HSt
  iintro HSt
  iapply (step_send_wait 14) $$ HSt
  iintro HSt
  iapply (step_send_wait 8) $$ HSt
  iintro HSt
  iapply (step_send_wait 15) $$ HSt
  iintro HSt
  iapply (step_send_wait 9) $$ HSt
  iintro HSt
  iapply (step_send_wait 16) $$ HSt
  iintro HSt
  rw [wp_ret]
  imodintro
  iapply Hk
  iexact HSt

end Cert.Kernel.BodyPf

end
-- ==== Proof.Bits.BodyWrap.lean ====
import proofs.«900723_g7700000000000724_dist_ar_v7x_xyz2x4x4_x_m2048_n512_bf16_1_alg».proof.Proof.Bits.State

noncomputable section

namespace Cert.Kernel.BodyPf

open Cert.Kernel.Gen Cert.Kernel.State

open Idealize.ShloMosaic
open Idealize.ShloMosaic.TcCoe
open Idealize.SL.BI.BIBase Idealize.SL.Sem
open Idealize.ShloMosaic.Pipeline (BodyObligation)

variable {F : FTy → Type} [FloatOps F]

variable (m : (ℓ : Loc nD τ sig) → Buf (Elt F) ℓ) (ρ : Dev nD → PrngReg)

-- At the single point the obligation's precondition is the body's start state once the cells' names are opened.
theorem body_obligation
    (hmain : ∀ (K : Dev nD × Fin 41 → ℕ) (c : Dev nD), bodyPre m ρ K c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7 cc0_scratch8) (fun _ => bodyPost m ρ c)) :
    ∀ c, BodyObligation (dats (F := F) m ρ 0 c) (defs₀ (F := F)) 𝒱₀ () Set.univ := fun c t => by
  rw [fin_N t, bigSep_W0, bigSep_W0]
  simp only [owns, Memref.view_whole, View.read_whole, View.set_whole]
  show iprop(Φ₀ m ρ c ∗ _) ⊢ _
  unfold Φ₀ start
  iintro ⟨⟨⟨⟨%K, Hg⟩, Hcr, Hd⟩, Hs, Ha⟩, Ho, Hx, Hout⟩
  iapply (hmain K c)
  unfold bodyPre
  iframe

end Cert.Kernel.BodyPf

end
-- ==== Proof.Bits.Body.lean ====
import proofs.«900723_g7700000000000724_dist_ar_v7x_xyz2x4x4_x_m2048_n512_bf16_1_alg».proof.Proof.Bits.State
import proofs.«900723_g7700000000000724_dist_ar_v7x_xyz2x4x4_x_m2048_n512_bf16_1_alg».proof.Proof.Bits.MeshFacts
import proofs.«900723_g7700000000000724_dist_ar_v7x_xyz2x4x4_x_m2048_n512_bf16_1_alg».proof.Proof.Bits.StepsWait
import proofs.«900723_g7700000000000724_dist_ar_v7x_xyz2x4x4_x_m2048_n512_bf16_1_alg».proof.Proof.Bits.Entry
import proofs.«900723_g7700000000000724_dist_ar_v7x_xyz2x4x4_x_m2048_n512_bf16_1_alg».proof.Proof.Bits.Exit
import proofs.«900723_g7700000000000724_dist_ar_v7x_xyz2x4x4_x_m2048_n512_bf16_1_alg».proof.Proof.Bits.BodyA
import proofs.«900723_g7700000000000724_dist_ar_v7x_xyz2x4x4_x_m2048_n512_bf16_1_alg».proof.Proof.Bits.BodyB
import proofs.«900723_g7700000000000724_dist_ar_v7x_xyz2x4x4_x_m2048_n512_bf16_1_alg».proof.Proof.Bits.BodyWrap

noncomputable section

namespace Cert.Kernel.BodyPf

open Cert.Kernel.Gen Cert.Kernel.Sched Cert.Kernel.State

open Idealize.ShloMosaic
open Idealize.ShloMosaic.TcCoe
open Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 41 → ℕ) (c : Dev nD)

theorem part1 (Kt : (Σ' (d0 : Dev nD) (v2 : BitVec 32) (v5 : BitVec 32) (v8 : BitVec 32) (v12 : BitVec 32) (v15 : BitVec 32) (v18 : BitVec 32) (v22 : BitVec 32) (v23 : BitVec 32) (v26 : BitVec 32) (v29 : BitVec 32) (v30 : Sems sig S_) (v32 : BitVec 32), BitVec 32) → sProp 𝕄)
    (P : sProp 𝕄) :
    iprop(P ∗ (∀ r, ⌜r.1 = c ∧ r.2.2.2.2.2.2.2.2.2.2.2.1 = (SemArray.scalar (sig.barrier 0 rfl) : Sems sig S_)⌝ -∗ P -∗ Kt r))
      ⊢ wp frame (wpE (defs₀ (F := F)) 𝒱₀ (c : Thread nD τ) none) Set.univ
        (k0_part1_skel (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) Kt := by
  unfold k0_part1_skel
  simp only [Prog.lift, Prog.bind_op, Prog.bind_ret, Prog.pure_eq_ret, wp_deviceId]
  iintro ⟨HP, Hk⟩
  rw [wp_ret]
  imodintro
  iapply Hk $$ [] HP
  ipureintro
  exact ⟨rfl, rfl⟩

theorem body26 (Kt : Dev nD → sProp 𝕄) :
    iprop(bodyPre m ρ K c ∗ (∀ f0, St m ρ K c f0 σ27 -∗ semVal (dCell c) 0 -∗ Kt c))
      ⊢ wp frame (wpE (defs₀ (F := F)) 𝒱₀ (c : Thread nD τ) none) Set.univ (k0_part26_skel (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) Kt := by
  unfold k0_part26_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  simp only [wp_bind]
  iintro ⟨Hpre, Hk⟩
  iapply (part1 c _ (bodyPre m ρ K c)) $$ [Hpre Hk]
  iframe Hpre
  iintro %r1 %hr1 Hpre
  obtain ⟨d0, v2, v5, v8, v12, v15, v18, v22, v23, v26, v29, v30, v32, v33⟩ := r1
  obtain ⟨hd, hv⟩ := hr1
  simp only at hd hv
  subst hd; subst hv
  dsimp only
  iapply (Proved.part2 m ρ K d0 _ _ _ _ _ _ _ _ _ _) $$ [Hpre Hk]
  iframe Hpre
  iintro %r2 HA
  unfold afterEntry
  icases HA with ⟨%f0, HSt, Hd⟩
  rename' d0 => c
  iapply part3 $$ [HSt Hk Hd]
  isplitl [HSt]; · iexact HSt
  iintro %r3 HSt
  iapply part4 $$ [HSt Hk Hd]
  iframe HSt
  iintro %r4 HSt
  iapply part5 $$ [HSt Hk Hd]
  iframe HSt
  iintro %r5 HSt
  iapply part6 $$ [HSt Hk Hd]
  iframe HSt
  iintro %r6 HSt
  iapply part7 $$ [HSt Hk Hd]
  iframe HSt
  iintro %r7 %h7_0 HSt
  iapply (part8 h7_0) $$ [HSt Hk Hd]
  iframe HSt
  iintro %r8 HSt
  iapply part9 $$ [HSt Hk Hd]
  iframe HSt
  iintro %r9 HSt
  iapply part10 $$ [HSt Hk Hd]
  iframe HSt
  iintro %r10 HSt
  iapply part11 $$ [HSt Hk Hd]
  iframe HSt
  iintro %r11 %h11_0 HSt
  iapply (part12 h11_0) $$ [HSt Hk Hd]
  iframe HSt
  iintro %r12 HSt
  iapply part13 $$ [HSt Hk Hd]
  iframe HSt
  iintro %r13 HSt
  iapply part14 $$ [HSt Hk Hd]
  iframe HSt
  iintro %r14 %h14_0 HSt
  iapply (part15 h14_0) $$ [HSt Hk Hd]
  iframe HSt
  iintro %r15 %h15_0 HSt
  iapply (part16 h15_0) $$ [HSt Hk Hd]
  iframe HSt
  iintro %r16 HSt
  iapply part17 $$ [HSt Hk Hd]
  iframe HSt
  iintro %r17 %h17_0 %h17_1 HSt
  iapply (part18 h17_0 h17_1) $$ [HSt Hk Hd]
  iframe HSt
  iintro %r18 %h18_0 HSt
  iapply (part19 h18_0) $$ [HSt Hk Hd]
  iframe HSt
  iintro %r19 HSt
  iapply part20 $$ [HSt Hk Hd]
  iframe HSt
  iintro %r20 HSt
  iapply part21 $$ [HSt Hk Hd]
  iframe HSt
  iintro %r21 %h21_0 HSt
  iapply (part22 h21_0) $$ [HSt Hk Hd]
  iframe HSt
  iintro %r22 HSt
  iapply part23 $$ [HSt Hk Hd]
  iframe HSt
  iintro %r23 HSt
  iapply part24 $$ [HSt Hk Hd]
  iframe HSt
  iintro %r24 HSt
  iapply part25 $$ [HSt Hk Hd]
  iframe HSt
  iintro %r25 HSt
  simp only [Prog.lift, Prog.bind_op, Prog.bind_ret, Prog.pure_eq_ret]
  iapply (Proved.step_send_wait 10) $$ HSt
  iintro HSt
  rw [wp_ret]; imodintro
  iapply (Proved.step_send_wait 17) $$ HSt
  iintro HSt
  rw [wp_ret]; imodintro
  iapply (Proved.step_send_wait 11) $$ HSt
  iintro HSt
  rw [wp_ret]; imodintro
  iapply (Proved.step_send_wait 12) $$ HSt
  iintro HSt
  rw [wp_ret]; imodintro
  rw [wp_ret]; imodintro
  iapply Hk $$ %f0 [HSt] [Hd]
  · iexact HSt
  · iexact Hd

theorem body_main : bodyPre m ρ K c ⊢ wp frame (wpE (defs₀ (F := F)) 𝒱₀ (c : Thread nD τ) none) Set.univ
      (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) (fun _ => bodyPost m ρ c) := by
  rw [cc0_body_eq_skeleton]
  unfold cc0_body_skel
  simp only [k0_part26_eq_skeleton]
  simp only [wp_bind]
  iintro Hpre
  iapply (body26 m ρ K c _) $$ [Hpre]
  iframe Hpre
  iintro %f0 HSt Hd
  simp only [Prog.lift, Prog.bind_op, Prog.bind_ret, Prog.pure_eq_ret]
  iapply (Proved.step_send_wait 18) $$ HSt
  iintro HSt
  rw [wp_ret]; imodintro
  iapply (Proved.step_send_wait 19) $$ HSt
  iintro HSt
  rw [wp_ret]; imodintro
  rw [wp_ret]
  imod (Proved.exit_of_full m ρ K c f0) $$ [HSt Hd] with Hpost
  · isplitl [HSt]
    · rw [← σ28_full]; iexact HSt
    · iexact Hd
  imodintro
  iexact Hpost

end Cert.Kernel.BodyPf

end
-- ==== Proof.Bits.Launch.lean ====
import proofs.«900723_g7700000000000724_dist_ar_v7x_xyz2x4x4_x_m2048_n512_bf16_1_alg».proof.Proof.Bits.State

noncomputable section

namespace Cert.Kernel.LaunchPf

open Cert.Kernel.Gen Cert.Kernel.Mesh Cert.Kernel.Sched Cert.Kernel.State

open Idealize.ShloMosaic
open Idealize.ShloMosaic.TcCoe
open Idealize.SL Idealize.SL.RA Idealize.SL.BI
open Idealize.SL.BI.BIBase Idealize.SL.BI.Laws
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 41 → SemLoc sig :=
  fun i => .dma ⟨i.val + 2, by have := i.isLt; have h43 : sig.nDmaSem = 43 := rfl; omega⟩

theorem osem_injective : Function.Injective osem := fun a b h =>
  Fin.ext (Nat.add_right_cancel (congrArg Fin.val (SemLoc.dma.inj h)))

theorem ownSemFacts : Pipeline.OwnSemFacts cfg0.spec osem :=
  ⟨by decide, osem_injective, by decide⟩

theorem share_eq (c : Dev nD) (w : Fin cfg0.W) : (dats m ρ 0 c).share w = fullShare := by unfold Dat.share; split <;> rfl

def xCells : Finset (GSem nD τ sig) := Finset.univ.map ⟨kcell, kcell_injective⟩

abbrev TokIx : Type := Fin 3 ⊕ (Fin 20 ⊕ Fin 20)
def pay : TokIx → Dev nD → Dev nD
  | .inl l => nb l
  | .inr (.inl _) => id
  | .inr (.inr j) => nb (link j)
def tokS : TokIx → SemLoc sig × Fin 3
  | .inl l => (.reg barS, l)
  | .inr (.inl j) => (.dma (ssem j), 0)
  | .inr (.inr j) => (.dma (rsem j), 0)
theorem tokS_inj : Function.Injective tokS := by decide
theorem pay_pay (a : TokIx) : Function.Involutive (pay a) := fun c => by
  rcases a with l | j | j <;> first | rfl | exact nb_nb _ c
def tokOf (x : Dev nD × TokIx) : GSem nD τ sig × ℕ × Fin 3 := (((pay x.2 x.1 : Thread nD τ), (tokS x.2).1), 0, (tokS x.2).2)

-- A token is named by its cell's semaphore and duty, which fix its kind, and by its payer, whose map to the cell's owner is an involution.
theorem tokOf_injective : Function.Injective tokOf := by
  rintro ⟨c, a⟩ ⟨c', a'⟩ h
  obtain rfl : a = a' := tokS_inj (Prod.ext (congrArg (·.1.2) h) (congrArg (·.2.2) h))
  exact Prod.ext ((pay_pay a).injective (congrArg (·.1.1.1) h)) rfl

def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

theorem unscopedSems0_eq (c : Dev nD) : (unscopedSems0 c : sProp 𝕄) = semVal (barCell c) 0 := by
  unfold unscopedSems0; rw [bigSep_eq_bigSepL_of_eq [SemLoc.reg barS] (by decide) (by decide)]; rfl

def eC : Unit ⊕ (Fin 20 ⊕ Fin 20) ≃ Fin 41 :=
  Equiv.ofBijective (fun | .inl _ => 0 | .inr (.inl j) => sIx j | .inr (.inr j) => rIx j) (by decide)

-- A device's forty-one cells: the barrier cell and, slot by slot, a departure cell and an arrival cell.
theorem cells_split (c : Dev nD) (Φ : GSem nD τ sig → sProp 𝕄) :
    (bigSep Finset.univ fun k : Fin 41 => Φ (kcell (c, k)))
      = iprop(Φ (barCell c) ∗ bigSep Finset.univ fun j : Fin 20 => iprop(Φ (sendCell c j) ∗ Φ (recvCell c j))) := by
  have hs (j : Fin 20) : kcell (c, eC (.inr (.inl j))) = sendCell c j := kcell_send c j
  have hr (j : Fin 20) : kcell (c, eC (.inr (.inr j))) = recvCell c j := kcell_recv c j
  have hb : kcell (c, eC (.inl ())) = barCell c := rfl
  rw [bigSep_univ_equiv eC (fun k : Fin 41 => Φ (kcell (c, k))), bigSep_univ_sum, bigSep_univ_sum, bigSep_univ_of_subsingleton (), bigSep_sep']
  simp only [hs, hr, hb]; rfl

def eO : (Fin 20 ⊕ Fin 20) ⊕ Unit ≃ Fin 41 :=
  Equiv.ofBijective (fun | .inl (.inl j) => ⟨(ssem j).val - 2, by revert j; decide⟩ | .inl (.inr j) => ⟨(rsem j).val - 2, by revert j; decide⟩ | .inr _ => 40) (by decide)
theorem osem_send (j : Fin 20) : osem (eO (.inl (.inl j))) = .dma (ssem j) := by revert j; decide
theorem osem_recv (j : Fin 20) : osem (eO (.inl (.inr j))) = .dma (rsem j) := by revert j; decide
theorem osem_idle : osem (eO (.inr ())) = .dma ⟨42, by decide⟩ := by decide

-- The forty-one own semaphores: slot by slot the departure and the arrival semaphore, and one that stays idle.
theorem ownSems0_eq (c : Dev nD) : (Pipeline.ownSems0 osem c : sProp 𝕄)
    = iprop((bigSep Finset.univ fun j : Fin 20 => iprop(semVal (sendCell c j) 0 ∗ semVal (recvCell c j) 0)) ∗ semVal (dCell c) 0) := by
  unfold Pipeline.ownSems0
  rw [bigSep_univ_equiv eO (fun k : Fin 41 => (semVal ((c : Thread nD τ), osem k) 0 : sProp 𝕄)), bigSep_univ_sum, bigSep_univ_sum,
    bigSep_univ_of_subsingleton (), bigSep_sep']
  simp only [osem_send, osem_recv, osem_idle]; rfl

def G (c : Dev nD) : sProp 𝕄 :=
  iprop((bigSep Finset.univ fun k : Fin 41 => roundState ER (Rd m ρ) (kcell (c, k)) 0)
    ∗ (bigSep Finset.univ fun k : Fin 41 => reached ER (kcell (c, k)) 0) ∗ positions c ∗ payToks c)

def Mid (c : Dev nD) : sProp 𝕄 :=
  iprop((bigSep Finset.univ fun k : Fin 41 => iprop(∃ κ : ℕ, cellInv ER (Rd m ρ) κ (kcell (c, k))))
    ∗ (bigSep Finset.univ fun k : Fin 41 => reached ER (kcell (c, k)) 0) ∗ positions c ∗ payToks c ∗ semVal (dCell c) 0)

def G' (c : Dev nD) : sProp 𝕄 :=
  iprop(∃ K : Dev nD × Fin 41 → ℕ, ((bigSep Finset.univ fun ck : Dev nD × Fin 41 => cellInv ER (Rd m ρ) (K ck) (kcell ck))
      ∗ (bigSep Finset.univ fun ck : Dev nD × Fin 41 => reached ER (kcell ck) 0))
    ∗ positions c ∗ payToks c ∗ semVal (dCell c) 0)

-- The launch element is every cell's round state at round 0, its position for its owner, and the duty tokens sorted by payer.
theorem fund_cells : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 41 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => payToks c := by
    unfold xToks; rw [bigSep_map, bigSep_univ_prod]
    exact bigSep_congr fun c _ => by unfold payToks; rw [bigSep_univ_sum, bigSep_univ_sum, bigSep_sep']; rfl
  refine (Rounds.fund ER (Rd m ρ) xCells xToks).trans (BI.bupd_mono ?_)
  rw [hX, hX, hX, hT]
  unfold G positions
  simp only [bigSep_sep', cells_split _ fun g => atPos ER g 0 ∅ 0]
  exact Entails.refl _

-- A semaphore at zero and its cell's round state at zero make the cell's invariant.
theorem cells_alloc (c : Dev nD) :
    iprop((semVal (barCell c) 0 ∗ bigSep Finset.univ fun j : Fin 20 => iprop(semVal (sendCell c j) 0 ∗ semVal (recvCell c j) 0))
        ∗ bigSep Finset.univ fun k : Fin 41 => roundState ER (Rd m ρ) (kcell (c, k)) 0)
      ⊢ (|={Set.univ}=> bigSep Finset.univ fun k : Fin 41 => iprop(∃ κ : ℕ, cellInv ER (Rd m ρ) κ (kcell (c, k))) : sProp 𝕄) := by
  rw [← cells_split c (fun g => semVal g 0), ← bigSep_sep']
  exact (bigSep_mono fun k _ => (Rounds.body_intro ER (Rd m ρ) (kcell (c, k))).trans inv_alloc).trans (bigSep_fupd _ _)

theorem core_alloc (c : Dev nD) : iprop(Pipeline.ownSems0 osem c ∗ unscopedSems0 c ∗ G m ρ c) ⊢ |={Set.univ}=> Mid m ρ c := by
  rw [ownSems0_eq, unscopedSems0_eq]
  unfold G Mid
  iintro ⟨⟨Hsr, Hd⟩, Hb, Hst, H⟩
  imod (cells_alloc m ρ c) $$ [Hb Hsr Hst] with Hinv
  · iframe
  imodintro
  iframe

-- The invariants are persistent, so one choice of names for all cells serves every device.
theorem regroup : (bigSep Finset.univ (Mid m ρ) : sProp 𝕄) ⊢ bigSep Finset.univ (G' m ρ) := by
  unfold Mid
  rw [bigSep_sep', bigSep_sep', ← bigSep_univ_prod (fun ck : Dev nD × Fin 41 => iprop(∃ κ : ℕ, cellInv ER (Rd m ρ) κ (kcell ck))),
    ← bigSep_univ_prod (fun ck : Dev nD × Fin 41 => (reached ER (kcell ck) 0 : sProp 𝕄))]
  iintro ⟨HI, #HR, H⟩
  ihave HK := (BI.bigSep_exists_pi Finset.univ (fun (ck : Dev nD × Fin 41) (κ : ℕ) => (cellInv ER (Rd m ρ) κ (kcell ck) : sProp 𝕄))) $$ HI
  icases HK with ⟨%K, #HI⟩
  iapply (bigSep_with_persistent (R := iprop((bigSep Finset.univ fun ck : Dev nD × Fin 41 => cellInv ER (Rd m ρ) (K ck) (kcell ck))
      ∗ (bigSep Finset.univ fun ck : Dev nD × Fin 41 => reached ER (kcell ck) 0)))
    (Φ := fun c => iprop(positions c ∗ payToks c ∗ semVal (dCell c) 0)) fun c _ => by unfold G'; iintro ⟨HR, H⟩; iexists K; iframe)
  iframe HI HR H

-- Three units of credit on one cell add up to three.
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

theorem launchCred_O₀ (c : Dev nD) :
    (Pipeline.launchCred O₀ c : sProp 𝕄)
      = iprop((((bigSep Finset.univ fun j : Fin 20 => Pipeline.launchCred (fun d : Dev nD => tallyAt (recvCell (nb (link j) d) j) () (NJ j)) c)
          ∗ Pipeline.launchCred (fun d : Dev nD => tallyAt (barCell (zbud d)) () 1) c)
          ∗ Pipeline.launchCred (fun d : Dev nD => tallyAt (barCell (ybud d)) () 1) c)
          ∗ Pipeline.launchCred (fun d : Dev nD => tallyAt (barCell (partner d)) () 1) c) := by
  rw [← Pipeline.launchCred_sum Finset.univ (fun (j : Fin 20) (d : Dev nD) => tallyAt (recvCell (nb (link j) d) j) () (NJ j)) c,
    ← Pipeline.launchCred_add, ← Pipeline.launchCred_add, ← Pipeline.launchCred_add]
  rfl

-- Each neighbour owes one unit to the barrier cell and its copy to each arrival cell; the neighbour maps are involutions.
theorem creds_intro (c : Dev nD) : (Pipeline.launchCred O₀ c : sProp 𝕄) ⊢ creds c := by
  rw [launchCred_O₀]
  unfold creds
  iintro ⟨⟨⟨HA, Hz⟩, Hy⟩, Hp⟩
  ihave Hz' := (Pipeline.launchCred_tallyAt (.reg barS) zbud zbud zbud_zbud zbud_zbud () 1 c) $$ Hz
  ihave Hy' := (Pipeline.launchCred_tallyAt (.reg barS) ybud ybud ybud_ybud ybud_ybud () 1 c) $$ Hy
  ihave Hp' := (Pipeline.launchCred_tallyAt (.reg barS) partner partner partner_partner partner_partner () 1 c) $$ Hp
  have hA : (_ : sProp 𝕄) ⊢ _ := bigSep_mono (s := Finset.univ) fun j _ => Pipeline.launchCred_tallyAt (.dma (rsem j)) (nb (link j)) (nb (link j)) (nb_nb (link j)) (nb_nb (link j)) () (NJ j) c
  ihave HA' := hA $$ HA
  isplitr [HA']
  · iapply (cred_three (F := F) (barCell c))
    iframe
  · iexact HA'

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _

theorem tallyAt_pos {d : Dev nD} {sm : SemLoc sig} {g : GSem nD τ sig} {k : ℕ} {u : Unit}
    (h : 0 < (tallyAt ((d : Thread nD τ), sm) () k : CellTallies nD τ sig Unit) g u) (hl : 0 < lv ((d : Thread nD τ), sm) ()) : u ∈ L g ∧ 0 < lv g u := by
  by_cases hne : g = ((d : Thread nD τ), sm)
  · rw [hne]; exact ⟨mem_L d sm u, hl⟩
  · rw [tallyAt_ne_cell hne, Finsupp.zero_apply] at h; exact absurd h (Nat.lt_irrefl 0)

theorem lvS_rsem_pos (j : Fin 20) : 0 < lvS (rsem j) := by revert j; decide

-- Every cell a device owes at launch has a positive level.
theorem O₀_pos {c : Dev nD} {g : GSem nD τ sig} {u : Unit} (h : 0 < O₀ c g u) : u ∈ L g ∧ 0 < lv g u := by
  have hb {d : Dev nD} (h : 0 < (tallyAt (barCell d) () 1 : CellTallies nD τ sig Unit) g u) :=
    tallyAt_pos h (show 0 < (if (barS : Sem sig) = barS then 1 else 0) from by rw [if_pos rfl]; exact Nat.one_pos)
  unfold O₀ at h
  rcases Pipeline.add_pos_cases h with h | h
  · rcases Pipeline.add_pos_cases h with h | h
    · rcases Pipeline.add_pos_cases h with h | h
      · obtain ⟨j, -, hj⟩ := Pipeline.sum_pos_exists h
        exact tallyAt_pos hj (lvS_rsem_pos j)
      · exact hb h
    · exact hb h
  · exact hb h

-- Level 0 lies below every cell owed at launch, and after the one point nothing is owed.
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact Pipeline.mayWait_of_levAts (mem_L c _ _) fun g u hg =>
        (O₀_pos hg).imp_right (lt_of_eq_of_lt (show lvS _ = 0 from by fin_cases w <;> fin_cases s <;> decide))
    · show _ ⊢ MayWait _ _ _ 0
      rw [MayWait_zero]; iintro -; iempintro

theorem run_main (hbody : ∀ c, BodyObligation (dats (F := F) m ρ 0 c) (defs₀ (F := F)) 𝒱₀ () Set.univ) :
    θ_run defs (onTc (τ := τ) (main (F := F))) (Sched.s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      iframe)
    (hglob := ((bigSep_mono fun c _ => core_alloc m ρ c).trans (bigSep_fupd _ _)).trans (BI.fupd_mono (regroup m ρ)))
    (hA := fun _ _ => rfl) (hpf := fun _ k => k.elim0)
    (X := start m ρ) (Y := fun _ => iprop(emp)) (Z := fun _ => iprop(emp))
    (hX := fun c => by
      iintro ⟨-, Hlev, Hcr, -, HG⟩
      ihave Hc := (creds_intro (F := F) c) $$ Hcr
      imodintro
      unfold start G' ghost records
      icases HG with ⟨%K, ⟨HI, HR⟩, Hp, Ht, Hd⟩
      iframe Hc Hd
      iexists K
      iframe)
    (hin := fun c => by
      rw [show (dats m ρ 0 c).Φ 0 = Φ₀ m ρ c from rfl, scopedRest0_eq]
      unfold Φ₀
      iintro ⟨Hs, -, Hs0, Ha0⟩
      iframe)
    (hout := fun c => by
      rw [show (dats m ρ 0 c).Φ (Fin.last cfg0.N) = Φ₁ c from rfl, scopedRest0_eq, ownSems0_eq]
      unfold Φ₁
      iintro ⟨Hs0, Ha0, Hsems, Hd⟩
      iframe)
    (QY := fun _ _ => True)
    (hY := fun c s' => by
      iintro ⟨-, -, HSI⟩
      imodintro
      iframe)
    (hQ := fun _ h c w => (h c).1 w)

end Cert.Kernel.LaunchPf

end
-- ==== Proof.Bits.Final.lean ====
import proofs.«900723_g7700000000000724_dist_ar_v7x_xyz2x4x4_x_m2048_n512_bf16_1_alg».proof.Proof.Bits.State
import Idealize.ShloMosaic.Lib.Pipeline.Value

noncomputable section

namespace Cert.Kernel.Proved

open Cert.Kernel.Gen Cert.Kernel.Sched Cert.Kernel.State

open Idealize.ShloMosaic
open Idealize.ShloMosaic.TcCoe

variable {F : FTy → Type} [FloatOps F]

variable (m : (ℓ : Loc nD τ sig) → Buf (Elt F) ℓ) (ρ : Dev nD → PrngReg)

-- The block at index zero with the array's own sizes is the whole array.
theorem xstg_eq (c : Dev nD) : xstg m ρ c = m ((c : Thread nD τ).loc main_arg0) :=
  Memref.read_access_unit_zero (Elt F) main_arg0 (funext fun a => Nat.zero_mul _) _ _

-- The result array is written back once, whole, after the single point.
theorem arr_out (c : Dev nD) : (State.dats m ρ 0 c).arrAt (1 : Fin 2) cfg0.N = outF m ρ c := by
  refine (congrArg _ cfg0_N).trans (((State.dats m ρ 0 c).arrAt_succ (1 : Fin 2) t₀).trans ?_)
  rw [if_pos (flush0_1 t₀)]
  exact Memref.write_access_unit_zero_univ (Elt F) main_v1 (funext fun a => Nat.zero_mul _) _ _ _

theorem run_post
    (h : θ_run defs (onTc (τ := τ) (main (F := F))) (Sched.s₀ m ρ) (fun r => ∀ c : Dev nD, ∀ w : Fin cfg0.W,
      r.2.mem ((cfg0.win w).arr.view.loc (c : Thread nD τ)) = (State.dats m ρ 0 c).arrAt w cfg0.N)) :
    θ_run defs (onTc (τ := τ) (main (F := F))) ⟨m, fun _ => 0, ρ⟩ (fun r => ∀ c : Dev nD,
      r.2.mem ((c.tc : Thread nD τ).loc main_v1) = outF m ρ c
      ∧ r.2.mem ((c.tc : Thread nD τ).loc main_arg0) = m ((c.tc : Thread nD τ).loc main_arg0)) :=
  (θ_run defs _ _).mono (fun r hr c => ⟨(hr c 1).trans (arr_out m ρ c),
    (hr c 0).trans ((State.dats m ρ 0 c).arrAt_in (0 : Fin 2) rfl cfg0.N)⟩) h

end Cert.Kernel.Proved

end
-- ==== Proof.Bits.Run.lean ====
import proofs.«900723_g7700000000000724_dist_ar_v7x_xyz2x4x4_x_m2048_n512_bf16_1_alg».proof.Proof.Bits.Body
import proofs.«900723_g7700000000000724_dist_ar_v7x_xyz2x4x4_x_m2048_n512_bf16_1_alg».proof.Proof.Bits.Launch
import proofs.«900723_g7700000000000724_dist_ar_v7x_xyz2x4x4_x_m2048_n512_bf16_1_alg».proof.Proof.Bits.Final

noncomputable section

namespace Cert.Kernel.RunPf

open Cert.Kernel.Sched

open Idealize.ShloMosaic

variable {F : FTy → Type} [FloatOps F]

variable (m : (ℓ : Loc nD τ sig) → Buf (Elt F) ℓ) (ρ : Dev nD → PrngReg)

theorem run : θ_run defs (onTc (τ := τ) (main (F := F))) ⟨m, fun _ => 0, ρ⟩ (fun r => ∀ c : Dev nD,
    r.2.mem ((c.tc : Thread nD τ).loc main_v1) = outF m ρ c
    ∧ r.2.mem ((c.tc : Thread nD τ).loc main_arg0) = m ((c.tc : Thread nD τ).loc main_arg0)) :=
  Proved.run_post m ρ (LaunchPf.run_main m ρ (BodyPf.body_obligation m ρ (BodyPf.body_main m ρ)))

end Cert.Kernel.RunPf

end
-- ==== Proof.RefSide.lean ====
import proofs.«900723_g7700000000000724_dist_ar_v7x_xyz2x4x4_x_m2048_n512_bf16_1_alg».proof.Defs
import proofs.«900723_g7700000000000724_dist_ar_v7x_xyz2x4x4_x_m2048_n512_bf16_1_alg».proof.Proof.Gen.ReferenceIdeal.Read
import proofs.«900723_g7700000000000724_dist_ar_v7x_xyz2x4x4_x_m2048_n512_bf16_1_alg».proof.Proof.Gen.Pre_finite_inputs_ReferenceIdeal

noncomputable section

namespace Cert.RefSide

open Idealize.ShloMosaic Idealize.SL.Sem Cert.ReferenceIdeal

theorem frame_ri : Cert.frame_ReferenceIdeal := fun m ρ _ =>
  (θ_run defs _ _).mono (fun _ h c => (h c).2) (Value.run (F := Ideal) m ρ)

def half (b : Fin 2) (i : S2048x512.Idx) : S4096x512.Idx := fun a => match a with
  | ⟨0, _⟩ => ⟨b.val * 2048 + (i 0).val, by
      have hb : b.val < 2 := b.isLt; have h0 : (i 0).val < 2048 := (i 0).isLt
      show b.val * 2048 + (i 0).val < 4096; omega⟩
  | ⟨1, _⟩ => ⟨(i 1).val, (i 1).isLt⟩

def refVal (X : (⟨S4096x512, .f32⟩ : BufTy).Contents (Elt Ideal)) : (⟨S2048x512, .bf16⟩ : BufTy).Contents (Elt Ideal) :=
  fun i => ((X (half 0 i) : EReal) + (X (half 1 i) : EReal) : EReal)

-- Element (k, r, col) of the array reshaped to 2 × 2048 × 512 is element (2048·k + r, col) of the whole array.
theorem idx_half (i : S2048x512.Idx) (k : Fin 2) : Read.idx_main_v0 (Read.idx_main_v1 i k) = half k i := by
  have h1 : (i 1).val < 512 := (i 1).isLt
  funext a
  match a with
  | ⟨0, _⟩ => exact Fin.ext (by show ((k.val * 2048 + (i 0).val) * 512 + (i 1).val) / 512 = k.val * 2048 + (i 0).val; omega)
  | ⟨1, _⟩ => exact Fin.ext (by show ((k.val * 2048 + (i 0).val) * 512 + (i 1).val) % 512 = (i 1).val; omega)

-- The reduction starts from zero and the change of format is the identity on extended reals.
theorem val_eq_refVal (X : (⟨S4096x512, .f32⟩ : BufTy).Contents (Elt Ideal)) : Read.val_main_v2 (F := Ideal) X = refVal X := by
  funext i
  rw [Read.val_main_v2_apply, Read.val_main_v1_apply, Fin.sum_univ_two, Read.val_main_v0_apply, Read.val_main_v0_apply,
    idx_half, idx_half, Read.val_main_cst_apply]
  show Ideal.ofBits .f32 0x00000000#32 + (_ + _) = _
  rw [Ideal.ofBits_zero_f32, zero_add]
  rfl

theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v2) = refVal (m' (((0 : Dev nD).tc : Thread nD τ).loc main_arg0))
      ∧ r.2.mem (((0 : Dev nD).tc : Thread nD τ).loc main_arg0) = m' (((0 : Dev nD).tc : Thread nD τ).loc main_arg0)) :=
  (θ_run defs _ _).mono (fun _ h => ⟨(h 0).1.trans (val_eq_refVal _), (h 0).2⟩) (Value.run (F := Ideal) m' g')

-- Device c, at x = c / 16, holds rows 2048·(c / 16) .. 2048·(c / 16) + 2047 of the whole array.
theorem block_at (X : S4096x512.Idx → EReal) (c : Dev KernelIdeal.nD) (b : Fin 2) (hb : c.val / 16 = b.val) (i : S2048x512.Idx) :
    (Layout.blockN ⟨2, ![2048, 512]⟩ ⟨2, ![4096, 512]⟩ (Layout.meshBlock [2, 4, 4] ![[0], []] c) X) i = X (half b i) := by
  have hc : c.val < 32 := c.isLt
  refine congrArg X (funext fun a => ?_)
  match a with
  | ⟨0, _⟩ => exact Fin.ext (by show (c.val / 16 % 2 * 1 + 0) * 2048 + (i 0).val = b.val * 2048 + (i 0).val; omega)
  | ⟨1, _⟩ => exact Fin.ext (by show 0 * 512 + (i 1).val = (i 1).val; omega)

abbrev argOf (m : (ℓ : Loc KernelIdeal.nD KernelIdeal.τ KernelIdeal.sig) → Buf (Elt Ideal) ℓ)
    (c : Dev KernelIdeal.nD) : S2048x512.Idx → EReal :=
  m ((c.tc : Thread KernelIdeal.nD KernelIdeal.τ).loc KernelIdeal.main_arg0)

-- The two sides of the x axis hold the two halves, so an element plus that of any device across is the sum of the halves.
theorem join
    (m : (ℓ : Loc KernelIdeal.nD KernelIdeal.τ KernelIdeal.sig) → Buf (Elt Ideal) ℓ)
    (m' : (ℓ : Loc nD τ sig) → Buf (Elt Ideal) ℓ)
    (hagree : ∀ c : Dev KernelIdeal.nD,
      m ((c.tc : Thread KernelIdeal.nD KernelIdeal.τ).loc KernelIdeal.main_arg0) = Layout.blockN ⟨2, ![2048, 512]⟩ ⟨2, ![4096, 512]⟩ (Layout.meshBlock [2, 4, 4] ![[0], []] c) (m' (((0 : Dev nD).tc : Thread nD τ).loc main_arg0)))
    (c : Dev KernelIdeal.nD) (s : S2048x512.Idx → Dev KernelIdeal.nD)
    (hs : ∀ i, (s i).val / 16 = 1 - c.val / 16) :
    (fun i => argOf m c i + argOf m (s i) i) = refVal (m' (((0 : Dev nD).tc : Thread nD τ).loc main_arg0)) := by
  funext i
  have hc : c.val < 32 := c.isLt
  have he := hs i
  simp only [argOf, hagree]
  rcases Nat.lt_or_ge c.val 16 with h | h
  · rw [block_at _ c 0 (by show _ = 0; omega), block_at _ (s i) 1 (by show _ = 1; omega)]; rfl
  · rw [block_at _ c 1 (by show _ = 1; omega), block_at _ (s i) 0 (by show _ = 0; omega)]; exact add_comm (G := EReal) _ _

end Cert.RefSide

end
-- ==== Proof.ValueIdeal.lean ====
import proofs.«900723_g7700000000000724_dist_ar_v7x_xyz2x4x4_x_m2048_n512_bf16_1_alg».proof.Proof.Final
import proofs.«900723_g7700000000000724_dist_ar_v7x_xyz2x4x4_x_m2048_n512_bf16_1_alg».proof.Proof.RefSide

noncomputable section

namespace Cert.KernelIdeal.Proved

open Cert.KernelIdeal Cert.KernelIdeal.Sched Idealize.ShloMosaic

-- On extended reals rounding is the identity, so a device's result is its own element plus that of a device across the x axis.
theorem out_eq_ref (m : (ℓ : Loc nD τ sig) → Buf (Elt Ideal) ℓ) (ρ : Dev nD → PrngReg)
    (m' : (ℓ : Loc ReferenceIdeal.nD ReferenceIdeal.τ ReferenceIdeal.sig) → Buf (Elt Ideal) ℓ)
    (hagree : ∀ c : Dev nD,
      m ((c.tc : Thread nD τ).loc main_arg0) = Layout.blockN ⟨2, ![2048, 512]⟩ ⟨2, ![4096, 512]⟩ (Layout.meshBlock [2, 4, 4] ![[0], []] c) (m' (((0 : Dev ReferenceIdeal.nD).tc : Thread ReferenceIdeal.nD ReferenceIdeal.τ).loc ReferenceIdeal.main_arg0)))
    (c : Dev nD) :
    outF (F := Ideal) m ρ c
      = RefSide.refVal (m' (((0 : Dev ReferenceIdeal.nD).tc : Thread ReferenceIdeal.nD ReferenceIdeal.τ).loc ReferenceIdeal.main_arg0)) := by
  rw [← RefSide.join m m' hagree c (fun i => Mesh.srcDev c (i 0).val) fun i => Mesh.srcDev_x c (i 0).val]
  funext i
  unfold outF accF
  rw [xstg_eq, xstg_eq]
  rfl

end Cert.KernelIdeal.Proved

end
-- ==== Proof.lean ====
import proofs.«900723_g7700000000000724_dist_ar_v7x_xyz2x4x4_x_m2048_n512_bf16_1_alg».proof.Defs
import proofs.«900723_g7700000000000724_dist_ar_v7x_xyz2x4x4_x_m2048_n512_bf16_1_alg».proof.Proof.Gen.Kernel
import proofs.«900723_g7700000000000724_dist_ar_v7x_xyz2x4x4_x_m2048_n512_bf16_1_alg».proof.Proof.Gen.KernelIdeal
import proofs.«900723_g7700000000000724_dist_ar_v7x_xyz2x4x4_x_m2048_n512_bf16_1_alg».proof.Proof.Gen.ReferenceIdeal
import proofs.«900723_g7700000000000724_dist_ar_v7x_xyz2x4x4_x_m2048_n512_bf16_1_alg».proof.Proof.Gen.Pre_finite_inputs_Kernel
import proofs.«900723_g7700000000000724_dist_ar_v7x_xyz2x4x4_x_m2048_n512_bf16_1_alg».proof.Proof.Gen.Pre_finite_inputs_ReferenceIdeal
import proofs.«900723_g7700000000000724_dist_ar_v7x_xyz2x4x4_x_m2048_n512_bf16_1_alg».proof.Proof.Run
import proofs.«900723_g7700000000000724_dist_ar_v7x_xyz2x4x4_x_m2048_n512_bf16_1_alg».proof.Proof.Bits.Run
import proofs.«900723_g7700000000000724_dist_ar_v7x_xyz2x4x4_x_m2048_n512_bf16_1_alg».proof.Proof.ValueIdeal
import proofs.«900723_g7700000000000724_dist_ar_v7x_xyz2x4x4_x_m2048_n512_bf16_1_alg».proof.Proof.RefSide
import Idealize.ShloMosaic.Adequacy
import Idealize.ShloMosaic.Init

noncomputable section

namespace Cert.Proof

open Idealize.ShloMosaic Idealize.SL.Sem

/-- Each frame is the device run with the values dropped. -/
theorem frame_k : Cert.frame_Kernel := fun m ρ _ =>
  (θ_run Cert.Kernel.defs _ _).mono (fun _ h c => (h c).2) (Cert.Kernel.RunPf.run (F := Bits) m ρ)

theorem frame_ki : Cert.frame_KernelIdeal := fun m ρ _ =>
  (θ_run Cert.KernelIdeal.defs _ _).mono (fun _ h c => (h c).2) (Cert.KernelIdeal.RunPf.run (F := Ideal) m ρ)

/-- Both runs end at the same function of x: a device's own block plus the block across the x axis. -/
theorem algebraic : Cert.algebraic_KernelIdeal_ReferenceIdeal := by
  intro m ρ m' ρ' _ hagree
  refine ⟨Cert.RefSide.refVal (m' (((0 : Dev Cert.ReferenceIdeal.nD).tc : Thread Cert.ReferenceIdeal.nD Cert.ReferenceIdeal.τ).loc Cert.ReferenceIdeal.main_arg0)), ?_, Cert.RefSide.ref_run m' ρ'⟩
  exact (θ_run Cert.KernelIdeal.defs _ _).mono
    (fun _ h c => ⟨(h c).1.trans (Cert.KernelIdeal.Proved.out_eq_ref m ρ m' hagree c), (h c).2⟩)
    (Cert.KernelIdeal.RunPf.run (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame_ri, trivial, algebraic⟩

end Cert.Proof

end
